-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1x4x16 : Shape := ⟨3, ![1, 4, 16]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x4x16 : S_.BroadcastsInDim S1x4x16 (![] : Fin 0 → Fin S1x4x16.rank)
  reducesTo_S1x4x16_S_d0_1_2 : S1x4x16.ReducesTo [0, 1, 2] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg4 : FVec F S1x4x16 .f32) (main_arg5 : IVec S2x1600000 32) (main_v13 : IVec S_ 1) (main_v16 : IVec S1x4x16 1) : IVec S_ 1 :=
  let main_c_5 : IVec S_ 1 := constantI S_ 1 1#1
  let main_v17 : IVec S_ 1 := (fun x v => Host.reduce IntOp.andi x v reducesTo_S1x4x16_S_d0_1_2 h_S_) main_v16 main_c_5
  let main_v18 : IVec S_ 1 := andi main_v13 main_v17
  let main_v19 : FVec F S1x4x16 .f32 := Host.absf main_arg4
  let main_cst_6 : FVec F S_ .f32 := constant S_ .f32 0x7F800000#32
  let main_v20 : FVec F S1x4x16 .f32 := broadcastInDim S1x4x16 ![] bcast_S_S1x4x16 main_cst_6
  let main_v21 : IVec S1x4x16 1 := cmpf .olt main_v19 main_v20
  let main_c_7 : IVec S_ 1 := constantI S_ 1 1#1
  let main_v22 : IVec S_ 1 := (fun x v => Host.reduce IntOp.andi x v reducesTo_S1x4x16_S_d0_1_2 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg5 main_v24
  let main_c_9 : IVec S_ 1 := constantI S_ 1 1#1
  let main_v26 : IVec S_ 1 := (fun x v => Host.reduce IntOp.andi x v reducesTo_S2x1600000_S_d0_1 h_S_) main_v25 main_c_9
  let main_v27 : IVec S_ 1 := andi main_v23 main_v26
  let main_c_10 : IVec S_ 32 := constantI S_ 32 100000#32
  let main_v28 : IVec S2x1600000 32 := broadcastInDim S2x1600000 ![] bcast_S_S2x1600000 main_c_10
  let main_v29 : IVec S2x1600000 1 := cmpi .slt main_arg5 main_v28
  let main_c_11 : IVec S_ 1 := constantI S_ 1 1#1
  let main_v30 : IVec S_ 1 := (fun x v => Host.reduce IntOp.andi x v reducesTo_S2x1600000_S_d0_1 h_S_) main_v29 main_c_11
  let main_v31 : IVec S_ 1 := andi main_v27 main_v30
  main_v31

def fn {F : FTy → Type} [FloatOps F] (main_arg0 : FVec F S100000x64 .f32) (main_arg1 : FVec F S64x64 .f32) (main_arg2 : FVec F S64 .f32) (main_arg3 : FVec F S1x4x16 .f32) (main_arg4 : FVec F S1x4x16 .f32) (main_arg5 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x4x16 .f32 := Host.absf main_arg3
  let main_cst_4 : FVec F S_ .f32 := constant S_ .f32 0x7F800000#32
  let main_v15 : FVec F S1x4x16 .f32 := broadcastInDim S1x4x16 ![] bcast_S_S1x4x16 main_cst_4
  let main_v16 : IVec S1x4x16 1 := cmpf .olt main_v14 main_v15
  fn_part1 (F := F) main_arg4 main_arg5 main_v13 main_v16
-- ==== Kernel.lean ====
abbrev S100000x64 : Shape := ⟨2, ![100000, 64]⟩
abbrev S64x64 : Shape := ⟨2, ![64, 64]⟩
abbrev S64 : Shape := ⟨1, ![64]⟩
abbrev S1x4x16 : Shape := ⟨3, ![1, 4, 16]⟩
abbrev S2x1600000 : Shape := ⟨2, ![2, 1600000]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1703936 : Shape := ⟨1, ![1703936]⟩
abbrev S106496x64 : Shape := ⟨2, ![106496, 64]⟩
abbrev S4x16 : Shape := ⟨2, ![4, 16]⟩
abbrev S8192x64 : Shape := ⟨2, ![8192, 64]⟩
abbrev S1x64 : Shape := ⟨2, ![1, 64]⟩
abbrev S1703936x1 : Shape := ⟨2, ![1703936, 1]⟩
abbrev S1x1703936 : Shape := ⟨2, ![1, 1703936]⟩
abbrev S1703936x64 : Shape := ⟨2, ![1703936, 64]⟩
abbrev S1703936x4 : Shape := ⟨2, ![1703936, 4]⟩
abbrev S8192x1 : Shape := ⟨2, ![8192, 1]⟩
abbrev S512x64 : Shape := ⟨2, ![512, 64]⟩
abbrev S8192x4 : Shape := ⟨2, ![8192, 4]⟩
abbrev S1x512 : Shape := ⟨2, ![1, 512]⟩
abbrev S8192x512 : Shape := ⟨2, ![8192, 512]⟩
abbrev S8192x16 : Shape := ⟨2, ![8192, 16]⟩
abbrev S1x16 : Shape := ⟨2, ![1, 16]⟩
abbrev S8192 : Shape := ⟨1, ![8192]⟩
abbrev S1700000x4 : Shape := ⟨2, ![1700000, 4]⟩
abbrev S1x1 : Shape := ⟨2, ![1, 1]⟩
abbrev S106496x4 : Shape := ⟨2, ![106496, 4]⟩
abbrev S1x8192 : Shape := ⟨2, ![1, 8192]⟩
abbrev S512x4 : Shape := ⟨2, ![512, 4]⟩
abbrev S512x1 : Shape := ⟨2, ![512, 1]⟩
abbrev S512x8192 : Shape := ⟨2, ![512, 8192]⟩
abbrev S100000x4x16 : Shape := ⟨3, ![100000, 4, 16]⟩
abbrev S4x100000x16 : Shape := ⟨3, ![4, 100000, 16]⟩

abbrev nBuf : Space → Nat
  | .hbm => 42
  | .vmem => 44
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1x4x16, .f32⟩
  | .hbm, ⟨4, _⟩ => ⟨S1x4x16, .f32⟩
  | .hbm, ⟨5, _⟩ => ⟨S2x1600000, .i32⟩
  | .hbm, ⟨6, _⟩ => ⟨S100000, .i32⟩
  | .hbm, ⟨7, _⟩ => ⟨S1x100000, .i32⟩
  | .hbm, ⟨8, _⟩ => ⟨S1x100000, .i32⟩
  | .hbm, ⟨9, _⟩ => ⟨S2x100000, .i32⟩
  | .hbm, ⟨10, _⟩ => ⟨S2x1700000, .i32⟩
  | .hbm, ⟨11, _⟩ => ⟨S1x1700000, .i32⟩
  | .hbm, ⟨12, _⟩ => ⟨S1700000, .i32⟩
  | .hbm, ⟨13, _⟩ => ⟨S1x1700000, .i32⟩
  | .hbm, ⟨14, _⟩ => ⟨S1700000, .i32⟩
  | .hbm, ⟨15, _⟩ => ⟨S_, .i32⟩
  | .hbm, ⟨16, _⟩ => ⟨S_, .i32⟩
  | .hbm, ⟨17, _⟩ => ⟨S1703936, .i32⟩
  | .hbm, ⟨18, _⟩ => ⟨S_, .i32⟩
  | .hbm, ⟨19, _⟩ => ⟨S_, .i32⟩
  | .hbm, ⟨20, _⟩ => ⟨S1703936, .i32⟩
  | .hbm, ⟨21, _⟩ => ⟨S_, .i32⟩
  | .hbm, ⟨22, _⟩ => ⟨S_, .f32⟩
  | .hbm, ⟨23, _⟩ => ⟨S106496x64, .f32⟩
  | .hbm, ⟨24, _⟩ => ⟨S4x16, .f32⟩
  | .hbm, ⟨25, _⟩ => ⟨S4x16, .f32⟩
  | .hbm, ⟨26, _⟩ => ⟨S106496x64, .bf16⟩
  | .hbm, ⟨27, _⟩ => ⟨S1703936x1, .i32⟩
  | .hbm, ⟨28, _⟩ => ⟨S1703936x1, .i32⟩
  | .hbm, ⟨29, _⟩ => ⟨S1x1703936, .i32⟩
  | .hbm, ⟨30, _⟩ => ⟨S1703936x64, .bf16⟩
  | .hbm, ⟨31, _⟩ => ⟨S1703936x4, .f32⟩
  | .hbm, ⟨32, _⟩ => ⟨S1700000x4, .f32⟩
  | .hbm, ⟨33, _⟩ => ⟨S_, .f32⟩
  | .hbm, ⟨34, _⟩ => ⟨S_, .f32⟩
  | .hbm, ⟨35, _⟩ => ⟨S1x1, .f32⟩
  | .hbm, ⟨36, _⟩ => ⟨S106496x4, .f32⟩
  | .hbm, ⟨37, _⟩ => ⟨S1703936x64, .bf16⟩
  | .hbm, ⟨38, _⟩ => ⟨S106496x64, .f32⟩
  | .hbm, ⟨39, _⟩ => ⟨S100000x64, .f32⟩
  | .hbm, ⟨40, _⟩ => ⟨S100000x4x16, .f32⟩
  | .hbm, ⟨41, _⟩ => ⟨S4x100000x16, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S64, .f32⟩
  | .local _ .vmem, ⟨4, _⟩ => ⟨S8192x64, .bf16⟩
  | .local _ .vmem, ⟨5, _⟩ => ⟨S8192x64, .bf16⟩
  | .local _ .vmem, ⟨6, _⟩ => ⟨S8192x1, .i32⟩
  | .local _ .vmem, ⟨7, _⟩ => ⟨S8192x1, .i32⟩
  | .local _ .vmem, ⟨8, _⟩ => ⟨S512x64, .bf16⟩
  | .local _ .vmem, ⟨9, _⟩ => ⟨S512x64, .bf16⟩
  | .local _ .vmem, ⟨10, _⟩ => ⟨S4x16, .f32⟩
  | .local _ .vmem, ⟨11, _⟩ => ⟨S4x16, .f32⟩
  | .local _ .vmem, ⟨12, _⟩ => ⟨S8192x64, .bf16⟩
  | .local _ .vmem, ⟨13, _⟩ => ⟨S8192x64, .bf16⟩
  | .local _ .vmem, ⟨14, _⟩ => ⟨S8192x4, .f32⟩
  | .local _ .vmem, ⟨15, _⟩ => ⟨S8192x4, .f32⟩
  | .local _ .vmem, ⟨16, _⟩ => ⟨S8192x64, .f32⟩
  | .local _ .vmem, ⟨17, _⟩ => ⟨S1x8192, .i32⟩
  | .local _ .vmem, ⟨18, _⟩ => ⟨S1x8192, .i32⟩
  | .local _ .vmem, ⟨19, _⟩ => ⟨S8192x4, .f32⟩
  | .local _ .vmem, ⟨20, _⟩ => ⟨S8192x4, .f32⟩
  | .local _ .vmem, ⟨21, _⟩ => ⟨S1x1, .f32⟩
  | .local _ .vmem, ⟨22, _⟩ => ⟨S512x4, .f32⟩
  | .local _ .vmem, ⟨23, _⟩ => ⟨S512x4, .f32⟩
  | .local _ .vmem, ⟨24, _⟩ => ⟨S512x4, .f32⟩
  | .local _ .vmem, ⟨25, _⟩ => ⟨S8192x1, .i32⟩
  | .local _ .vmem, ⟨26, _⟩ => ⟨S8192x1, .i32⟩
  | .local _ .vmem, ⟨27, _⟩ => ⟨S512x4, .f32⟩
  | .local _ .vmem, ⟨28, _⟩ => ⟨S512x4, .f32⟩
  | .local _ .vmem, ⟨29, _⟩ => ⟨S8192x64, .bf16⟩
  | .local _ .vmem, ⟨30, _⟩ => ⟨S8192x64, .bf16⟩
  | .local _ .vmem, ⟨31, _⟩ => ⟨S8192x4, .f32⟩
  | .local _ .vmem, ⟨32, _⟩ => ⟨S8192x4, .f32⟩
  | .local _ .vmem, ⟨33, _⟩ => ⟨S1x1, .f32⟩
  | .local _ .vmem, ⟨34, _⟩ => ⟨S8192x64, .bf16⟩
  | .local _ .vmem, ⟨35, _⟩ => ⟨S8192x64, .bf16⟩
  | .local _ .vmem, ⟨36, _⟩ => ⟨S8192x4, .f32⟩
  | .local _ .vmem, ⟨37, _⟩ => ⟨S1x8192, .i32⟩
  | .local _ .vmem, ⟨38, _⟩ => ⟨S1x8192, .i32⟩
  | .local _ .vmem, ⟨39, _⟩ => ⟨S8192x64, .bf16⟩
  | .local _ .vmem, ⟨40, _⟩ => ⟨S8192x64, .bf16⟩
  | .local _ .vmem, ⟨41, _⟩ => ⟨S512x64, .f32⟩
  | .local _ .vmem, ⟨42, _⟩ => ⟨S512x64, .f32⟩
  | .local _ .vmem, ⟨43, _⟩ => ⟨S512x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_c_1 : Ref sig .tc := ⟨.hbm, 21, rfl⟩
abbrev main_call2_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_scratch0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![208, 208], ![false, false]⟩

def k1_cond2 (i : grid1.Coords) : BitVec 1 :=
  let arg1 : BitVec 32 := BitVec.ofNat 32 (i 1).val
  let c207_i32 : BitVec 32 := 207#32
  let v23 : BitVec 1 := Scalar.cmpi .eq arg1 c207_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S8192x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8192x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![208, 208], ![false, false]⟩

def k2_cond2 (i : grid2.Coords) : BitVec 1 :=
  let arg1 : BitVec 32 := BitVec.ofNat 32 (i 1).val
  let c207_i32 : BitVec 32 := 207#32
  let v29 : BitVec 1 := Scalar.cmpi .eq arg1 c207_i32
  let v30 : BitVec 32 := Scalar.extui v29
  let c0_i32_10 : BitVec 32 := 0#32
  let v31 : BitVec 1 := Scalar.cmpi .ne v30 c0_i32_10
  v31

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S8192x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![208, 208], ![false, false]⟩

def k3_cond2 (i : grid3.Coords) : BitVec 1 :=
  let arg1 : BitVec 32 := BitVec.ofNat 32 (i 1).val
  let c207_i32 : BitVec 32 := 207#32
  let v24 : BitVec 1 := Scalar.cmpi .eq arg1 c207_i32
  let v25 : BitVec 32 := Scalar.extui v24
  let c0_i32_8 : BitVec 32 := 0#32
  let v26 : BitVec 1 := Scalar.cmpi .ne v25 c0_i32_8
  v26

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S8192x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8192x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S8192x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S8192x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![208, 208], ![false, false]⟩

def k4_cond2 (i : grid4.Coords) : BitVec 1 :=
  let arg1 : BitVec 32 := BitVec.ofNat 32 (i 1).val
  let c207_i32 : BitVec 32 := 207#32
  let v23 : BitVec 1 := Scalar.cmpi .eq arg1 c207_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x8192 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S8192x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  pads_S1700000_S1703936_039360 : S1700000.Pads (![0] : Fin 1 → Nat) ![3936] ![0] S1703936
  h_S_ : 0 < S_.numel
  pads_S100000x64_S106496x64_064960_000 : S100000x64.Pads (![0, 0] : Fin 2 → Nat) ![6496, 0] ![0, 0] S106496x64
  shapeCasts_S1x4x16_S4x16 : S1x4x16.ShapeCasts S4x16
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  packedbf16_S8192x64_S8192x64_0_0 : (Rect.unit (s := S8192x64) ![0, 0] S8192x64.size inb_S8192x64_S8192x64_0_0).PackedRows (EltTy.packing .bf16)
  shapeCasts_S1703936_S1703936x1 : S1703936.ShapeCasts S1703936x1
  shapeCasts_S1703936_S1x1703936 : S1703936.ShapeCasts S1x1703936
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S1x512_d1_w32 : S1x512.Iotas .tc 32 [1]
  broadcasts_S8192x1_S8192x512 : S8192x1.Broadcasts S8192x512
  broadcasts_S1x512_S8192x512 : S1x512.Broadcasts S8192x512
  natLt_1_32 : 1 < 32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  slices_S8192x64_o0_0_S8192x16 : S8192x64.Slices ![0, 0] S8192x16
  inb_S4x16_S1x16_0_0 : ∀ a, (![0, 0] : Fin 2 → Nat) a + S1x16.size a ≤ S4x16.size a
  h_S1x16 : 0 < S1x16.numel
  shapeCasts_S1x16_S1x16 : S1x16.ShapeCasts S1x16
  broadcasts_S1x16_S8192x16 : S1x16.Broadcasts S8192x16
  reduces_S8192x16_S8192 : S8192x16.Reduces [1] S8192
  shapeCasts_S8192_S8192x1 : S8192.ShapeCasts S8192x1
  slices_S8192x64_o0_16_S8192x16 : S8192x64.Slices ![0, 16] S8192x16
  inb_S4x16_S1x16_1_0 : ∀ a, (![1, 0] : Fin 2 → Nat) a + S1x16.size a ≤ S4x16.size a
  slices_S8192x64_o0_32_S8192x16 : S8192x64.Slices ![0, 32] S8192x16
  inb_S4x16_S1x16_2_0 : ∀ a, (![2, 0] : Fin 2 → Nat) a + S1x16.size a ≤ S4x16.size a
  slices_S8192x64_o0_48_S8192x16 : S8192x64.Slices ![0, 48] S8192x16
  inb_S4x16_S1x16_3_0 : ∀ a, (![3, 0] : Fin 2 → Nat) a + S1x16.size a ≤ S4x16.size a
  concatenates_S8192x1_S8192x1_S8192x1_S8192x1_S8192x4_d1 : Shape.Concatenates [S8192x1, S8192x1, S8192x1, S8192x1] S8192x4 1
  inb_S8192x4_S8192x4_0_0 : ∀ a, (![0, 0] : Fin 2 → Nat) a + S8192x4.size a ≤ S8192x4.size a
  h_S8192x4 : 0 < S8192x4.numel
  slices_S1703936x4_S1700000x4_0_0 : S1703936x4.Slices ![0, 0] S1700000x4
  reducesTo_S1700000x4_S_d0_1 : S1700000x4.ReducesTo [0, 1] S_
  shapeCasts_S_S1x1 : S_.ShapeCasts S1x1
  inb_S512x4_S512x4_0_0 : ∀ a, (![0, 0] : Fin 2 → Nat) a + S512x4.size a ≤ S512x4.size a
  h_S512x4 : 0 < S512x4.numel
  shapeCasts_S512x4_S512x4 : S512x4.ShapeCasts S512x4
  iota_S512x1_d0_w32 : S512x1.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S512x1_S512x8192 : S512x1.Broadcasts S512x8192
  broadcasts_S1x8192_S512x8192 : S1x8192.Broadcasts S512x8192
  shapeCasts_S8192x4_S8192x4 : S8192x4.ShapeCasts S8192x4
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S8192x4_o0_0_S8192x1 : S8192x4.Slices ![0, 0] S8192x1
  broadcasts_S8192x1_S8192x16 : S8192x1.Broadcasts S8192x16
  slices_S8192x4_o0_1_S8192x1 : S8192x4.Slices ![0, 1] S8192x1
  slices_S8192x4_o0_2_S8192x1 : S8192x4.Slices ![0, 2] S8192x1
  slices_S8192x4_o0_3_S8192x1 : S8192x4.Slices ![0, 3] S8192x1
  concatenates_S8192x16_S8192x16_S8192x16_S8192x16_S8192x64_d1 : Shape.Concatenates [S8192x16, S8192x16, S8192x16, S8192x16] S8192x64 1
  slices_S106496x64_S100000x64_0_0 : S106496x64.Slices ![0, 0] S100000x64
  shapeCasts_S100000x64_S100000x4x16 : S100000x64.ShapeCasts S100000x4x16
  transposes_S100000x4x16_S4x100000x16_1_0_2 : S100000x4x16.Transposes [1, 0, 2] S4x100000x16
  dot_S8192x64_S64x64_S8192x64_1_0_0_1_n_n_wf : DotDims.WF S8192x64 S64x64 S8192x64 [1] [0] [0] [1] [] []
  dot_S8192x512_S512x64_S8192x64_1_0_0_1_n_n_wf : DotDims.WF S8192x512 S512x64 S8192x64 [1] [0] [0] [1] [] []
  dot_S512x8192_S8192x4_S512x4_1_0_0_1_n_n_wf : DotDims.WF S512x8192 S8192x4 S512x4 [1] [0] [0] [1] [] []
  dot_S8192x512_S512x4_S8192x4_1_0_0_1_n_n_wf : DotDims.WF S8192x512 S512x4 S8192x4 [1] [0] [0] [1] [] []
  dot_S512x8192_S8192x64_S512x64_1_0_0_1_n_n_wf : DotDims.WF S512x8192 S8192x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S106496x64.size a
  hwx0_0 : ∀ i : grid0.Coords, EltTy.bits .f32 = 32 ∨ (Rect.block (s := S106496x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S106496x64.size a
  hwx0_3 : ∀ i : grid0.Coords, EltTy.bits .bf16 = 32 ∨ (Rect.block (s := S106496x64) S8192x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x1.size a ≤ S1703936x1.size a
  hwx1_0 : ∀ i : grid1.Coords, EltTy.bits .i32 = 32 ∨ (Rect.block (s := S1703936x1) S8192x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S106496x64.size a
  hwx1_1 : ∀ i : grid1.Coords, EltTy.bits .bf16 = 32 ∨ (Rect.block (s := S106496x64) S512x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x16.size a ≤ S4x16.size a
  hwx1_2 : ∀ i : grid1.Coords, EltTy.bits .f32 = 32 ∨ (Rect.block (s := S4x16) S4x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x16.size a ≤ S4x16.size a
  hwx1_3 : ∀ i : grid1.Coords, EltTy.bits .f32 = 32 ∨ (Rect.block (s := S4x16) S4x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x64.size a ≤ S1703936x64.size a
  hwx1_4 : ∀ i : grid1.Coords, EltTy.bits .bf16 = 32 ∨ (Rect.block (s := S1703936x64) S8192x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x4.size a ≤ S1703936x4.size a
  hwx1_5 : ∀ i : grid1.Coords, EltTy.bits .f32 = 32 ∨ (Rect.block (s := S1703936x4) S8192x4.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8192.size a ≤ S1x1703936.size a
  hwx2_0 : ∀ i : grid2.Coords, EltTy.bits .i32 = 32 ∨ (Rect.block (s := S1x1703936) S1x8192.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x4.size a ≤ S1703936x4.size a
  hwx2_1 : ∀ i : grid2.Coords, EltTy.bits .f32 = 32 ∨ (Rect.block (s := S1703936x4) S8192x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x4.size a ≤ S106496x4.size a
  hwx2_3 : ∀ i : grid2.Coords, EltTy.bits .f32 = 32 ∨ (Rect.block (s := S106496x4) S512x4.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x1.size a ≤ S1703936x1.size a
  hwx3_0 : ∀ i : grid3.Coords, EltTy.bits .i32 = 32 ∨ (Rect.block (s := S1703936x1) S8192x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x4.size a ≤ S106496x4.size a
  hwx3_1 : ∀ i : grid3.Coords, EltTy.bits .f32 = 32 ∨ (Rect.block (s := S106496x4) S512x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S1703936x64.size a
  hwx3_2 : ∀ i : grid3.Coords, EltTy.bits .bf16 = 32 ∨ (Rect.block (s := S1703936x64) S8192x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x4.size a ≤ S1703936x4.size a
  hwx3_3 : ∀ i : grid3.Coords, EltTy.bits .f32 = 32 ∨ (Rect.block (s := S1703936x4) S8192x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8192x64.size a ≤ S1703936x64.size a
  hwx3_5 : ∀ i : grid3.Coords, EltTy.bits .bf16 = 32 ∨ (Rect.block (s := S1703936x64) S8192x64.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x8192.size a ≤ S1x1703936.size a
  hwx4_0 : ∀ i : grid4.Coords, EltTy.bits .i32 = 32 ∨ (Rect.block (s := S1x1703936) S1x8192.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S1703936x64.size a
  hwx4_1 : ∀ i : grid4.Coords, EltTy.bits .bf16 = 32 ∨ (Rect.block (s := S1703936x64) S8192x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x64.size a ≤ S106496x64.size a
  hwx4_2 : ∀ i : grid4.Coords, EltTy.bits .f32 = 32 ∨ (Rect.block (s := S106496x64) S512x64.size (cc4_transform_2 i) (hinb4_2 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S512x8192_S8192x4_S512x4_1_0_0_1_n_n : DotDims S512x8192 S8192x4 S512x4 where
  lhsContracting := [1]
  rhsContracting := [0]
  lhsNonContracting := [0]
  rhsNonContracting := [1]
  lhsBatch := []
  rhsBatch := []
  wf := dot_S512x8192_S8192x4_S512x4_1_0_0_1_n_n_wf
def dot_S8192x512_S512x4_S8192x4_1_0_0_1_n_n : DotDims S8192x512 S512x4 S8192x4 where
  lhsContracting := [1]
  rhsContracting := [0]
  lhsNonContracting := [0]
  rhsNonContracting := [1]
  lhsBatch := []
  rhsBatch := []
  wf := dot_S8192x512_S512x4_S8192x4_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf

abbrev win0_0 : Pipeline.Window sig grid0 :=
  Pipeline.Window.ofSpec (Memref.whole main_v11) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S4x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18_0) S8192x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18_1) S8192x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v17) S1x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18_1) S8192x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S512x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v16) S8192x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S512x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18_0) S8192x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18_1) S8192x4.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v21) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v23) S8192x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v17) S1x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S512x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1x4x16 : Shape := ⟨3, ![1, 4, 16]⟩
abbrev S2x1600000 : Shape := ⟨2, ![2, 1600000]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S1x64 : Shape := ⟨2, ![1, 64]⟩
abbrev S100000x4x16 : Shape := ⟨3, ![100000, 4, 16]⟩
abbrev S_ : Shape := ⟨0, ![]⟩
abbrev S1700000x1 : Shape := ⟨2, ![1700000, 1]⟩
abbrev S1700000x4x16 : Shape := ⟨3, ![1700000, 4, 16]⟩
abbrev S1700000x4 : Shape := ⟨2, ![1700000, 4]⟩
abbrev S100000x4 : Shape := ⟨2, ![100000, 4]⟩
abbrev S1700000x4x1 : Shape := ⟨3, ![1700000, 4, 1]⟩
abbrev S4x100000x16 : Shape := ⟨3, ![4, 100000, 16]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1x4x16, .f32⟩
  | .hbm, ⟨4, _⟩ => ⟨S1x4x16, .f32⟩
  | .hbm, ⟨5, _⟩ => ⟨S2x1600000, .i32⟩
  | .hbm, ⟨6, _⟩ => ⟨S100000, .i32⟩
  | .hbm, ⟨7, _⟩ => ⟨S1x100000, .i32⟩
  | .hbm, ⟨8, _⟩ => ⟨S1x100000, .i32⟩
  | .hbm, ⟨9, _⟩ => ⟨S2x100000, .i32⟩
  | .hbm, ⟨10, _⟩ => ⟨S2x1700000, .i32⟩
  | .hbm, ⟨11, _⟩ => ⟨S1x1700000, .i32⟩
  | .hbm, ⟨12, _⟩ => ⟨S1700000, .i32⟩
  | .hbm, ⟨13, _⟩ => ⟨S1x1700000, .i32⟩
  | .hbm, ⟨14, _⟩ => ⟨S1700000, .i32⟩
  | .hbm, ⟨15, _⟩ => ⟨S100000x64, .f32⟩
  | .hbm, ⟨16, _⟩ => ⟨S1x64, .f32⟩
  | .hbm, ⟨17, _⟩ => ⟨S100000x64, .f32⟩
  | .hbm, ⟨18, _⟩ => ⟨S100000x64, .f32⟩
  | .hbm, ⟨19, _⟩ => ⟨S100000x4x16, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000x4x16, .f32⟩
  | .hbm, ⟨29, _⟩ => ⟨S1700000x4x16, .f32⟩
  | .hbm, ⟨30, _⟩ => ⟨S1700000x4x16, .f32⟩
  | .hbm, ⟨31, _⟩ => ⟨S_, .f32⟩
  | .hbm, ⟨32, _⟩ => ⟨S1700000x4, .f32⟩
  | .hbm, ⟨33, _⟩ => ⟨S1700000x4x16, .f32⟩
  | .hbm, ⟨34, _⟩ => ⟨S1700000x4x16, .f32⟩
  | .hbm, ⟨35, _⟩ => ⟨S_, .f32⟩
  | .hbm, ⟨36, _⟩ => ⟨S1700000x4, .f32⟩
  | .hbm, ⟨37, _⟩ => ⟨S1700000x4, .f32⟩
  | .hbm, ⟨38, _⟩ => ⟨S_, .f32⟩
  | .hbm, ⟨39, _⟩ => ⟨S_, .f32⟩
  | .hbm, ⟨40, _⟩ => ⟨S1700000x4, .f32⟩
  | .hbm, ⟨41, _⟩ => ⟨S1700000x4, .i1⟩
  | .hbm, ⟨42, _⟩ => ⟨S_, .f32⟩
  | .hbm, ⟨43, _⟩ => ⟨S1700000x4, .f32⟩
  | .hbm, ⟨44, _⟩ => ⟨S1700000x4, .f32⟩
  | .hbm, ⟨45, _⟩ => ⟨S1700000x4, .f32⟩
  | .hbm, ⟨46, _⟩ => ⟨S_, .f32⟩
  | .hbm, ⟨47, _⟩ => ⟨S_, .f32⟩
  | .hbm, ⟨48, _⟩ => ⟨S1700000x4, .f32⟩
  | .hbm, ⟨49, _⟩ => ⟨S1700000x4, .f32⟩
  | .hbm, ⟨50, _⟩ => ⟨S1700000x4, .f32⟩
  | .hbm, ⟨51, _⟩ => ⟨S_, .f32⟩
  | .hbm, ⟨52, _⟩ => ⟨S100000x4, .f32⟩
  | .hbm, ⟨53, _⟩ => ⟨S1700000x1, .i32⟩
  | .hbm, ⟨54, _⟩ => ⟨S100000x4, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x4, .f32⟩
  | .hbm, ⟨64, _⟩ => ⟨S_, .f32⟩
  | .hbm, ⟨65, _⟩ => ⟨S1700000x4, .f32⟩
  | .hbm, ⟨66, _⟩ => ⟨S1700000x4, .f32⟩
  | .hbm, ⟨67, _⟩ => ⟨S1700000x4, .f32⟩
  | .hbm, ⟨68, _⟩ => ⟨S1700000x4x1, .f32⟩
  | .hbm, ⟨69, _⟩ => ⟨S1700000x4x16, .f32⟩
  | .hbm, ⟨70, _⟩ => ⟨S1700000x4x16, .f32⟩
  | .hbm, ⟨71, _⟩ => ⟨S_, .f32⟩
  | .hbm, ⟨72, _⟩ => ⟨S100000x4x16, .f32⟩
  | .hbm, ⟨73, _⟩ => ⟨S1700000x1, .i32⟩
  | .hbm, ⟨74, _⟩ => ⟨S100000x4x16, .f32⟩
  | .hbm, ⟨75, _⟩ => ⟨S4x100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S100000x64_S100000x4x16 : S100000x64.ShapeCasts S100000x4x16
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1x4x16_S1700000x4x16_0_1_2 : S1x4x16.BroadcastsInDim S1700000x4x16 (![0, 1, 2] : Fin 3 → Fin S1700000x4x16.rank)
  reducesTo_S1700000x4x16_S1700000x4_d2 : S1700000x4x16.ReducesTo [2] S1700000x4
  h_S_ : 0 < S_.numel
  bcast_S_S1700000x4 : S_.BroadcastsInDim S1700000x4 (![] : Fin 0 → Fin S1700000x4.rank)
  reducesTo_S1700000x4_S_d0_1 : S1700000x4.ReducesTo [0, 1] S_
  bcast_S_S100000x4 : S_.BroadcastsInDim S100000x4 (![] : Fin 0 → Fin S100000x4.rank)
  bcast_S1700000x4_S1700000x4x1_0_1 : S1700000x4.BroadcastsInDim S1700000x4x1 (![0, 1] : Fin 2 → Fin S1700000x4x1.rank)
  bcast_S1700000x4x1_S1700000x4x16_0_1_2 : S1700000x4x1.BroadcastsInDim S1700000x4x16 (![0, 1, 2] : Fin 3 → Fin S1700000x4x16.rank)
  bcast_S_S100000x4x16 : S_.BroadcastsInDim S100000x4x16 (![] : Fin 0 → Fin S100000x4x16.rank)
  transposes_S100000x4x16_S4x100000x16_1_0_2 : S100000x4x16.Transposes [1, 0, 2] S4x100000x16
  dot_S100000x64_S64x64_S100000x64_1_0_0_1_n_n_wf : DotDims.WF S100000x64 S64x64 S100000x64 [1] [0] [0] [1] [] []
  gather_S100000x4x16_S1700000x1_S1700000x4x16_12_0_n_n_0_1_1416_wf : GatherDims.WF S100000x4x16 S1700000x1 S1700000x4x16 [1, 2] [0] [] [0] [] 1 ![1, 4, 16]
  scatter_S100000x4_S1700000x1_S1700000x4_1_0_0_1_wf : ScatterDims.WF S100000x4 S1700000x1 S1700000x4 [1] [0] [0] 1
  gather_S100000x4_S1700000x1_S1700000x4_1_0_n_n_0_1_14_wf : GatherDims.WF S100000x4 S1700000x1 S1700000x4 [1] [0] [] [0] [] 1 ![1, 4]
  scatter_S100000x4x16_S1700000x1_S1700000x4x16_12_0_0_1_wf : ScatterDims.WF S100000x4x16 S1700000x1 S1700000x4x16 [1, 2] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x4x16_S1700000x1_S1700000x4x16_12_0_n_n_0_1_1416 : GatherDims S100000x4x16 S1700000x1 S1700000x4x16 where
  offsetDims := [1, 2]
  collapsedSliceDims := [0]
  operandBatchingDims := []
  startIndicesBatchingDims := []
  startIndexMap := [0]
  indexVectorDim := 1
  sliceSizes := ![1, 4, 16]
  wf := gather_S100000x4x16_S1700000x1_S1700000x4x16_12_0_n_n_0_1_1416_wf
def scatter_S100000x4_S1700000x1_S1700000x4_1_0_0_1 : ScatterDims S100000x4 S1700000x1 S1700000x4 where
  updateWindowDims := [1]
  insertedWindowDims := [0]
  scatterDimsToOperandDims := [0]
  indexVectorDim := 1
  wf := scatter_S100000x4_S1700000x1_S1700000x4_1_0_0_1_wf
def gather_S100000x4_S1700000x1_S1700000x4_1_0_n_n_0_1_14 : GatherDims S100000x4 S1700000x1 S1700000x4 where
  offsetDims := [1]
  collapsedSliceDims := [0]
  operandBatchingDims := []
  startIndicesBatchingDims := []
  startIndexMap := [0]
  indexVectorDim := 1
  sliceSizes := ![1, 4]
  wf := gather_S100000x4_S1700000x1_S1700000x4_1_0_n_n_0_1_14_wf
def scatter_S100000x4x16_S1700000x1_S1700000x4x16_12_0_0_1 : ScatterDims S100000x4x16 S1700000x1 S1700000x4x16 where
  updateWindowDims := [1, 2]
  insertedWindowDims := [0]
  scatterDimsToOperandDims := [0]
  indexVectorDim := 1
  wf := scatter_S100000x4x16_S1700000x1_S1700000x4x16_12_0_0_1_wf

class Facts : Prop extends Facts₀ where

variable [Facts]
-- ==== Proof.KI.Reg0.lean ====
import proofs.«417626_j75007308858099_3_alg».proof.Proof.Gen.KernelIdeal.Launch
import proofs.«417626_j75007308858099_3_alg».proof.Proof.Gen.KernelIdeal.Skeleton
import proofs.«417626_j75007308858099_3_alg».proof.Proof.KIPoints
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem offs2_zero : (![0, 0] : Fin 2 → ℕ) = fun _ => 0 := by funext a; revert a; decide
theorem offs1_zero : (![0] : Fin 1 → ℕ) = fun _ => 0 := by funext a; revert a; decide

theorem cover_rows0 (p : Vec F S8192x64 .bf16) (y : S8192x64.Idx) :
    ∃ pc ∈ ([⟨Rect.unit (s := S8192x64) ![0, 0] S8192x64.size inb_S8192x64_S8192x64_0_0, p⟩] :
      List (View.Piece (Elt F) S8192x64 .bf16)), y ∈ pc.1.set :=
  ⟨_, List.mem_singleton_self _, View.mem_set_unit_zero (S := S8192x64) offs2_zero inb_S8192x64_S8192x64_0_0 y⟩

set_option maxHeartbeats 1000000 in
theorem sound_linear0 (c : Dev nD) (E : Set ℕ) (i : grid0.Coords)
    (arg1 : Memref sig .tc .vmem S8192x64 .f32) (harg1 : arg1.IsWhole)
    (arg2 : Memref sig .tc .vmem S64x64 .f32) (harg2 : arg2.IsWhole)
    (arg3 : Memref sig .tc .vmem S64 .f32) (harg3 : arg3.IsWhole)
    (arg4 : Memref sig .tc .vmem S8192x64 .bf16) (harg4 : arg4.IsWhole)
    (x : Vec F S8192x64 .f32) (w : Vec F S64x64 .f32) (b : Vec F S64 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b
            ∗ owns (c : Thread nD τ) arg4 fullShare (k0_pay1 x w b)) -∗ K ⟨⟩))
      ⊢ wp frame (wpE (defs₀ (F := F)) Variants.none c none) E
          (cc0__linear_body i arg1 harg1 arg2 harg2 arg3 harg3 arg4 harg4) K := by
  simp only [cc0__linear_body_eq_skeleton]; unfold cc0__linear_body_skel
  unfold owns
  iintro ⟨⟨%fx, %hx, Hx⟩, ⟨%fw, %hw, Hw⟩, ⟨%fb, %hb, Hb⟩, ⟨%d, %fo, -, Ho⟩, Hk⟩
  subst hx; subst hw; subst hb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  iexists _; isplitr
  swap; · iexact Ho
  ipureintro
  rw [View.read_writes_eq_canon _ _ _ (cover_rows0 _), View.canon_unit_zero offs2_zero]
  simp only [View.readAt_eq_ld, View.ld_unit_zero (S := S8192x64) offs2_zero,
    View.ld_unit_zero (S := S64x64) offs2_zero, View.ld_unit_zero (S := S64) offs1_zero]

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem share0 (c : Dev nD) (w : Fin cfg0.W) : (dat0 V c).q w = fullShare := by
  dsimp only [dat0]
theorem owed0 (c : Dev nD) (t : Fin (cfg0.N + 1)) : (dat0 V c).owed t = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = Gen.k0_pay1 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Hd, ⟨%d0, H0⟩, ⟨%d1, H1⟩, ⟨%d2, H2⟩, ⟨%d3, H3⟩⟩
  iapply (sound_linear0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Hd]; · iexact Hd
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  dsimp only [dat0]; exact .rfl
theorem hout0 (c : Dev nD) : (dat0 V c).Φ (Fin.last cfg0.N) ⊢ (Pipeline.ΦA spec0 c : sProp 𝕄) := by
  dsimp only [dat0]; exact .rfl

theorem recorded0 (c : Dev nD) (t : Fin (cfg0.N + 1)) : (dat0 V c).recorded t = Set.univ := rfl

end Cert.KernelIdeal.Hand

end
-- ==== Proof.KI.Reg1Base.lean ====
import proofs.«417626_j75007308858099_3_alg».proof.Proof.Gen.KernelIdeal.Launch
import proofs.«417626_j75007308858099_3_alg».proof.Proof.Gen.KernelIdeal.Skeleton
import proofs.«417626_j75007308858099_3_alg».proof.Proof.KIPoints
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem coords1_inner (t : Fin cfg1.N) : ((grid1.coords t) 1).val = t.val % 208 := by
  show t.val / grid1.stride 1 % 208 = t.val % 208
  have h : grid1.stride 1 = 1 := by decide
  rw [h, Nat.div_one]

abbrev cond1_0 (i : grid1.Coords) : Prop :=
  (Scalar.cmpi .ne (Scalar.extui (Scalar.cmpi .eq (BitVec.ofNat 32 (i 1).val) 0#32)) 0#32) = 1#1
abbrev cond1_1 (i : grid1.Coords) : Prop := k1_cond2 i = 1#1

theorem cond1_0_fin : ∀ j : Fin 208,
    ((Scalar.cmpi .ne (Scalar.extui (Scalar.cmpi .eq (BitVec.ofNat 32 j.val) 0#32)) 0#32) = 1#1) ↔ j.val = 0 := by
  decide +kernel

theorem cond1_1_fin : ∀ j : Fin 208,
    ((Scalar.cmpi .ne (Scalar.extui (Scalar.cmpi .eq (BitVec.ofNat 32 j.val) 207#32)) 0#32) = 1#1) ↔ j.val = 207 := by
  decide +kernel

theorem cond1_0_iff (i : grid1.Coords) : cond1_0 i ↔ (i 1).val = 0 := cond1_0_fin (i 1)
theorem cond1_1_iff (i : grid1.Coords) : cond1_1 i ↔ (i 1).val = 207 := cond1_1_fin (i 1)

theorem hcond1_0 (t : Fin cfg1.N) : cond1_0 (grid1.coords t) ↔ t.val % 208 = 0 := by
  rw [cond1_0_iff, coords1_inner]
theorem hcond1_1 (t : Fin cfg1.N) : cond1_1 (grid1.coords t) ↔ t.val % 208 = 207 := by
  rw [cond1_1_iff, coords1_inner]

theorem idle1_4_of (i : grid1.Coords) (h : ¬cond1_1 i) : cfg1.idle 4 i = true := by
  show (!(k1_cond2 i == 1#1)) = true
  simp only [Bool.not_eq_true', beq_eq_false_iff_ne, ne_eq]; exact h
theorem idle1_5_of (i : grid1.Coords) (h : ¬cond1_1 i) : cfg1.idle 5 i = true := by
  show (!(k1_cond2 i == 1#1)) = true
  simp only [Bool.not_eq_true', beq_eq_false_iff_ne, ne_eq]; exact h
theorem live1_4_of (i : grid1.Coords) (h : cond1_1 i) : cfg1.idle 4 i = false := by
  show (!(k1_cond2 i == 1#1)) = false
  simp only [Bool.not_eq_false', beq_iff_eq]; exact h
theorem live1_5_of (i : grid1.Coords) (h : cond1_1 i) : cfg1.idle 5 i = false := by
  show (!(k1_cond2 i == 1#1)) = false
  simp only [Bool.not_eq_false', beq_iff_eq]; exact h

theorem noFlush1_4 (t : Fin cfg1.N) (h : ¬t.val % 208 = 207) : (cfg1.win 4).flush t = false :=
  Bool.eq_false_iff.mpr fun hf => h ((flush1_4 t).mp hf)
theorem noFlush1_5 (t : Fin cfg1.N) (h : ¬t.val % 208 = 207) : (cfg1.win 5).flush t = false :=
  Bool.eq_false_iff.mpr fun hf => h ((flush1_5 t).mp hf)

abbrev ms1_0 (t : Fin cfg1.N) : Memref sig .tc .vmem S8192x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8192x64 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8192x4 .f32 := win1_5.stage (cfg1.slots t 5)
abbrev hs1_5 (t : Fin cfg1.N) : (ms1_5 t).IsWhole := hstage1_5 ((cfg1.slots t 5).cast nbuf1_5)
abbrev scM1 : Memref sig .tc .vmem S8192x64 .f32 := Memref.whole cc1_scratch0
abbrev VO1_4 : View sig .tc .vmem S8192x64 .bf16 := (Memref.whole cc1_stg4_0 : Memref sig .tc .vmem S8192x64 .bf16).view
abbrev VO1_5 : View sig .tc .vmem S8192x4 .f32 := (Memref.whole cc1_stg5_0 : Memref sig .tc .vmem S8192x4 .f32).view

theorem PhiA1_eq (c : Dev nD) :
    (Pipeline.ΦA spec1 c : sProp 𝕄)
      = iprop(iprop((∃ d, owns (c : Thread nD τ) scM1 fullShare d) ∗ Pipeline.scopedRestBut spec1 c [cc1_scratch0]) ∗ (∃ r, prngReg c r)) := by
  unfold Pipeline.ΦA; rw [scopedRest1_split]; simp only [scM1, owns_whole]; try rfl

end Cert.KernelIdeal.Hand

end
-- ==== Proof.KI.Reg1RunA.lean ====
import proofs.«417626_j75007308858099_3_alg».proof.Proof.KI.Reg1Base

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_A (c : Dev nD) (i : grid1.Coords) (arg2 : Memref sig .tc .vmem S8192x1 .i32) (harg2 : arg2.IsWhole) (arg3 : Memref sig .tc .vmem S512x64 .bf16) (harg3 : arg3.IsWhole) (arg4 : Memref sig .tc .vmem S4x16 .f32) (harg4 : arg4.IsWhole) (arg5 : Memref sig .tc .vmem S4x16 .f32) (harg5 : arg5.IsWhole) (arg6 : Memref sig .tc .vmem S8192x64 .bf16) (harg6 : arg6.IsWhole) (arg7 : Memref sig .tc .vmem S8192x4 .f32) (harg7 : arg7.IsWhole) (arg8 : Memref sig .tc .vmem S8192x64 .f32) (harg8 : arg8.IsWhole) (hc0 : cond1_0 i) (hc1 : ¬cond1_1 i)
    (x0 : Vec F S8192x1 .i32) (x1 : Vec F S512x64 .bf16) (x2 : Vec F S4x16 .f32) (x3 : Vec F S4x16 .f32) :
    { LS0 : List (View.Piece (Elt F) S8192x64 .f32) //
      ∀ (xi4 : Vec F S8192x64 .bf16) (xi5 : Vec F S8192x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)) -∗ K ⟨⟩))
          ⊢ wp frame (wpE (defs₀ (F := F)) Variants.none c none) E (cc1__gather_score_body i arg2 harg2 arg3 harg3 arg4 harg4 arg5 harg5 arg6 harg6 arg7 harg7 arg8 harg8) K } := by
  refine ⟨?_, fun xi4 xi5 E K => ?run⟩
  case run =>
    simp only [cc1__gather_score_body_eq_skeleton]; unfold cc1__gather_score_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; iexact HS0

end Cert.KernelIdeal.Hand

end
-- ==== Proof.KI.Reg1RunB.lean ====
import proofs.«417626_j75007308858099_3_alg».proof.Proof.KI.Reg1Base

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def kernelRun1_B (c : Dev nD) (i : grid1.Coords) (arg2 : Memref sig .tc .vmem S8192x1 .i32) (harg2 : arg2.IsWhole) (arg3 : Memref sig .tc .vmem S512x64 .bf16) (harg3 : arg3.IsWhole) (arg4 : Memref sig .tc .vmem S4x16 .f32) (harg4 : arg4.IsWhole) (arg5 : Memref sig .tc .vmem S4x16 .f32) (harg5 : arg5.IsWhole) (arg6 : Memref sig .tc .vmem S8192x64 .bf16) (harg6 : arg6.IsWhole) (arg7 : Memref sig .tc .vmem S8192x4 .f32) (harg7 : arg7.IsWhole) (arg8 : Memref sig .tc .vmem S8192x64 .f32) (harg8 : arg8.IsWhole) (hc0 : ¬cond1_0 i) (hc1 : ¬cond1_1 i)
    (x0 : Vec F S8192x1 .i32) (x1 : Vec F S512x64 .bf16) (x2 : Vec F S4x16 .f32) (x3 : Vec F S4x16 .f32) (xs0 : Vec F S8192x64 .f32) :
    { LS0 : List (View.Piece (Elt F) S8192x64 .f32) //
      ∀ (xi4 : Vec F S8192x64 .bf16) (xi5 : Vec F S8192x4 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)) -∗ K ⟨⟩))
          ⊢ wp frame (wpE (defs₀ (F := F)) Variants.none c none) E (cc1__gather_score_body i arg2 harg2 arg3 harg3 arg4 harg4 arg5 harg5 arg6 harg6 arg7 harg7 arg8 harg8) K } := by
  refine ⟨?_, fun xi4 xi5 E K => ?run⟩
  case run =>
    simp only [cc1__gather_score_body_eq_skeleton]; unfold cc1__gather_score_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; iexact HS0

end Cert.KernelIdeal.Hand

end
-- ==== Proof.KI.Reg1RunC.lean ====
import proofs.«417626_j75007308858099_3_alg».proof.Proof.KI.Reg1Base

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1_C (c : Dev nD) (i : grid1.Coords) (arg2 : Memref sig .tc .vmem S8192x1 .i32) (harg2 : arg2.IsWhole) (arg3 : Memref sig .tc .vmem S512x64 .bf16) (harg3 : arg3.IsWhole) (arg4 : Memref sig .tc .vmem S4x16 .f32) (harg4 : arg4.IsWhole) (arg5 : Memref sig .tc .vmem S4x16 .f32) (harg5 : arg5.IsWhole) (arg6 : Memref sig .tc .vmem S8192x64 .bf16) (harg6 : arg6.IsWhole) (arg7 : Memref sig .tc .vmem S8192x4 .f32) (harg7 : arg7.IsWhole) (arg8 : Memref sig .tc .vmem S8192x64 .f32) (harg8 : arg8.IsWhole) (hc0 : ¬cond1_0 i) (hc1 : cond1_1 i)
    (x0 : Vec F S8192x1 .i32) (x1 : Vec F S512x64 .bf16) (x2 : Vec F S4x16 .f32) (x3 : Vec F S4x16 .f32) (xs0 : Vec F S8192x64 .f32) :
    Σ' (L4 : List (View.Piece (Elt F) S8192x64 .bf16)) (L5 : List (View.Piece (Elt F) S8192x4 .f32)), { LS0 : List (View.Piece (Elt F) S8192x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc1__gather_score_body i arg2 harg2 arg3 harg3 arg4 harg4 arg5 harg5 arg6 harg6 arg7 harg7 arg8 harg8) K } := by
  refine ⟨?_, ?_, ?_, fun E K => ?run⟩
  case run =>
    simp only [cc1__gather_score_body_eq_skeleton]; unfold cc1__gather_score_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.KI.Reg1.lean ====
import proofs.«417626_j75007308858099_3_alg».proof.Proof.KI.Reg1RunA
import proofs.«417626_j75007308858099_3_alg».proof.Proof.KI.Reg1RunB
import proofs.«417626_j75007308858099_3_alg».proof.Proof.KI.Reg1RunC
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem hz2 : (![0, 0] : Fin 2 → ℕ) = fun _ => 0 := by funext a; fin_cases a <;> rfl

abbrev row1_0 (x : Vec F S4x16 .f32) : Vec F S1x16 .f32 := View.ld x (Rect.unit (s := S4x16) ![0, 0] S1x16.size inb_S4x16_S1x16_0_0)
abbrev row1_1 (x : Vec F S4x16 .f32) : Vec F S1x16 .f32 := View.ld x (Rect.unit (s := S4x16) ![1, 0] S1x16.size inb_S4x16_S1x16_1_0)
abbrev row1_2 (x : Vec F S4x16 .f32) : Vec F S1x16 .f32 := View.ld x (Rect.unit (s := S4x16) ![2, 0] S1x16.size inb_S4x16_S1x16_2_0)
abbrev row1_3 (x : Vec F S4x16 .f32) : Vec F S1x16 .f32 := View.ld x (Rect.unit (s := S4x16) ![3, 0] S1x16.size inb_S4x16_S1x16_3_0)

section
variable {c : Dev nD} {i : grid1.Coords} {arg2 : Memref sig .tc .vmem S8192x1 .i32} {harg2 : arg2.IsWhole} {arg3 : Memref sig .tc .vmem S512x64 .bf16} {harg3 : arg3.IsWhole} {arg4 : Memref sig .tc .vmem S4x16 .f32} {harg4 : arg4.IsWhole} {arg5 : Memref sig .tc .vmem S4x16 .f32} {harg5 : arg5.IsWhole} {arg6 : Memref sig .tc .vmem S8192x64 .bf16} {harg6 : arg6.IsWhole} {arg7 : Memref sig .tc .vmem S8192x4 .f32} {harg7 : arg7.IsWhole} {arg8 : Memref sig .tc .vmem S8192x64 .f32} {harg8 : arg8.IsWhole} {x0 : Vec F S8192x1 .i32} {x1 : Vec F S512x64 .bf16} {x2 x3 : Vec F S4x16 .f32} {κ : Kind} {sp : Space}

theorem sfin1_A {hc0 : cond1_0 i} {hc1 : ¬cond1_1 i} (v : View sig κ sp S8192x64 .f32) (f : v.ty.Contents (Elt F)) :
    v.read (Elt F) (v.writes (Elt F) f (kernelRun1_A c i arg2 harg2 arg3 harg3 arg4 harg4 arg5 harg5 arg6 harg6 arg7 harg7 arg8 harg8 hc0 hc1 x0 x1 x2 x3).1) = Gen.k1_pay2 i x0 x1 Gen.k1_pay1 := by
  refine (View.read_writes_eq_canon v f _ (View.cover_of_tiledL _ S8192x64.size (by sl_kernel_rfl))).trans ?_
  unfold kernelRun1_A
  dsimp only
  sl_unfold_words
  rw [View.canon_cons_unit_zero hz2, View.readCov_unit_zero _ hz2]
  simp only [View.readAt_eq_ld, harg2.read_unread, harg3.read_unread, harg4.read_unread, harg5.read_unread, harg8.read_unread, View.ld_unit_zero (S := S8192x1) hz2, View.ld_unit_zero (S := S512x64) hz2, View.ld_unit_zero (S := S8192x64) hz2]

theorem sfin1_B {hc0 : ¬cond1_0 i} {hc1 : ¬cond1_1 i} {xs0 : Vec F S8192x64 .f32} (v : View sig κ sp S8192x64 .f32) (f : v.ty.Contents (Elt F)) :
    v.read (Elt F) (v.writes (Elt F) f (kernelRun1_B c i arg2 harg2 arg3 harg3 arg4 harg4 arg5 harg5 arg6 harg6 arg7 harg7 arg8 harg8 hc0 hc1 x0 x1 x2 x3 xs0).1) = Gen.k1_pay2 i x0 x1 xs0 := by
  refine (View.read_writes_eq_canon v f _ (View.cover_of_tiledL _ S8192x64.size (by sl_kernel_rfl))).trans ?_
  unfold kernelRun1_B
  dsimp only
  sl_unfold_words
  rw [View.canon_unit_zero hz2]
  simp only [View.readAt_eq_ld, harg2.read_unread, harg3.read_unread, harg8.read_unread, View.ld_unit_zero (S := S8192x1) hz2, View.ld_unit_zero (S := S512x64) hz2, View.ld_unit_zero (S := S8192x64) hz2]

theorem sfin1_C {hc0 : ¬cond1_0 i} {hc1 : cond1_1 i} {xs0 : Vec F S8192x64 .f32} (v : View sig κ sp S8192x64 .f32) (f : v.ty.Contents (Elt F)) :
    v.read (Elt F) (v.writes (Elt F) f (kernelRun1_C c i arg2 harg2 arg3 harg3 arg4 harg4 arg5 harg5 arg6 harg6 arg7 harg7 arg8 harg8 hc0 hc1 x0 x1 x2 x3 xs0).2.2.1) = Gen.k1_pay2 i x0 x1 xs0 := by
  refine (View.read_writes_eq_canon v f _ (View.cover_of_tiledL _ S8192x64.size (by sl_kernel_rfl))).trans ?_
  unfold kernelRun1_C
  dsimp only
  sl_unfold_words
  rw [View.canon_unit_zero hz2]
  simp only [View.readAt_eq_ld, harg2.read_unread, harg3.read_unread, harg4.read_unread, harg5.read_unread, harg8.read_unread, View.ld_unit_zero (S := S8192x1) hz2, View.ld_unit_zero (S := S512x64) hz2, View.ld_unit_zero (S := S8192x64) hz2]

theorem fin1_C_4 {hc0 : ¬cond1_0 i} {hc1 : cond1_1 i} {xs0 : Vec F S8192x64 .f32} (v : View sig κ sp S8192x64 .bf16) (f : v.ty.Contents (Elt F)) :
    v.read (Elt F) (v.writes (Elt F) f (kernelRun1_C c i arg2 harg2 arg3 harg3 arg4 harg4 arg5 harg5 arg6 harg6 arg7 harg7 arg8 harg8 hc0 hc1 x0 x1 x2 x3 xs0).1) = Gen.k1_pay4 (Gen.k1_pay2 i x0 x1 xs0) := by
  refine (View.read_writes_eq_canon v f _ (View.cover_of_tiledL _ S8192x64.size (by sl_kernel_rfl))).trans ?_
  unfold kernelRun1_C
  dsimp only
  sl_unfold_words
  rw [View.canon_unit_zero hz2, View.readCov_unit_zero _ hz2]
  simp only [View.readAt_eq_ld, harg2.read_unread, harg3.read_unread, harg4.read_unread, harg5.read_unread, harg8.read_unread, View.ld_unit_zero (S := S8192x1) hz2, View.ld_unit_zero (S := S512x64) hz2, View.ld_unit_zero (S := S8192x64) hz2]

theorem fin1_C_5 {hc0 : ¬cond1_0 i} {hc1 : cond1_1 i} {xs0 : Vec F S8192x64 .f32} (v : View sig κ sp S8192x4 .f32) (f : v.ty.Contents (Elt F)) :
    v.read (Elt F) (v.writes (Elt F) f (kernelRun1_C c i arg2 harg2 arg3 harg3 arg4 harg4 arg5 harg5 arg6 harg6 arg7 harg7 arg8 harg8 hc0 hc1 x0 x1 x2 x3 xs0).2.1) = Gen.k1_pay3 (Gen.k1_pay2 i x0 x1 xs0) (Gen.k1_pay5 (Gen.k1_pay2 i x0 x1 xs0) (row1_0 x2) (row1_0 x3))
      (Gen.k1_pay6 (Gen.k1_pay2 i x0 x1 xs0) (row1_1 x2) (row1_1 x3)) (Gen.k1_pay7 (Gen.k1_pay2 i x0 x1 xs0)) (Gen.k1_pay8 (row1_2 x3))
      (Gen.k1_pay9 (Gen.k1_pay2 i x0 x1 xs0) (row1_2 x2)) (row1_3 x2) (row1_3 x3) := by
  refine (View.read_writes_eq_canon v f _ (View.cover_of_tiledL _ S8192x4.size (by sl_kernel_rfl))).trans ?_
  unfold kernelRun1_C
  dsimp only
  sl_unfold_words
  rw [View.canon_unit_zero hz2, View.readCov_unit_zero _ hz2]
  simp only [View.readAt_eq_ld, harg2.read_unread, harg3.read_unread, harg4.read_unread, harg5.read_unread, harg8.read_unread, View.ld_unit_zero (S := S8192x1) hz2, View.ld_unit_zero (S := S512x64) hz2, View.ld_unit_zero (S := S8192x64) hz2]

end

def acc1 (V : (c : Dev nD) → (b : Ref sig .tc) → Buf (Elt F) ((c : Thread nD τ).loc b)) (c : Dev nD) : (n : ℕ) → n < cfg1.N → Vec F S8192x64 .f32
  | 0, hn => Gen.k1_pay2 (grid1.coords ⟨0, hn⟩) (iblk1 V c 0 ⟨0, hn⟩) (iblk1 V c 1 ⟨0, hn⟩) Gen.k1_pay1
  | n + 1, hn => Gen.k1_pay2 (grid1.coords ⟨n + 1, hn⟩) (iblk1 V c 0 ⟨n + 1, hn⟩) (iblk1 V c 1 ⟨n + 1, hn⟩)
      (if (n + 1) % 208 = 0 then Gen.k1_pay1 else acc1 V c n (Nat.lt_of_succ_lt hn))

theorem acc1_first (c : Dev nD) (t : Fin cfg1.N) (h : t.val % 208 = 0) :
    acc1 V c t.val t.isLt = Gen.k1_pay2 (grid1.coords t) (iblk1 V c 0 t) (iblk1 V c 1 t) Gen.k1_pay1 := by
  obtain ⟨n, hn⟩ := t
  cases n with
  | zero => rfl
  | succ n =>
    show Gen.k1_pay2 _ _ _ (if (n + 1) % 208 = 0 then Gen.k1_pay1 else acc1 V c n _) = _
    rw [if_pos h]

theorem acc1_next (c : Dev nD) (t : Fin cfg1.N) (h : t.val % 208 ≠ 0) :
    acc1 V c t.val t.isLt = Gen.k1_pay2 (grid1.coords t) (iblk1 V c 0 t) (iblk1 V c 1 t) (acc1 V c (t.val - 1) (by omega)) := by
  obtain ⟨n, hn⟩ := t
  cases n with
  | zero => exact absurd (Nat.zero_mod _) h
  | succ n =>
    show Gen.k1_pay2 _ _ _ (if (n + 1) % 208 = 0 then Gen.k1_pay1 else acc1 V c n _) = _
    rw [if_neg h]; rfl

def arow1 (V : (c : Dev nD) → (b : Ref sig .tc) → Buf (Elt F) ((c : Thread nD τ).loc b)) (c : Dev nD) (r : Fin 4) (t : Fin cfg1.N) : Vec F S1x16 .f32 :=
  match r with
  | 0 => row1_0 (iblk1 V c 2 t)
  | 1 => row1_1 (iblk1 V c 2 t)
  | 2 => row1_2 (iblk1 V c 2 t)
  | 3 => row1_3 (iblk1 V c 2 t)

def brow1 (V : (c : Dev nD) → (b : Ref sig .tc) → Buf (Elt F) ((c : Thread nD τ).loc b)) (c : Dev nD) (r : Fin 4) (t : Fin cfg1.N) : Vec F S1x16 .f32 :=
  match r with
  | 0 => row1_0 (iblk1 V c 3 t)
  | 1 => row1_1 (iblk1 V c 3 t)
  | 2 => row1_2 (iblk1 V c 3 t)
  | 3 => row1_3 (iblk1 V c 3 t)

theorem row1_apply (x : Vec F S4x16 .f32) (f : Fin 16) :
    row1_0 x (ix2 0 f) = x (ix2 0 f) ∧ row1_1 x (ix2 0 f) = x (ix2 1 f) ∧ row1_2 x (ix2 0 f) = x (ix2 2 f) ∧ row1_3 x (ix2 0 f) = x (ix2 3 f) := by
  refine ⟨?_, ?_, ?_, ?_⟩ <;>
  · show x _ = x _
    congr 1; funext a; apply Fin.ext; fin_cases a <;> simp [LoadRect.idx, ix2]

theorem arow1_apply (c : Dev nD) (r : Fin 4) (t : Fin cfg1.N) (f : Fin 16) :
    arow1 V c r t (ix2 0 f) = iblk1 V c 2 t (ix2 r f) := by
  have h := row1_apply (F := F) (iblk1 V c 2 t) f
  fin_cases r
  · exact h.1
  · exact h.2.1
  · exact h.2.2.1
  · exact h.2.2.2
theorem brow1_apply (c : Dev nD) (r : Fin 4) (t : Fin cfg1.N) (f : Fin 16) :
    brow1 V c r t (ix2 0 f) = iblk1 V c 3 t (ix2 r f) := by
  have h := row1_apply (F := F) (iblk1 V c 3 t) f
  fin_cases r
  · exact h.1
  · exact h.2.1
  · exact h.2.2.1
  · exact h.2.2.2

def out4At (c : Dev nD) (t : Fin cfg1.N) : Vec F S8192x64 .bf16 :=
  if t.val % 208 = 207 then Gen.k1_pay4 (acc1 V c t.val t.isLt) else VO1_4.read (Elt F) VO1_4.junk

def out5At (c : Dev nD) (t : Fin cfg1.N) : Vec F S8192x4 .f32 :=
  if t.val % 208 = 207 then Gen.k1_pay3 (acc1 V c t.val t.isLt) (Gen.k1_pay5 (acc1 V c t.val t.isLt) (arow1 V c 0 t) (brow1 V c 0 t))
      (Gen.k1_pay6 (acc1 V c t.val t.isLt) (arow1 V c 1 t) (brow1 V c 1 t)) (Gen.k1_pay7 (acc1 V c t.val t.isLt)) (Gen.k1_pay8 (brow1 V c 2 t))
      (Gen.k1_pay9 (acc1 V c t.val t.isLt) (arow1 V c 2 t)) (arow1 V c 3 t) (brow1 V c 3 t)
  else VO1_5.read (Elt F) VO1_5.junk

def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ Pipeline.scopedRestBut spec1 c [cc1_scratch0]) ∗ (∃ r, prngReg c r)) := by
  cases n with
  | zero => exact absurd rfl hz
  | succ n => rfl

theorem PhiS1_open (c : Dev nD) (n : ℕ) (h : n ≤ cfg1.N) :
    PhiS1 V c n h ⊢ (iprop(iprop((∃ d, owns (c : Thread nD τ) scM1 fullShare d) ∗ Pipeline.scopedRestBut spec1 c [cc1_scratch0]) ∗ (∃ r, prngReg c r)) : sProp 𝕄) := by
  cases n with
  | zero => rw [show PhiS1 V c 0 h = Pipeline.ΦA spec1 c from rfl, PhiA1_eq]
  | succ n =>
    rw [PhiS1_succ]
    iintro ⟨⟨HS, HR⟩, Hg⟩
    isplitl [HS HR]
    · isplitl [HS]
      · iexists _; iexact HS
      iexact HR
    iexact Hg

def dat1 (V : (c : Dev nD) → (b : Ref sig .tc) → Buf (Elt F) ((c : Thread nD τ).loc b)) (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out4At V c t
    | ⟨5, _⟩ => out5At V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share1 (c : Dev nD) (w : Fin cfg1.W) : (dat1 V c).q w = fullShare := by dsimp only [dat1]
theorem owed1 (c : Dev nD) (t : Fin (cfg1.N + 1)) : (dat1 V c).owed t = 0 := by dsimp only [dat1]
theorem recorded1 (c : Dev nD) (t : Fin (cfg1.N + 1)) : (dat1 V c).recorded t = Set.univ := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out4At V c t := by dsimp only [dat1]
theorem after1_5 (c : Dev nD) (t : Fin cfg1.N) : (dat1 V c).after 5 t = out5At V c t := by dsimp only [dat1]

theorem after1_4_last (c : Dev nD) (t : Fin cfg1.N) (h : t.val % 208 = 207) :
    (dat1 V c).after 4 t = Gen.k1_pay4 (acc1 V c t.val t.isLt) := by
  rw [after1_4]; unfold out4At; rw [if_pos h]
theorem after1_5_last (c : Dev nD) (t : Fin cfg1.N) (h : t.val % 208 = 207) :
    (dat1 V c).after 5 t = Gen.k1_pay3 (acc1 V c t.val t.isLt) (Gen.k1_pay5 (acc1 V c t.val t.isLt) (arow1 V c 0 t) (brow1 V c 0 t))
      (Gen.k1_pay6 (acc1 V c t.val t.isLt) (arow1 V c 1 t) (brow1 V c 1 t)) (Gen.k1_pay7 (acc1 V c t.val t.isLt)) (Gen.k1_pay8 (brow1 V c 2 t))
      (Gen.k1_pay9 (acc1 V c t.val t.isLt) (arow1 V c 2 t)) (arow1 V c 3 t) (brow1 V c 3 t) := by
  rw [after1_5]; unfold out5At; rw [if_pos h]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [show cfg1.idle 0 (grid1.coords t) = false from rfl], after1_0]
  rw [show (dat1 V c).leavesExact 1 t = owns (c : Thread nD τ) (ms1_1 t) fullShare ((dat1 V c).after 1 t) from by
    unfold Dat.leavesExact; rw [show cfg1.idle 1 (grid1.coords t) = false from rfl], after1_1]
  rw [show (dat1 V c).leavesExact 2 t = owns (c : Thread nD τ) (ms1_2 t) fullShare ((dat1 V c).after 2 t) from by
    unfold Dat.leavesExact; rw [show cfg1.idle 2 (grid1.coords t) = false from rfl], after1_2]
  rw [show (dat1 V c).leavesExact 3 t = owns (c : Thread nD τ) (ms1_3 t) fullShare ((dat1 V c).after 3 t) from by
    unfold Dat.leavesExact; rw [show cfg1.idle 3 (grid1.coords t) = false from rfl], after1_3]
  have hN : t.val < 43264 := lt_of_lt_of_eq t.isLt (show cfg1.N = 43264 from N_1)
  by_cases h0 : t.val % 208 = 0
  · have h1 : ¬t.val % 208 = 207 := by omega
    rw [Dat.leavesExact_idle (dat1 V c) 4 t (idle1_4_of _ (fun h => h1 ((hcond1_1 t).mp h))) (noFlush1_4 t h1)]
    rw [Dat.leavesExact_idle (dat1 V c) 5 t (idle1_5_of _ (fun h => h1 ((hcond1_1 t).mp h))) (noFlush1_5 t h1)]
    rw [acc1_first V c t h0]
    rw [PhiS1_castSucc V c t]
    iintro ⟨HI, Ho, ⟨%d0, H0⟩, ⟨%d1, H1⟩, ⟨%d2, H2⟩, ⟨%d3, H3⟩, ⟨%d4, H4⟩, ⟨%d5, H5⟩⟩
    ihave HI' := (PhiS1_open V c _ _) $$ HI
    icases HI' with ⟨⟨HS0, HR⟩, Hg⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR Hg]
    · isplitl [HS0 HR]
      · isplitl [HS0]
        · unfold owns; iexists _; isplitr
          swap; · iexact HS0
          ipureintro; exact sfin1_A _ _
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun hz => h0 (by rw [hz])
    rw [acc1_next V c t h0]
    rw [PhiS1_castSucc V c t, PhiS1_pos V c _ _ hz]
    by_cases h1 : t.val % 208 = 207
    · rw [show (dat1 V c).leavesExact 4 t = owns (c : Thread nD τ) (ms1_4 t) fullShare ((dat1 V c).after 4 t) from by
        unfold Dat.leavesExact; rw [live1_4_of _ ((hcond1_1 t).mpr h1)], after1_4_last V c t h1, acc1_next V c t h0]
      rw [show (dat1 V c).leavesExact 5 t = owns (c : Thread nD τ) (ms1_5 t) fullShare ((dat1 V c).after 5 t) from by
        unfold Dat.leavesExact; rw [live1_5_of _ ((hcond1_1 t).mpr h1)], after1_5_last V c t h1, acc1_next V c t h0]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (acc1 V c (t.val - 1) (by omega))).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact sfin1_C _ _
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact fin1_C_4 _ _
      unfold owns; iexists _; isplitr
      swap; · iexact H5
      ipureintro; exact fin1_C_5 _ _
    · rw [Dat.leavesExact_idle (dat1 V c) 4 t (idle1_4_of _ (fun h => h1 ((hcond1_1 t).mp h))) (noFlush1_4 t h1)]
      rw [Dat.leavesExact_idle (dat1 V c) 5 t (idle1_5_of _ (fun h => h1 ((hcond1_1 t).mp h))) (noFlush1_5 t h1)]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (acc1 V c (t.val - 1) (by omega))).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact sfin1_B _ _
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl, PhiA1_eq]
  exact PhiS1_open V c _ _

end Cert.KernelIdeal.Hand

end
-- ==== Proof.KI.Reg2Base.lean ====
import proofs.«417626_j75007308858099_3_alg».proof.Proof.Gen.KernelIdeal.Launch
import proofs.«417626_j75007308858099_3_alg».proof.Proof.Gen.KernelIdeal.Skeleton
import proofs.«417626_j75007308858099_3_alg».proof.Proof.KIPoints
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev atFirstEdge (i : grid2.Coords) : Prop :=
  (Scalar.cmpi .ne (Scalar.extui (Scalar.cmpi .eq (BitVec.ofNat 32 (i 1).val) 0#32)) 0#32) = 1#1

abbrev atLastEdge (i : grid2.Coords) : Prop := k2_cond2 i = 1#1

theorem atFirstEdge_iff (i : grid2.Coords) : atFirstEdge i ↔ (i 1).val = 0 := by
  unfold atFirstEdge
  generalize (i 1) = j
  revert j; decide

theorem atLastEdge_iff (i : grid2.Coords) : atLastEdge i ↔ (i 1).val = 207 := by
  unfold atLastEdge k2_cond2
  generalize (i 1) = j
  revert j; decide

theorem edgeCoord (t : Fin cfg2.N) : ((grid2.coords t) 1).val = t.val % 208 := by
  show t.val / grid2.stride 1 % 208 = t.val % 208
  rw [show grid2.stride 1 = 1 from by decide, Nat.div_one]

theorem firstEdge_at (t : Fin cfg2.N) : atFirstEdge (grid2.coords t) ↔ t.val % 208 = 0 := by
  rw [atFirstEdge_iff, edgeCoord]
theorem lastEdge_at (t : Fin cfg2.N) : atLastEdge (grid2.coords t) ↔ t.val % 208 = 207 := by
  rw [atLastEdge_iff, edgeCoord]

theorem live2_0 (i : grid2.Coords) : cfg2.idle 0 i = false := rfl
theorem live2_1 (i : grid2.Coords) : cfg2.idle 1 i = false := rfl
theorem live2_2 (i : grid2.Coords) : cfg2.idle 2 i = false := rfl
theorem idle2_3 (i : grid2.Coords) (h : ¬atLastEdge i) : cfg2.idle 3 i = true := by
  show (!(k2_cond2 i == 1#1)) = true
  simp only [Bool.not_eq_true', beq_eq_false_iff_ne, ne_eq]; exact h
theorem live2_3 (i : grid2.Coords) (h : atLastEdge i) : cfg2.idle 3 i = false := by
  show (!(k2_cond2 i == 1#1)) = false
  simp only [Bool.not_eq_false', beq_iff_eq]; exact h

abbrev tgtM (t : Fin cfg2.N) : Memref sig .tc .vmem S1x8192 .i32 := win2_0.stage (cfg2.slots t 0)
abbrev logitM (t : Fin cfg2.N) : Memref sig .tc .vmem S8192x4 .f32 := win2_1.stage (cfg2.slots t 1)
abbrev maxM (t : Fin cfg2.N) : Memref sig .tc .vmem S1x1 .f32 := win2_2.stage (cfg2.slots t 2)
abbrev outM (t : Fin cfg2.N) : Memref sig .tc .vmem S512x4 .f32 := win2_3.stage (cfg2.slots t 3)
abbrev accM : Memref sig .tc .vmem S512x4 .f32 := Memref.whole cc2_scratch0

theorem PhiA2_eq (c : Dev nD) :
    (Pipeline.ΦA spec2 c : sProp 𝕄)
      = iprop(iprop((∃ d, owns (c : Thread nD τ) accM fullShare d)
          ∗ Pipeline.scopedRestBut (Ix := Unit) (Name := ℕ) (U := Pipeline.UD sig nD τ) (Lvl := ℕ) (Val := Elt F) spec2 c [cc2_scratch0])
        ∗ (∃ r, prngReg c r)) := by
  unfold Pipeline.ΦA; rw [scopedRest2_split]; simp only [accM, owns_whole]; try rfl

theorem zeroOff2 : (![0, 0] : Fin 2 → ℕ) = fun _ => 0 := by funext a; fin_cases a <;> rfl

end Cert.KernelIdeal.Hand

end
-- ==== Proof.KI.Reg2RunA.lean ====
import proofs.«417626_j75007308858099_3_alg».proof.Proof.KI.Reg2Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def nodeSumRun_first (c : Dev nD) (i : grid2.Coords) (arg2 : Memref sig .tc .vmem S1x8192 .i32) (harg2 : arg2.IsWhole) (arg3 : Memref sig .tc .vmem S8192x4 .f32) (harg3 : arg3.IsWhole) (arg4 : Memref sig .tc .vmem S1x1 .f32) (harg4 : arg4.IsWhole) (arg5 : Memref sig .tc .vmem S512x4 .f32) (harg5 : arg5.IsWhole) (arg6 : Memref sig .tc .vmem S512x4 .f32) (harg6 : arg6.IsWhole)
    (hc0 : atFirstEdge i) (hc1 : ¬atLastEdge i)
    (x0 : Vec F S1x8192 .i32) (x1 : Vec F S8192x4 .f32) (x2 : Vec F S1x1 .f32) :
    { LS : List (View.Piece (Elt F) S512x4 .f32) //
      ∀ (xo : Vec F S512x4 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_small_body i arg2 harg2 arg3 harg3 arg4 harg4 arg5 harg5 arg6 harg6) K } := by
  refine ⟨?_, fun xo E K => ?run⟩
  case run =>
    simp only [cc2__scatter_small_body_eq_skeleton]; unfold cc2__scatter_small_body_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

theorem nodeSumRun_first_acc (c : Dev nD) (i : grid2.Coords) (arg2 : Memref sig .tc .vmem S1x8192 .i32) (harg2 : arg2.IsWhole) (arg3 : Memref sig .tc .vmem S8192x4 .f32) (harg3 : arg3.IsWhole) (arg4 : Memref sig .tc .vmem S1x1 .f32) (harg4 : arg4.IsWhole) (arg5 : Memref sig .tc .vmem S512x4 .f32) (harg5 : arg5.IsWhole) (arg6 : Memref sig .tc .vmem S512x4 .f32) (harg6 : arg6.IsWhole)
    (hc0 : atFirstEdge i) (hc1 : ¬atLastEdge i)
    (x0 : Vec F S1x8192 .i32) (x1 : Vec F S8192x4 .f32) (x2 : Vec F S1x1 .f32) (f) :
    arg6.view.read (Elt F) (arg6.view.writes (Elt F) f (nodeSumRun_first c i arg2 harg2 arg3 harg3 arg4 harg4 arg5 harg5 arg6 harg6 hc0 hc1 x0 x1 x2).1)
      = k2_pay2 i x0 x1 x2 k2_pay1 := by
  unfold nodeSumRun_first
  dsimp only
  rw [View.read_writes_eq_canon _ _ _ (fun y => ⟨_, List.mem_cons.mpr (Or.inl rfl), View.mem_set_unit_zero zeroOff2 inb_S512x4_S512x4_0_0 y⟩)]
  rw [View.canon_cons_unit_zero zeroOff2]
  sl_unfold_run_names
  rw [View.readCov_unit_zero _ zeroOff2]
  simp only [View.readAt_eq_ld, harg2.read_unread, harg3.read_unread, harg4.read_unread, harg6.read_unread,
    View.ld_unit_zero (S := S1x8192) zeroOff2, View.ld_unit_zero (S := S8192x4) zeroOff2,
    View.ld_unit_zero (S := S1x1) zeroOff2, View.ld_unit_zero (S := S512x4) zeroOff2]

end Cert.KernelIdeal.Hand

end
-- ==== Proof.KI.Reg2RunB.lean ====
import proofs.«417626_j75007308858099_3_alg».proof.Proof.KI.Reg2Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def nodeSumRun_mid (c : Dev nD) (i : grid2.Coords) (arg2 : Memref sig .tc .vmem S1x8192 .i32) (harg2 : arg2.IsWhole) (arg3 : Memref sig .tc .vmem S8192x4 .f32) (harg3 : arg3.IsWhole) (arg4 : Memref sig .tc .vmem S1x1 .f32) (harg4 : arg4.IsWhole) (arg5 : Memref sig .tc .vmem S512x4 .f32) (harg5 : arg5.IsWhole) (arg6 : Memref sig .tc .vmem S512x4 .f32) (harg6 : arg6.IsWhole)
    (hc0 : ¬atFirstEdge i) (hc1 : ¬atLastEdge i)
    (x0 : Vec F S1x8192 .i32) (x1 : Vec F S8192x4 .f32) (x2 : Vec F S1x1 .f32) (xs : Vec F S512x4 .f32) :
    { LS : List (View.Piece (Elt F) S512x4 .f32) //
      ∀ (xo : Vec F S512x4 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_small_body i arg2 harg2 arg3 harg3 arg4 harg4 arg5 harg5 arg6 harg6) K } := by
  refine ⟨?_, fun xo E K => ?run⟩
  case run =>
    simp only [cc2__scatter_small_body_eq_skeleton]; unfold cc2__scatter_small_body_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

theorem nodeSumRun_mid_acc (c : Dev nD) (i : grid2.Coords) (arg2 : Memref sig .tc .vmem S1x8192 .i32) (harg2 : arg2.IsWhole) (arg3 : Memref sig .tc .vmem S8192x4 .f32) (harg3 : arg3.IsWhole) (arg4 : Memref sig .tc .vmem S1x1 .f32) (harg4 : arg4.IsWhole) (arg5 : Memref sig .tc .vmem S512x4 .f32) (harg5 : arg5.IsWhole) (arg6 : Memref sig .tc .vmem S512x4 .f32) (harg6 : arg6.IsWhole)
    (hc0 : ¬atFirstEdge i) (hc1 : ¬atLastEdge i)
    (x0 : Vec F S1x8192 .i32) (x1 : Vec F S8192x4 .f32) (x2 : Vec F S1x1 .f32) (xs : Vec F S512x4 .f32) (f) :
    arg6.view.read (Elt F) (arg6.view.writes (Elt F) f (nodeSumRun_mid c i arg2 harg2 arg3 harg3 arg4 harg4 arg5 harg5 arg6 harg6 hc0 hc1 x0 x1 x2 xs).1)
      = k2_pay2 i x0 x1 x2 xs := by
  unfold nodeSumRun_mid
  dsimp only
  rw [View.read_writes_eq_canon _ _ _ (fun y => ⟨_, List.mem_cons.mpr (Or.inl rfl), View.mem_set_unit_zero zeroOff2 inb_S512x4_S512x4_0_0 y⟩)]
  rw [View.canon_cons_unit_zero zeroOff2]
  simp only [View.readAt_eq_ld, harg2.read_unread, harg3.read_unread, harg4.read_unread, harg6.read_unread,
    View.ld_unit_zero (S := S1x8192) zeroOff2, View.ld_unit_zero (S := S8192x4) zeroOff2,
    View.ld_unit_zero (S := S1x1) zeroOff2, View.ld_unit_zero (S := S512x4) zeroOff2]

end Cert.KernelIdeal.Hand

end
-- ==== Proof.KI.Reg2RunC.lean ====
import proofs.«417626_j75007308858099_3_alg».proof.Proof.KI.Reg2Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
noncomputable def nodeSumRun_last (c : Dev nD) (i : grid2.Coords) (arg2 : Memref sig .tc .vmem S1x8192 .i32) (harg2 : arg2.IsWhole) (arg3 : Memref sig .tc .vmem S8192x4 .f32) (harg3 : arg3.IsWhole) (arg4 : Memref sig .tc .vmem S1x1 .f32) (harg4 : arg4.IsWhole) (arg5 : Memref sig .tc .vmem S512x4 .f32) (harg5 : arg5.IsWhole) (arg6 : Memref sig .tc .vmem S512x4 .f32) (harg6 : arg6.IsWhole)
    (hc0 : ¬atFirstEdge i) (hc1 : atLastEdge i)
    (x0 : Vec F S1x8192 .i32) (x1 : Vec F S8192x4 .f32) (x2 : Vec F S1x1 .f32) (xs : Vec F S512x4 .f32) :
    Σ' (LO : List (View.Piece (Elt F) S512x4 .f32)), { LS : List (View.Piece (Elt F) S512x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_small_body i arg2 harg2 arg3 harg3 arg4 harg4 arg5 harg5 arg6 harg6) K } := by
  refine ⟨?_, ?_, fun E K => ?run⟩
  case run =>
    simp only [cc2__scatter_small_body_eq_skeleton]; unfold cc2__scatter_small_body_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

theorem nodeSumRun_last_acc (c : Dev nD) (i : grid2.Coords) (arg2 : Memref sig .tc .vmem S1x8192 .i32) (harg2 : arg2.IsWhole) (arg3 : Memref sig .tc .vmem S8192x4 .f32) (harg3 : arg3.IsWhole) (arg4 : Memref sig .tc .vmem S1x1 .f32) (harg4 : arg4.IsWhole) (arg5 : Memref sig .tc .vmem S512x4 .f32) (harg5 : arg5.IsWhole) (arg6 : Memref sig .tc .vmem S512x4 .f32) (harg6 : arg6.IsWhole)
    (hc0 : ¬atFirstEdge i) (hc1 : atLastEdge i)
    (x0 : Vec F S1x8192 .i32) (x1 : Vec F S8192x4 .f32) (x2 : Vec F S1x1 .f32) (xs : Vec F S512x4 .f32) (f) :
    arg6.view.read (Elt F) (arg6.view.writes (Elt F) f (nodeSumRun_last c i arg2 harg2 arg3 harg3 arg4 harg4 arg5 harg5 arg6 harg6 hc0 hc1 x0 x1 x2 xs).2.1)
      = k2_pay2 i x0 x1 x2 xs := by
  unfold nodeSumRun_last
  dsimp only
  sl_unfold_run_names
  rw [View.read_writes_eq_canon _ _ _ (fun y => ⟨_, List.mem_cons.mpr (Or.inl rfl), View.mem_set_unit_zero zeroOff2 inb_S512x4_S512x4_0_0 y⟩)]
  rw [View.canon_cons_unit_zero zeroOff2]
  simp only [View.readAt_eq_ld, harg2.read_unread, harg3.read_unread, harg4.read_unread, harg6.read_unread,
    View.ld_unit_zero (S := S1x8192) zeroOff2, View.ld_unit_zero (S := S8192x4) zeroOff2,
    View.ld_unit_zero (S := S1x1) zeroOff2, View.ld_unit_zero (S := S512x4) zeroOff2]

theorem nodeSumRun_last_out (c : Dev nD) (i : grid2.Coords) (arg2 : Memref sig .tc .vmem S1x8192 .i32) (harg2 : arg2.IsWhole) (arg3 : Memref sig .tc .vmem S8192x4 .f32) (harg3 : arg3.IsWhole) (arg4 : Memref sig .tc .vmem S1x1 .f32) (harg4 : arg4.IsWhole) (arg5 : Memref sig .tc .vmem S512x4 .f32) (harg5 : arg5.IsWhole) (arg6 : Memref sig .tc .vmem S512x4 .f32) (harg6 : arg6.IsWhole)
    (hc0 : ¬atFirstEdge i) (hc1 : atLastEdge i)
    (x0 : Vec F S1x8192 .i32) (x1 : Vec F S8192x4 .f32) (x2 : Vec F S1x1 .f32) (xs : Vec F S512x4 .f32) (f) :
    arg5.view.read (Elt F) (arg5.view.writes (Elt F) f (nodeSumRun_last c i arg2 harg2 arg3 harg3 arg4 harg4 arg5 harg5 arg6 harg6 hc0 hc1 x0 x1 x2 xs).1)
      = k2_pay2 i x0 x1 x2 xs := by
  unfold nodeSumRun_last
  dsimp only
  rw [View.read_writes_eq_canon _ _ _ (fun y => ⟨_, List.mem_cons.mpr (Or.inl rfl), View.mem_set_unit_zero zeroOff2 inb_S512x4_S512x4_0_0 y⟩)]
  rw [View.canon_cons_unit_zero zeroOff2]
  sl_unfold_run_names
  rw [View.readCov_unit_zero _ zeroOff2]
  simp only [View.readAt_eq_ld, harg2.read_unread, harg3.read_unread, harg4.read_unread, harg6.read_unread,
    View.ld_unit_zero (S := S1x8192) zeroOff2, View.ld_unit_zero (S := S8192x4) zeroOff2,
    View.ld_unit_zero (S := S1x1) zeroOff2, View.ld_unit_zero (S := S512x4) zeroOff2]

end Cert.KernelIdeal.Hand

end
-- ==== Proof.KI.Reg2.lean ====
import proofs.«417626_j75007308858099_3_alg».proof.Proof.KI.Reg2RunA
import proofs.«417626_j75007308858099_3_alg».proof.Proof.KI.Reg2RunB
import proofs.«417626_j75007308858099_3_alg».proof.Proof.KI.Reg2RunC
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

def acc2 (V : (c : Dev nD) → (b : Ref sig .tc) → Buf (Elt F) ((c : Thread nD τ).loc b)) (c : Dev nD) : (n : ℕ) → n < cfg2.N → Vec F S512x4 .f32
  | 0, hn => Gen.k2_pay2 (grid2.coords ⟨0, hn⟩) (iblk2 V c 0 ⟨0, hn⟩) (iblk2 V c 1 ⟨0, hn⟩) (iblk2 V c 2 ⟨0, hn⟩) Gen.k2_pay1
  | n + 1, hn =>
    if (n + 1) % 208 = 0 then Gen.k2_pay2 (grid2.coords ⟨n + 1, hn⟩) (iblk2 V c 0 ⟨n + 1, hn⟩) (iblk2 V c 1 ⟨n + 1, hn⟩) (iblk2 V c 2 ⟨n + 1, hn⟩) Gen.k2_pay1
    else Gen.k2_pay2 (grid2.coords ⟨n + 1, hn⟩) (iblk2 V c 0 ⟨n + 1, hn⟩) (iblk2 V c 1 ⟨n + 1, hn⟩) (iblk2 V c 2 ⟨n + 1, hn⟩) (acc2 V c n (Nat.lt_of_succ_lt hn))

theorem acc2_first (c : Dev nD) (t : Fin cfg2.N) (h : t.val % 208 = 0) :
    acc2 V c t.val t.isLt = Gen.k2_pay2 (grid2.coords t) (iblk2 V c 0 t) (iblk2 V c 1 t) (iblk2 V c 2 t) Gen.k2_pay1 := by
  obtain ⟨n, hn⟩ := t
  cases n with
  | zero => exact rfl
  | succ n => exact (if_pos h).trans rfl

theorem acc2_next (c : Dev nD) (t : Fin cfg2.N) (h : t.val % 208 ≠ 0) :
    acc2 V c t.val t.isLt = Gen.k2_pay2 (grid2.coords t) (iblk2 V c 0 t) (iblk2 V c 1 t) (iblk2 V c 2 t) (acc2 V c (t.val - 1) (by omega)) := by
  obtain ⟨n, hn⟩ := t
  cases n with
  | zero => exact absurd (Nat.zero_mod _) h
  | succ n => exact (if_neg h).trans rfl

def nodeInv (c : Dev nD) : (n : ℕ) → n ≤ cfg2.N → sProp 𝕄
  | 0, _ => Pipeline.ΦA spec2 c
  | n + 1, hn => iprop(iprop(owns (c : Thread nD τ) accM fullShare (acc2 V c n hn)
      ∗ Pipeline.scopedRestBut (Ix := Unit) (Name := ℕ) (U := Pipeline.UD sig nD τ) (Lvl := ℕ) (Val := Elt F) spec2 c [cc2_scratch0])
      ∗ (∃ r, prngReg c r))

theorem nodeInv_zero (c : Dev nD) (n : ℕ) (h : n ≤ cfg2.N) (hz : n = 0) : nodeInv V c n h = Pipeline.ΦA spec2 c := by
  subst hz; rfl

theorem nodeInv_succ (c : Dev nD) (n : ℕ) (hn : n < cfg2.N) :
    nodeInv V c (n + 1) hn = iprop(iprop(owns (c : Thread nD τ) accM fullShare (acc2 V c n hn)
      ∗ Pipeline.scopedRestBut (Ix := Unit) (Name := ℕ) (U := Pipeline.UD sig nD τ) (Lvl := ℕ) (Val := Elt F) spec2 c [cc2_scratch0])
      ∗ (∃ r, prngReg c r)) := rfl

theorem nodeInv_pos (c : Dev nD) (n : ℕ) (h : n ≤ cfg2.N) (hz : n ≠ 0) :
    nodeInv V c n h = iprop(iprop(owns (c : Thread nD τ) accM fullShare (acc2 V c (n - 1) (by omega))
      ∗ Pipeline.scopedRestBut (Ix := Unit) (Name := ℕ) (U := Pipeline.UD sig nD τ) (Lvl := ℕ) (Val := Elt F) spec2 c [cc2_scratch0])
      ∗ (∃ r, prngReg c r)) := by
  cases n with
  | zero => exact absurd rfl hz
  | succ n => rfl

theorem nodeInv_open (c : Dev nD) (n : ℕ) (h : n ≤ cfg2.N) :
    nodeInv V c n h ⊢ (iprop(iprop((∃ d, owns (c : Thread nD τ) accM fullShare d)
      ∗ Pipeline.scopedRestBut (Ix := Unit) (Name := ℕ) (U := Pipeline.UD sig nD τ) (Lvl := ℕ) (Val := Elt F) spec2 c [cc2_scratch0])
      ∗ (∃ r, prngReg c r)) : sProp 𝕄) := by
  cases n with
  | zero => rw [show nodeInv V c 0 h = Pipeline.ΦA spec2 c from rfl, PhiA2_eq]
  | succ n =>
    rw [nodeInv_succ]
    iintro ⟨⟨HS, HR⟩, Hg⟩
    isplitl [HS HR]
    · isplitl [HS]
      · iexists _; iexact HS
      iexact HR
    iexact Hg

def dat2 (V : (c : Dev nD) → (b : Ref sig .tc) → Buf (Elt F) ((c : Thread nD τ).loc b)) (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2 V c t.val t.isLt
  Φ t := nodeInv V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem share2 (c : Dev nD) (w : Fin cfg2.W) : (dat2 V c).q w = fullShare := by
  dsimp only [dat2]
theorem owed2 (c : Dev nD) (t : Fin (cfg2.N + 1)) : (dat2 V c).owed t = 0 := by
  dsimp only [dat2]
theorem recorded2 (c : Dev nD) (t : Fin (cfg2.N + 1)) : (dat2 V c).recorded t = Set.univ := rfl

theorem nodeInv_castSucc (c : Dev nD) (t : Fin cfg2.N) :
    (dat2 V c).Φ t.castSucc = nodeInv V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2 V c t.val t.isLt := by dsimp only [dat2]

theorem after2_3_last (c : Dev nD) (t : Fin cfg2.N) (h : t.val % 208 = 207) :
    (dat2 V c).after 3 t = acc2 V c t.val t.isLt := after2_3 V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (tgtM t) fullShare ((dat2 V c).before 0 t d))
    ∗ (∃ d, owns (c : Thread nD τ) (logitM t) fullShare ((dat2 V c).before 1 t d))
    ∗ (∃ d, owns (c : Thread nD τ) (maxM t) fullShare ((dat2 V c).before 2 t d))
    ∗ (∃ d, owns (c : Thread nD τ) (outM t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = nodeInv V c (t.val + 1) t.isLt from rfl, nodeInv_succ]
  rw [show (dat2 V c).leavesExact 0 t = owns (c : Thread nD τ) (tgtM t) fullShare ((dat2 V c).after 0 t) from by
    unfold Dat.leavesExact; rw [live2_0], after2_0]
  rw [show (dat2 V c).leavesExact 1 t = owns (c : Thread nD τ) (logitM t) fullShare ((dat2 V c).after 1 t) from by
    unfold Dat.leavesExact; rw [live2_1], after2_1]
  rw [show (dat2 V c).leavesExact 2 t = owns (c : Thread nD τ) (maxM t) fullShare ((dat2 V c).after 2 t) from by
    unfold Dat.leavesExact; rw [live2_2], after2_2]
  by_cases h0 : t.val % 208 = 0
  · have h1 : ¬t.val % 208 = 207 := by omega
    have hf : atFirstEdge (grid2.coords t) := (firstEdge_at t).mpr h0
    have hl : ¬atLastEdge (grid2.coords t) := fun h => h1 ((lastEdge_at t).mp h)
    rw [Dat.leavesExact_idle (dat2 V c) 3 t (idle2_3 _ hl) (Bool.eq_false_iff.mpr fun h => h1 ((flush2_3 t).mp h))]
    rw [acc2_first V c t h0]
    rw [nodeInv_castSucc V c t]
    iintro ⟨HI, Ho, ⟨%d0, H0⟩, ⟨%d1, H1⟩, ⟨%d2, H2⟩, ⟨%d3, H3⟩⟩
    ihave HI' := (nodeInv_open V c _ _) $$ HI
    icases HI' with ⟨⟨HS, HR⟩, Hg⟩
    iapply ((nodeSumRun_first c (grid2.coords t) _ _ _ _ _ _ _ _ _ _ hf hl (iblk2 V c 0 t) (iblk2 V c 1 t) (iblk2 V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR Hg]
    · isplitl [HS HR]
      · isplitl [HS]
        · unfold owns; iexists _; isplitr
          swap; · iexact HS
          ipureintro; exact nodeSumRun_first_acc c _ _ _ _ _ _ _ _ _ _ _ hf hl _ _ _ _
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hf : ¬atFirstEdge (grid2.coords t) := fun h => h0 ((firstEdge_at t).mp h)
    rw [acc2_next V c t h0]
    rw [nodeInv_castSucc V c t, nodeInv_pos V c _ _ hz]
    by_cases h1 : t.val % 208 = 207
    · have hl : atLastEdge (grid2.coords t) := (lastEdge_at t).mpr h1
      rw [show (dat2 V c).leavesExact 3 t = owns (c : Thread nD τ) (outM t) fullShare ((dat2 V c).after 3 t) from by
        unfold Dat.leavesExact; rw [live2_3 _ hl], after2_3, acc2_next V c t h0]
      iintro ⟨⟨⟨HS, HR⟩, Hg⟩, Ho, ⟨%d0, H0⟩, ⟨%d1, H1⟩, ⟨%d2, H2⟩, ⟨%d3, H3⟩⟩
      iapply ((nodeSumRun_last c (grid2.coords t) _ _ _ _ _ _ _ _ _ _ hf hl (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact nodeSumRun_last_acc c _ _ _ _ _ _ _ _ _ _ _ hf hl _ _ _ _ _
          iexact HR
        iexact Hg
      isplitl [Ho]; · iexact Ho
      isplitl [H0]; · iexact H0
      isplitl [H1]; · iexact H1
      isplitl [H2]; · iexact H2
      unfold owns; iexists _; isplitr
      swap; · iexact H3
      ipureintro; exact nodeSumRun_last_out c _ _ _ _ _ _ _ _ _ _ _ hf hl _ _ _ _ _
    · have hl : ¬atLastEdge (grid2.coords t) := fun h => h1 ((lastEdge_at t).mp h)
      rw [Dat.leavesExact_idle (dat2 V c) 3 t (idle2_3 _ hl) (Bool.eq_false_iff.mpr fun h => h1 ((flush2_3 t).mp h))]
      iintro ⟨⟨⟨HS, HR⟩, Hg⟩, Ho, ⟨%d0, H0⟩, ⟨%d1, H1⟩, ⟨%d2, H2⟩, ⟨%d3, H3⟩⟩
      iapply ((nodeSumRun_mid c (grid2.coords t) _ _ _ _ _ _ _ _ _ _ hf hl (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact nodeSumRun_mid_acc c _ _ _ _ _ _ _ _ _ _ _ hf hl _ _ _ _ _
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = nodeInv V c 0 (Nat.zero_le _) from rfl, nodeInv_zero V c 0 _ rfl]
  try exact Idealize.SL.BI.Entails.refl _

theorem hout2 (c : Dev nD) : (dat2 V c).Φ (Fin.last cfg2.N) ⊢ (Pipeline.ΦA spec2 c : sProp 𝕄) := by
  rw [show (dat2 V c).Φ (Fin.last cfg2.N) = nodeInv V c (Fin.last cfg2.N).val (Nat.le_of_lt_succ (Fin.last cfg2.N).isLt) from rfl, PhiA2_eq]
  exact nodeInv_open V c _ _

end Cert.KernelIdeal.Hand

end
-- ==== Proof.KI.Reg3.lean ====
import proofs.«417626_j75007308858099_3_alg».proof.Proof.Gen.KernelIdeal.Launch
import proofs.«417626_j75007308858099_3_alg».proof.Proof.Gen.KernelIdeal.Skeleton
import proofs.«417626_j75007308858099_3_alg».proof.Proof.KIPoints
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

theorem zeroOff3 : (![0, 0] : Fin 2 → Nat) = fun _ => 0 := funext fun a => by fin_cases a <;> rfl

theorem read_last_whole3 {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

section
variable (c : Dev nD) (i : grid3.Coords) (arg2 : Memref sig .tc .vmem S8192x1 .i32) (harg2 : arg2.IsWhole) (arg3 : Memref sig .tc .vmem S512x4 .f32) (harg3 : arg3.IsWhole) (arg4 : Memref sig .tc .vmem S8192x64 .bf16) (harg4 : arg4.IsWhole) (arg5 : Memref sig .tc .vmem S8192x4 .f32) (harg5 : arg5.IsWhole) (arg6 : Memref sig .tc .vmem S1x1 .f32) (harg6 : arg6.IsWhole) (arg7 : Memref sig .tc .vmem S8192x64 .bf16) (harg7 : arg7.IsWhole) (arg8 : Memref sig .tc .vmem S8192x4 .f32) (harg8 : arg8.IsWhole)

set_option maxHeartbeats 1000000 in
theorem run3_first (hc0 : cond3_0 i) (hc1 : ¬cond3_1 i)
    (x0 : Vec F S8192x1 .i32) (x1 : Vec F S512x4 .f32) (E : Set ℕ) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (k3_pay2 i x0 x1 (k3_pay1 (F := F)))) -∗ K ⟨⟩))
      ⊢ wp frame (wpE (defs₀ (F := F)) Variants.none c none) E (cc3__gather_alpha_body i arg2 harg2 arg3 harg3 arg4 harg4 arg5 harg5 arg6 harg6 arg7 harg7 arg8 harg8) K := by
  simp only [cc3__gather_alpha_body_eq_skeleton]; unfold cc3__gather_alpha_body_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [read_last_whole3 (S := S8192x4) _ _ zeroOff3, View.readCov_unit_zero (S := S8192x4) _ zeroOff3]
  simp only [View.readAt_eq_ld, harg2.read_unread, harg3.read_unread]
  simp only [View.ld_unit_zero (S := S8192x1) zeroOff3, View.ld_unit_zero (S := S512x4) zeroOff3]

set_option maxHeartbeats 1000000 in
theorem run3_mid (hc0 : ¬cond3_0 i) (hc1 : ¬cond3_1 i)
    (x0 : Vec F S8192x1 .i32) (x1 : Vec F S512x4 .f32) (xs0 : Vec F S8192x4 .f32) (E : Set ℕ) (K : PUnit → sProp 𝕄) :
    iprop(owns (c : Thread nD τ) arg2 fullShare x0 ∗ owns (c : Thread nD τ) arg3 fullShare x1 ∗ owns (c : Thread nD τ) arg8 fullShare xs0
        ∗ (iprop(owns (c : Thread nD τ) arg2 fullShare x0 ∗ owns (c : Thread nD τ) arg3 fullShare x1
            ∗ owns (c : Thread nD τ) arg8 fullShare (k3_pay2 i x0 x1 xs0)) -∗ K ⟨⟩))
      ⊢ wp frame (wpE (defs₀ (F := F)) Variants.none c none) E (cc3__gather_alpha_body i arg2 harg2 arg3 harg3 arg4 harg4 arg5 harg5 arg6 harg6 arg7 harg7 arg8 harg8) K := by
  simp only [cc3__gather_alpha_body_eq_skeleton]; unfold cc3__gather_alpha_body_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [read_last_whole3 (S := S8192x4) _ _ zeroOff3]
  simp only [View.readAt_eq_ld, harg2.read_unread, harg3.read_unread, harg8.read_unread]
  simp only [View.ld_unit_zero (S := S8192x1) zeroOff3, View.ld_unit_zero (S := S512x4) zeroOff3, View.ld_unit_zero (S := S8192x4) zeroOff3]

set_option maxHeartbeats 1000000 in
theorem run3_last (hc0 : ¬cond3_0 i) (hc1 : cond3_1 i)
    (x0 : Vec F S8192x1 .i32) (x1 : Vec F S512x4 .f32) (x2 : Vec F S8192x64 .bf16) (x3 : Vec F S8192x4 .f32) (x4 : Vec F S1x1 .f32)
    (xs0 : Vec F S8192x4 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k3_pay3 (k3_pay2 i x0 x1 xs0) x3 x4 x2)
            ∗ owns (c : Thread nD τ) arg8 fullShare (k3_pay2 i x0 x1 xs0)) -∗ K ⟨⟩))
      ⊢ wp frame (wpE (defs₀ (F := F)) Variants.none c none) E (cc3__gather_alpha_body i arg2 harg2 arg3 harg3 arg4 harg4 arg5 harg5 arg6 harg6 arg7 harg7 arg8 harg8) K := by
  simp only [cc3__gather_alpha_body_eq_skeleton]; unfold cc3__gather_alpha_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [read_last_whole3 (S := S8192x64) _ _ zeroOff3, View.readCov_unit_zero (S := S8192x4) _ zeroOff3]
    simp only [View.readAt_eq_ld, harg2.read_unread, harg3.read_unread, harg4.read_unread, harg5.read_unread, harg6.read_unread, harg8.read_unread]
    simp only [View.ld_unit_zero (S := S8192x1) zeroOff3, View.ld_unit_zero (S := S512x4) zeroOff3, View.ld_unit_zero (S := S8192x4) zeroOff3,
      View.ld_unit_zero (S := S8192x64) zeroOff3, View.ld_unit_zero (S := S1x1) zeroOff3]
  iexists _; isplitr
  swap; · iexact HS0
  ipureintro
  sl_unfold_words
  rw [read_last_whole3 (S := S8192x4) _ _ zeroOff3]
  simp only [View.readAt_eq_ld, harg2.read_unread, harg3.read_unread, harg8.read_unread]
  simp only [View.ld_unit_zero (S := S8192x1) zeroOff3, View.ld_unit_zero (S := S512x4) zeroOff3, View.ld_unit_zero (S := S8192x4) zeroOff3]

end

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem inner3 (t : Fin cfg3.N) : ((grid3.coords t) 1).val = t.val % 208 := by
  show t.val / grid3.stride 1 % 208 = t.val % 208
  rw [show grid3.stride 1 = 1 from by decide, Nat.div_one]

theorem cond3_0_iff (i : grid3.Coords) : cond3_0 i ↔ (i 1).val = 0 := by
  have h : ∀ j : Fin 208, ((Scalar.cmpi .ne (Scalar.extui (Scalar.cmpi .eq (BitVec.ofNat 32 j.val) 0#32)) 0#32) = 1#1) ↔ j.val = 0 := by decide
  exact h (i 1)
theorem cond3_1_iff (i : grid3.Coords) : cond3_1 i ↔ (i 1).val = 207 := by
  have h : ∀ j : Fin 208, ((Scalar.cmpi .ne (Scalar.extui (Scalar.cmpi .eq (BitVec.ofNat 32 j.val) 207#32)) 0#32) = 1#1) ↔ j.val = 207 := by decide
  exact h (i 1)

theorem hcond3_0 (t : Fin cfg3.N) : cond3_0 (grid3.coords t) ↔ t.val % 208 = 0 := by rw [cond3_0_iff, inner3]
theorem hcond3_1 (t : Fin cfg3.N) : cond3_1 (grid3.coords t) ↔ t.val % 208 = 207 := by rw [cond3_1_iff, inner3]

theorem live3_in (w : Fin cfg3.W) (hw : w.val < 5) (i : grid3.Coords) : cfg3.idle w i = false := by
  match w, hw with
  | ⟨0, _⟩, _ => rfl | ⟨1, _⟩, _ => rfl | ⟨2, _⟩, _ => rfl | ⟨3, _⟩, _ => rfl | ⟨4, _⟩, _ => rfl
theorem idle3_5 (i : grid3.Coords) (h : ¬cond3_1 i) : cfg3.idle 5 i = true := by
  show (!(k3_cond2 i == 1#1)) = true
  rw [Bool.not_eq_true', beq_eq_false_iff_ne]; exact h
theorem live3_5 (i : grid3.Coords) (h : cond3_1 i) : cfg3.idle 5 i = false := by
  show (!(k3_cond2 i == 1#1)) = false
  rw [Bool.not_eq_false', beq_iff_eq]; exact h
theorem noFlush3_5 (t : Fin cfg3.N) (h : t.val % 208 ≠ 207) : (cfg3.win 5).flush t = false := by
  rw [← Bool.not_eq_true]; exact fun hf => h ((flush3_5 t).mp hf)

abbrev ms3_0 (t : Fin cfg3.N) : Memref sig .tc .vmem S8192x1 .i32 := win3_0.stage (cfg3.slots t 0)
abbrev ms3_1 (t : Fin cfg3.N) : Memref sig .tc .vmem S512x4 .f32 := win3_1.stage (cfg3.slots t 1)
abbrev ms3_2 (t : Fin cfg3.N) : Memref sig .tc .vmem S8192x64 .bf16 := win3_2.stage (cfg3.slots t 2)
abbrev ms3_3 (t : Fin cfg3.N) : Memref sig .tc .vmem S8192x4 .f32 := win3_3.stage (cfg3.slots t 3)
abbrev ms3_4 (t : Fin cfg3.N) : Memref sig .tc .vmem S1x1 .f32 := win3_4.stage (cfg3.slots t 4)
abbrev ms3_5 (t : Fin cfg3.N) : Memref sig .tc .vmem S8192x64 .bf16 := win3_5.stage (cfg3.slots t 5)
abbrev scM3 : Memref sig .tc .vmem S8192x4 .f32 := Memref.whole cc3_scratch0

def acc3 (c : Dev nD) : (n : ℕ) → n < cfg3.N → Vec F S8192x4 .f32
  | 0, hn => k3_pay2 (grid3.coords ⟨0, hn⟩) (iblk3 V c 0 ⟨0, hn⟩) (iblk3 V c 1 ⟨0, hn⟩) k3_pay1
  | n + 1, hn =>
    if (n + 1) % 208 = 0 then
      k3_pay2 (grid3.coords ⟨n + 1, hn⟩) (iblk3 V c 0 ⟨n + 1, hn⟩) (iblk3 V c 1 ⟨n + 1, hn⟩) k3_pay1
    else
      k3_pay2 (grid3.coords ⟨n + 1, hn⟩) (iblk3 V c 0 ⟨n + 1, hn⟩) (iblk3 V c 1 ⟨n + 1, hn⟩) (acc3 c n (Nat.lt_of_succ_lt hn))

theorem acc3_first (c : Dev nD) (t : Fin cfg3.N) (h : t.val % 208 = 0) :
    acc3 V c t.val t.isLt = Gen.k3_pay2 (grid3.coords t) (iblk3 V c 0 t) (iblk3 V c 1 t) Gen.k3_pay1 := by
  obtain ⟨n, hn⟩ := t
  cases n with
  | zero => rfl
  | succ n => exact if_pos h
theorem acc3_next (c : Dev nD) (t : Fin cfg3.N) (h : t.val % 208 ≠ 0) :
    acc3 V c t.val t.isLt = Gen.k3_pay2 (grid3.coords t) (iblk3 V c 0 t) (iblk3 V c 1 t) (acc3 V c (t.val - 1) (by omega)) := by
  obtain ⟨n, hn⟩ := t
  cases n with
  | zero => exact absurd (Nat.zero_mod _) h
  | succ n => exact if_neg h

theorem PhiA3_eq (c : Dev nD) :
    (Pipeline.ΦA spec3 c : sProp 𝕄)
      = iprop(iprop((∃ d, owns (c : Thread nD τ) scM3 fullShare d) ∗ Pipeline.scopedRestBut spec3 c [cc3_scratch0]) ∗ (∃ r, prngReg c r)) := by
  unfold Pipeline.ΦA; rw [scopedRest3_split]; simp only [scM3, owns_whole]; try rfl

def Phi3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut spec3 c [cc3_scratch0]) ∗ (∃ r, prngReg c r))

theorem Phi3_succ (c : Dev nD) (n : ℕ) (hn : n < cfg3.N) :
    Phi3 V c (n + 1) hn = iprop(iprop(owns (c : Thread nD τ) scM3 fullShare (acc3 V c n hn) ∗ Pipeline.scopedRestBut spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega)) ∗ Pipeline.scopedRestBut spec3 c [cc3_scratch0]) ∗ (∃ r, prngReg c r)) := by
  cases n with
  | zero => exact absurd rfl hz
  | succ n => rfl

theorem Phi3_open (c : Dev nD) (n : ℕ) (h : n ≤ cfg3.N) :
    Phi3 V c n h ⊢ (iprop(iprop((∃ d, owns (c : Thread nD τ) scM3 fullShare d) ∗ Pipeline.scopedRestBut spec3 c [cc3_scratch0]) ∗ (∃ r, prngReg c r)) : sProp 𝕄) := by
  cases n with
  | zero => rw [show Phi3 V c 0 h = Pipeline.ΦA spec3 c from rfl, PhiA3_eq]
  | succ n =>
    rw [Phi3_succ]
    iintro ⟨⟨HS, HR⟩, Hg⟩
    isplitl [HS HR]
    · isplitl [HS]
      · iexists _; iexact HS
      iexact HR
    iexact Hg

theorem Phi3_forget (c : Dev nD) (n : ℕ) (h : n ≤ cfg3.N) : Phi3 V c n h ⊢ (Pipeline.ΦA spec3 c : sProp 𝕄) := by
  rw [PhiA3_eq]; exact Phi3_open V c n h

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay3 (acc3 V c t.val t.isLt) (iblk3 V c 3 t) (iblk3 V c 4 t) (iblk3 V c 2 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem share3 (c : Dev nD) (w : Fin cfg3.W) : (dat3 V c).q w = fullShare := by
  dsimp only [dat3]
theorem owed3 (c : Dev nD) (t : Fin (cfg3.N + 1)) : (dat3 V c).owed t = 0 := by
  dsimp only [dat3]
theorem recorded3 (c : Dev nD) (t : Fin (cfg3.N + 1)) : (dat3 V c).recorded t = Set.univ := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = Gen.k3_pay3 (acc3 V c t.val t.isLt) (iblk3 V c 3 t) (iblk3 V c 4 t) (iblk3 V c 2 t) := by dsimp only [dat3]
theorem after3_5_last (c : Dev nD) (t : Fin cfg3.N) (h : t.val % 208 = 207) :
    (dat3 V c).after 5 t = Gen.k3_pay3 (acc3 V c t.val t.isLt) (iblk3 V c 3 t) (iblk3 V c 4 t) (iblk3 V c 2 t) := after3_5 V c t

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = Phi3 V c (t.val + 1) t.isLt from rfl, Phi3_succ, Phi3_castSucc]
  rw [show (dat3 V c).leavesExact 0 t = owns (c : Thread nD τ) (ms3_0 t) fullShare ((dat3 V c).after 0 t) from by
    unfold Dat.leavesExact; rw [live3_in 0 (by decide)], after3_0]
  rw [show (dat3 V c).leavesExact 1 t = owns (c : Thread nD τ) (ms3_1 t) fullShare ((dat3 V c).after 1 t) from by
    unfold Dat.leavesExact; rw [live3_in 1 (by decide)], after3_1]
  rw [show (dat3 V c).leavesExact 2 t = owns (c : Thread nD τ) (ms3_2 t) fullShare ((dat3 V c).after 2 t) from by
    unfold Dat.leavesExact; rw [live3_in 2 (by decide)], after3_2]
  rw [show (dat3 V c).leavesExact 3 t = owns (c : Thread nD τ) (ms3_3 t) fullShare ((dat3 V c).after 3 t) from by
    unfold Dat.leavesExact; rw [live3_in 3 (by decide)], after3_3]
  rw [show (dat3 V c).leavesExact 4 t = owns (c : Thread nD τ) (ms3_4 t) fullShare ((dat3 V c).after 4 t) from by
    unfold Dat.leavesExact; rw [live3_in 4 (by decide)], after3_4]
  have hN : t.val < 43264 := lt_of_lt_of_eq t.isLt (show cfg3.N = 43264 from N_3)
  by_cases h0 : t.val % 208 = 0
  · have h1 : ¬t.val % 208 = 207 := by omega
    rw [Dat.leavesExact_idle (dat3 V c) 5 t (idle3_5 _ (fun h => h1 ((hcond3_1 t).mp h))) (noFlush3_5 t h1)]
    rw [acc3_first V c t h0]
    iintro ⟨HI, Ho, ⟨%d0, H0⟩, ⟨%d1, H1⟩, ⟨%d2, H2⟩, ⟨%d3, H3⟩, ⟨%d4, H4⟩, H5⟩
    ihave HI' := (Phi3_open V c _ _) $$ HI
    icases HI' with ⟨⟨HS, HR⟩, Hg⟩
    iapply (run3_first c (grid3.coords t) _ _ _ _ _ _ _ _ _ _ _ _ _ _ ((hcond3_0 t).mpr h0) (fun h => h1 ((hcond3_1 t).mp h)) (iblk3 V c 0 t) (iblk3 V c 1 t) Set.univ _)
    isplitl [H0]; · iexact H0
    isplitl [H1]; · iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    rw [acc3_next V c t h0, Phi3_pos V c _ _ hz]
    by_cases h1 : t.val % 208 = 207
    · rw [show (dat3 V c).leavesExact 5 t = owns (c : Thread nD τ) (ms3_5 t) fullShare ((dat3 V c).after 5 t) from by
        unfold Dat.leavesExact; rw [live3_5 _ ((hcond3_1 t).mpr h1)], after3_5, acc3_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run3_last c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat3 V c) 5 t (idle3_5 _ (fun h => h1 ((hcond3_1 t).mp h))) (noFlush3_5 t h1)]
      iintro ⟨⟨⟨HS, HR⟩, Hg⟩, Ho, ⟨%d0, H0⟩, ⟨%d1, H1⟩, ⟨%d2, H2⟩, ⟨%d3, H3⟩, ⟨%d4, H4⟩, H5⟩
      iapply (run3_mid c (grid3.coords t) _ _ _ _ _ _ _ _ _ _ _ _ _ _ (fun h => h0 ((hcond3_0 t).mp h)) (fun h => h1 ((hcond3_1 t).mp h)) (iblk3 V c 0 t) (iblk3 V c 1 t) _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = Phi3 V c 0 (Nat.zero_le _) from rfl]
  exact Idealize.SL.BI.Entails.refl _

theorem hout3 (c : Dev nD) : (dat3 V c).Φ (Fin.last cfg3.N) ⊢ (Pipeline.ΦA spec3 c : sProp 𝕄) := by
  rw [show (dat3 V c).Φ (Fin.last cfg3.N) = Phi3 V c (Fin.last cfg3.N).val (Nat.le_of_lt_succ (Fin.last cfg3.N).isLt) from rfl]
  exact Phi3_forget V c _ _

end Cert.KernelIdeal.Hand

end
-- ==== Proof.KI.Reg4.lean ====
import proofs.«417626_j75007308858099_3_alg».proof.Proof.Gen.KernelIdeal.Launch
import proofs.«417626_j75007308858099_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«417626_j75007308858099_3_alg».proof.Proof.KIPoints

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond4_0 (i : grid4.Coords) : Prop :=
  (Scalar.cmpi .ne (Scalar.extui (Scalar.cmpi .eq (BitVec.ofNat 32 (i 1).val) 0#32)) 0#32) = 1#1

abbrev cond4_1 (i : grid4.Coords) : Prop := k4_cond2 i = 1#1

theorem cond4_0_iff (i : grid4.Coords) : cond4_0 i ↔ (i 1).val = 0 := by
  have h : ∀ j : Fin 208, ((Scalar.cmpi .ne (Scalar.extui (Scalar.cmpi .eq (BitVec.ofNat 32 j.val) 0#32)) 0#32) = 1#1) ↔ j.val = 0 := by
    decide
  exact h (i 1)

theorem cond4_1_iff (i : grid4.Coords) : cond4_1 i ↔ (i 1).val = 207 := by
  have h : ∀ j : Fin 208, ((Scalar.cmpi .ne (Scalar.extui (Scalar.cmpi .eq (BitVec.ofNat 32 j.val) 207#32)) 0#32) = 1#1) ↔ j.val = 207 := by
    decide
  exact h (i 1)

theorem zeroOff2 : (![0, 0] : Fin 2 → ℕ) = fun _ => 0 := by
  funext a; fin_cases a <;> rfl

section
variable (c : Dev nD) (i : grid4.Coords) (arg2 : Memref sig .tc .vmem S1x8192 .i32) (harg2 : arg2.IsWhole) (arg3 : Memref sig .tc .vmem S8192x64 .bf16) (harg3 : arg3.IsWhole) (arg4 : Memref sig .tc .vmem S512x64 .f32) (harg4 : arg4.IsWhole) (arg5 : Memref sig .tc .vmem S512x64 .f32) (harg5 : arg5.IsWhole)

set_option maxHeartbeats 1000000 in
theorem run4_B (hc0 : ¬cond4_0 i) (hc1 : ¬cond4_1 i)
    (x0 : Vec F S1x8192 .i32) (x1 : Vec F S8192x64 .bf16) (xi2 : Vec F S512x64 .f32) (xs : Vec F S512x64 .f32)
    (E : Set ℕ) (K : PUnit → sProp 𝕄) :
    iprop(owns (c : Thread nD τ) arg2 fullShare x0 ∗ owns (c : Thread nD τ) arg3 fullShare x1
        ∗ owns (c : Thread nD τ) arg4 fullShare xi2 ∗ owns (c : Thread nD τ) arg5 fullShare xs
        ∗ (iprop(owns (c : Thread nD τ) arg2 fullShare x0 ∗ owns (c : Thread nD τ) arg3 fullShare x1
            ∗ owns (c : Thread nD τ) arg4 fullShare xi2
            ∗ owns (c : Thread nD τ) arg5 fullShare (k4_pay2 i x0 x1 xs)) -∗ K ⟨⟩))
      ⊢ wp frame (wpE (defs₀ (F := F)) Variants.none c none) E
          (cc4__scatter_big_body i arg2 harg2 arg3 harg3 arg4 harg4 arg5 harg5) K := by
  simp only [cc4__scatter_big_body_eq_skeleton]; unfold cc4__scatter_big_body_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_singleton_self _, View.mem_set_unit_zero zeroOff2 inb_S512x64_S512x64_0_0 y⟩),
    View.canon_unit_zero zeroOff2]
  simp only [View.readAt_eq_ld, hf0, hf1, hfs, View.ld_unit_zero (S := S1x8192) zeroOff2,
    View.ld_unit_zero (S := S8192x64) zeroOff2, View.ld_unit_zero (S := S512x64) zeroOff2]

set_option maxHeartbeats 1000000 in
theorem run4_A (hc0 : cond4_0 i) (hc1 : ¬cond4_1 i)
    (x0 : Vec F S1x8192 .i32) (x1 : Vec F S8192x64 .bf16) (xi2 : Vec F S512x64 .f32)
    (E : Set ℕ) (K : PUnit → sProp 𝕄) :
    iprop(owns (c : Thread nD τ) arg2 fullShare x0 ∗ owns (c : Thread nD τ) arg3 fullShare x1
        ∗ owns (c : Thread nD τ) arg4 fullShare xi2 ∗ (∃ d, owns (c : Thread nD τ) arg5 fullShare d)
        ∗ (iprop(owns (c : Thread nD τ) arg2 fullShare x0 ∗ owns (c : Thread nD τ) arg3 fullShare x1
            ∗ owns (c : Thread nD τ) arg4 fullShare xi2
            ∗ owns (c : Thread nD τ) arg5 fullShare (k4_pay2 i x0 x1 k4_pay1)) -∗ K ⟨⟩))
      ⊢ wp frame (wpE (defs₀ (F := F)) Variants.none c none) E
          (cc4__scatter_big_body i arg2 harg2 arg3 harg3 arg4 harg4 arg5 harg5) K := by
  simp only [cc4__scatter_big_body_eq_skeleton]; unfold cc4__scatter_big_body_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [View.read_writes_eq_canon _ _ _ (fun y => ⟨_, List.mem_cons_self, View.mem_set_unit_zero zeroOff2 inb_S512x64_S512x64_0_0 y⟩),
    View.canon_cons_unit_zero zeroOff2]
  sl_unfold_run_names
  rw [View.readCov_unit_zero _ zeroOff2]
  simp only [View.readAt_eq_ld, hf0, hf1, View.ld_unit_zero (S := S1x8192) zeroOff2,
    View.ld_unit_zero (S := S8192x64) zeroOff2]

set_option maxHeartbeats 1000000 in
theorem run4_C (hc0 : ¬cond4_0 i) (hc1 : cond4_1 i)
    (x0 : Vec F S1x8192 .i32) (x1 : Vec F S8192x64 .bf16) (xs : Vec F S512x64 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k4_pay2 i x0 x1 xs)
            ∗ owns (c : Thread nD τ) arg5 fullShare (k4_pay2 i x0 x1 xs)) -∗ K ⟨⟩))
      ⊢ wp frame (wpE (defs₀ (F := F)) Variants.none c none) E
          (cc4__scatter_big_body i arg2 harg2 arg3 harg3 arg4 harg4 arg5 harg5) K := by
  simp only [cc4__scatter_big_body_eq_skeleton]; unfold cc4__scatter_big_body_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1
  obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  have hpay : View.read (Elt F) arg5.view (arg5.view.writes (Elt F) (harg5.unread xs)
      (run4_C.sl.HS_1 c i arg2 harg2 arg3 harg3 arg5 harg5 x0 x1 xs)) = k4_pay2 i x0 x1 xs := by
    sl_unfold_run_names
    rw [View.read_writes_eq_canon _ _ _ (fun y => ⟨_, List.mem_singleton_self _, View.mem_set_unit_zero zeroOff2 inb_S512x64_S512x64_0_0 y⟩),
      View.canon_unit_zero zeroOff2]
    simp only [View.readAt_eq_ld, hf0, hf1, hfs, View.ld_unit_zero (S := S1x8192) zeroOff2,
      View.ld_unit_zero (S := S8192x64) zeroOff2, View.ld_unit_zero (S := S512x64) zeroOff2]
  isplitl [H2]
  · iexists _; isplitr
    swap; · iexact H2
    ipureintro
    rw [View.read_writes_eq_canon _ _ _ (fun y => ⟨_, List.mem_singleton_self _, View.mem_set_unit_zero zeroOff2 inb_S512x64_S512x64_0_0 y⟩),
      View.canon_unit_zero zeroOff2]
    sl_unfold_run_names
    rw [View.readCov_unit_zero _ zeroOff2]
    simp only [View.readAt_eq_ld, hf0, hf1, hfs, View.ld_unit_zero (S := S1x8192) zeroOff2,
      View.ld_unit_zero (S := S8192x64) zeroOff2, View.ld_unit_zero (S := S512x64) zeroOff2]
  iexists _; isplitr
  swap; · iexact HS
  ipureintro
  exact hpay

end

theorem coord4_1 (t : Fin cfg4.N) : ((grid4.coords t) 1).val = t.val % 208 := by
  have hs : grid4.stride 1 = 1 := by decide
  show t.val / grid4.stride 1 % 208 = t.val % 208
  rw [hs, Nat.div_one]

theorem hcond4_0 (t : Fin cfg4.N) : cond4_0 (grid4.coords t) ↔ t.val % 208 = 0 := by
  rw [cond4_0_iff, coord4_1]

theorem hcond4_1 (t : Fin cfg4.N) : cond4_1 (grid4.coords t) ↔ t.val % 208 = 207 := by
  rw [cond4_1_iff, coord4_1]

theorem liveAt4_0 (i : grid4.Coords) : cfg4.idle 0 i = false := rfl
theorem liveAt4_1 (i : grid4.Coords) : cfg4.idle 1 i = false := rfl

theorem idleAt4_2 (i : grid4.Coords) (h : ¬cond4_1 i) : cfg4.idle 2 i = true := by
  show (!(k4_cond2 i == 1#1)) = true
  cases hb : (k4_cond2 i == 1#1)
  · rfl
  · exact absurd (eq_of_beq hb) h

theorem liveAt4_2 (i : grid4.Coords) (h : cond4_1 i) : cfg4.idle 2 i = false := by
  show (!(k4_cond2 i == 1#1)) = false
  rw [show k4_cond2 i = 1#1 from h]; rfl

theorem noFlush4_2 (t : Fin cfg4.N) (h : t.val % 208 ≠ 207) : (cfg4.win 2).flush t = false := by
  cases hf : (cfg4.win 2).flush t
  · rfl
  · exact absurd ((flush4_2 t).mp hf) h

abbrev scM4 : Memref sig .tc .vmem S512x64 .f32 := Memref.whole cc4_scratch0

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := Pipeline.UD sig nD τ) (Lvl := ℕ) (Val := Elt F) spec4 c [cc4_scratch0])
          ∗ (∃ r, prngReg c r)) := by
  unfold Pipeline.ΦA; rw [scopedRest4_split]; simp only [scM4, owns_whole]; try rfl

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t := by
  refine (dat.before_in_eq_fetched 0 rfl (fun _ => rfl) (fun _ _ _ => rfl) (fun t => ?_) t d).trans ?_
  · rw [hafter]; unfold Dat.blockOf iblk4; rw [hA]; try rfl
  · unfold Dat.fetched Dat.blockOf iblk4; rw [hA]; try rfl

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t := by
  refine (dat.before_in_eq_fetched 1 rfl (fun _ => rfl) (fun _ _ _ => rfl) (fun t => ?_) t d).trans ?_
  · rw [hafter]; unfold Dat.blockOf iblk4; rw [hA]; try rfl
  · unfold Dat.fetched Dat.blockOf iblk4; rw [hA]; try rfl

def acc4 (c : Dev nD) : (n : ℕ) → n < cfg4.N → Vec F S512x64 .f32
  | 0, hn => k4_pay2 (grid4.coords ⟨0, hn⟩) (iblk4 V c 0 ⟨0, hn⟩) (iblk4 V c 1 ⟨0, hn⟩) k4_pay1
  | n + 1, hn =>
    if (n + 1) % 208 = 0 then
      k4_pay2 (grid4.coords ⟨n + 1, hn⟩) (iblk4 V c 0 ⟨n + 1, hn⟩) (iblk4 V c 1 ⟨n + 1, hn⟩) k4_pay1
    else
      k4_pay2 (grid4.coords ⟨n + 1, hn⟩) (iblk4 V c 0 ⟨n + 1, hn⟩) (iblk4 V c 1 ⟨n + 1, hn⟩) (acc4 c n (Nat.lt_of_succ_lt hn))

theorem acc4_first (c : Dev nD) (t : Fin cfg4.N) (h : t.val % 208 = 0) :
    acc4 V c t.val t.isLt = Gen.k4_pay2 (grid4.coords t) (iblk4 V c 0 t) (iblk4 V c 1 t) Gen.k4_pay1 := by
  obtain ⟨n, hn⟩ := t
  cases n with
  | zero => rfl
  | succ n => exact (if_pos h).trans rfl

theorem acc4_next (c : Dev nD) (t : Fin cfg4.N) (h : t.val % 208 ≠ 0) :
    acc4 V c t.val t.isLt = Gen.k4_pay2 (grid4.coords t) (iblk4 V c 0 t) (iblk4 V c 1 t) (acc4 V c (t.val - 1) (by omega)) := by
  obtain ⟨n, hn⟩ := t
  cases n with
  | zero => exact absurd (Nat.zero_mod _) h
  | succ n => exact (if_neg h).trans rfl

def PhiS4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := Pipeline.UD sig nD τ) (Lvl := ℕ) (Val := Elt F) spec4 c [cc4_scratch0])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn)
      ∗ Pipeline.scopedRestBut (Ix := Unit) (Name := ℕ) (U := Pipeline.UD sig nD τ) (Lvl := ℕ) (Val := Elt F) spec4 c [cc4_scratch0])
      ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega))
      ∗ Pipeline.scopedRestBut (Ix := Unit) (Name := ℕ) (U := Pipeline.UD sig nD τ) (Lvl := ℕ) (Val := Elt F) spec4 c [cc4_scratch0])
      ∗ (∃ r, prngReg c r)) := by
  cases n with
  | zero => exact absurd rfl hz
  | succ n => rfl

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem share4 (c : Dev nD) (w : Fin cfg4.W) : (dat4 V c).q w = fullShare := by
  dsimp only [dat4]
theorem owed4 (c : Dev nD) (t : Fin (cfg4.N + 1)) : (dat4 V c).owed t = 0 := by
  dsimp only [dat4]
theorem recorded4 (c : Dev nD) (t : Fin (cfg4.N + 1)) : (dat4 V c).recorded t = Set.univ := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = acc4 V c t.val t.isLt := by dsimp only [dat4]

theorem after4_2_last (c : Dev nD) (t : Fin cfg4.N) (h : t.val % 208 = 207) :
    (dat4 V c).after 2 t = acc4 V c t.val t.isLt := after4_2 V c t

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem PhiS4_open (c : Dev nD) (n : ℕ) (h : n ≤ cfg4.N) :
    PhiS4 V c n h ⊢ (iprop(iprop((∃ d, owns (c : Thread nD τ) scM4 fullShare d) ∗ Pipeline.scopedRestBut (Ix := Unit) (Name := ℕ) (U := Pipeline.UD sig nD τ) (Lvl := ℕ) (Val := Elt F) spec4 c [cc4_scratch0])
      ∗ (∃ r, prngReg c r)) : sProp 𝕄) := by
  cases n with
  | zero => rw [PhiS4_zero V c 0 h rfl, PhiA4_eq]
  | succ n =>
    rw [PhiS4_succ]
    iintro ⟨⟨HS, HR⟩, Hg⟩
    isplitl [HS HR]
    · isplitl [HS]
      · iexists _; iexact HS
      iexact HR
    iexact Hg

theorem PhiS4_rest (c : Dev nD) (n : ℕ) (h : n ≤ cfg4.N) : PhiS4 V c n h ⊢ (Pipeline.ΦA spec4 c : sProp 𝕄) := by
  rw [PhiA4_eq]; exact PhiS4_open V c n h

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0], after4_0]
  rw [show (dat4 V c).leavesExact 1 t = owns (c : Thread nD τ) (st4_1 t) fullShare ((dat4 V c).after 1 t) from by
    unfold Dat.leavesExact; rw [liveAt4_1], after4_1]
  rw [PhiS4_castSucc]
  by_cases h1 : t.val % 208 = 207
  ·
    have h0 : t.val % 208 ≠ 0 := by omega
    have hz : t.val ≠ 0 := by omega
    rw [show (dat4 V c).leavesExact 2 t = owns (c : Thread nD τ) (st4_2 t) fullShare ((dat4 V c).after 2 t) from by
      unfold Dat.leavesExact; rw [liveAt4_2 _ ((hcond4_1 t).mpr h1)], after4_2]
    rw [acc4_next V c t h0, PhiS4_pos V c _ _ hz]
    iintro ⟨⟨⟨HS, HR⟩, Hg⟩, Ho, ⟨%d0, H0⟩, ⟨%d1, H1⟩, ⟨%d2, H2⟩⟩
    iapply (run4_C c (grid4.coords t) _ _ _ _ _ _ _ _ (fun h => h0 ((hcond4_0 t).mp h)) ((hcond4_1 t).mpr h1)
      (iblk4 V c 0 t) (iblk4 V c 1 t) _ Set.univ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat4 V c) 2 t (idleAt4_2 _ (fun h => h1 ((hcond4_1 t).mp h))) (noFlush4_2 t h1)]
    by_cases h0 : t.val % 208 = 0
    ·
      rw [acc4_first V c t h0]
      iintro ⟨HΦ, Ho, ⟨%d0, H0⟩, ⟨%d1, H1⟩, ⟨%d2, H2⟩⟩
      icases (PhiS4_open V c _ _) $$ HΦ with ⟨⟨HS, HR⟩, Hg⟩
      iapply (run4_A c (grid4.coords t) _ _ _ _ _ _ _ _ ((hcond4_0 t).mpr h0) (fun h => h1 ((hcond4_1 t).mp h))
        (iblk4 V c 0 t) (iblk4 V c 1 t) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    ·
      have hz : t.val ≠ 0 := by omega
      rw [acc4_next V c t h0, PhiS4_pos V c _ _ hz]
      iintro ⟨⟨⟨HS, HR⟩, Hg⟩, Ho, ⟨%d0, H0⟩, ⟨%d1, H1⟩, ⟨%d2, H2⟩⟩
      iapply (run4_B c (grid4.coords t) _ _ _ _ _ _ _ _ (fun h => h0 ((hcond4_0 t).mp h)) (fun h => h1 ((hcond4_1 t).mp h))
        (iblk4 V c 0 t) (iblk4 V c 1 t) _ _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]

theorem hout4 (c : Dev nD) : (dat4 V c).Φ (Fin.last cfg4.N) ⊢ (Pipeline.ΦA spec4 c : sProp 𝕄) := by
  rw [show (dat4 V c).Φ (Fin.last cfg4.N) = PhiS4 V c (Fin.last cfg4.N).val (Nat.le_of_lt_succ (Fin.last cfg4.N).isLt) from rfl]
  exact PhiS4_rest V c _ _

end Cert.KernelIdeal.Hand

end
-- ==== Proof.KI.Vals.lean ====
import proofs.«417626_j75007308858099_3_alg».proof.Proof.KI.Reg0
import proofs.«417626_j75007308858099_3_alg».proof.Proof.KI.Reg1
import proofs.«417626_j75007308858099_3_alg».proof.Proof.KI.Reg2
import proofs.«417626_j75007308858099_3_alg».proof.Proof.KI.Reg3
import proofs.«417626_j75007308858099_3_alg».proof.Proof.KI.Reg4
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atRef (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
def W8 : Dev nD → Valuation τ sig (Elt F) := fun c =>
  Pipeline.withArrays spec0 c (W7 m c) fun w => (dat0 (atRef (W7 m)) c).arrAt w cfg0.N
abbrev W9 : Dev nD → Valuation τ sig (Elt F) := fun c => StableHlo.after hostOps1 (W8 m c)
def W10 : Dev nD → Valuation τ sig (Elt F) := fun c =>
  Pipeline.withArrays spec1 c (W9 m c) fun w => (dat1 (atRef (W9 m)) c).arrAt w cfg1.N
abbrev W11 : Dev nD → Valuation τ sig (Elt F) := fun c => StableHlo.after hostOps2 (W10 m c)
def W12 : Dev nD → Valuation τ sig (Elt F) := fun c =>
  Pipeline.withArrays spec2 c (W11 m c) fun w => (dat2 (atRef (W11 m)) c).arrAt w cfg2.N
def W13 : Dev nD → Valuation τ sig (Elt F) := fun c =>
  Pipeline.withArrays spec3 c (W12 m c) fun w => (dat3 (atRef (W12 m)) c).arrAt w cfg3.N
def W14 : Dev nD → Valuation τ sig (Elt F) := fun c =>
  Pipeline.withArrays spec4 c (W13 m c) fun w => (dat4 (atRef (W13 m)) c).arrAt w cfg4.N
abbrev W15 : Dev nD → Valuation τ sig (Elt F) := fun c => StableHlo.after hostOps5 (W14 m c)

end Cert.KernelIdeal.Hand

end
-- ==== Proof.KI.Run.lean ====
import proofs.«417626_j75007308858099_3_alg».proof.Proof.KI.Vals
import proofs.«417626_j75007308858099_3_alg».proof.Proof.Gen.KernelIdeal.Regions
import proofs.«417626_j75007308858099_3_alg».proof.Proof.Gen.KernelIdeal.Launch
import Idealize.ShloMosaic.Lib.Pipeline.Regions
import Idealize.ShloMosaic.Lib.Pipeline.RegionsLoop
import Idealize.ShloMosaic.Lib.Pipeline.Frame
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

theorem W8_arr (c : Dev nD) (w : Fin cfg0.W) :
    W8 m c (Proc.devRef .tc (Pipeline.arrRef spec0 w)) = (dat0 (atRef (W7 m)) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem hF0 (c : Dev nD) (w : Fin cfg0.W) :
    (dat0 (atRef (W7 m)) c).arrAt w cfg0.N = atRef (W8 m) c (Pipeline.arrRef spec0 w) :=
  (W8_arr m c w).symm
theorem hrest0 (c : Dev nD) : ∀ b, b ∉ Finset.univ.image (Pipeline.arrRef spec0) → atRef (W8 m) c b = atRef (W7 m) c b :=
  fun b hb => W8_of_ne m c b fun w e => hb (Finset.mem_image.mpr ⟨w, Finset.mem_univ _, e⟩)

theorem W10_arr (c : Dev nD) (w : Fin cfg1.W) :
    W10 m c (Proc.devRef .tc (Pipeline.arrRef spec1 w)) = (dat1 (atRef (W9 m)) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
theorem hF1 (c : Dev nD) (w : Fin cfg1.W) :
    (dat1 (atRef (W9 m)) c).arrAt w cfg1.N = atRef (W10 m) c (Pipeline.arrRef spec1 w) :=
  (W10_arr m c w).symm
theorem hrest1 (c : Dev nD) : ∀ b, b ∉ Finset.univ.image (Pipeline.arrRef spec1) → atRef (W10 m) c b = atRef (W9 m) c b :=
  fun b hb => W10_of_ne m c b fun w e => hb (Finset.mem_image.mpr ⟨w, Finset.mem_univ _, e⟩)

theorem W12_arr (c : Dev nD) (w : Fin cfg2.W) :
    W12 m c (Proc.devRef .tc (Pipeline.arrRef spec2 w)) = (dat2 (atRef (W11 m)) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb
theorem hF2 (c : Dev nD) (w : Fin cfg2.W) :
    (dat2 (atRef (W11 m)) c).arrAt w cfg2.N = atRef (W12 m) c (Pipeline.arrRef spec2 w) :=
  (W12_arr m c w).symm
theorem hrest2 (c : Dev nD) : ∀ b, b ∉ Finset.univ.image (Pipeline.arrRef spec2) → atRef (W12 m) c b = atRef (W11 m) c b :=
  fun b hb => W12_of_ne m c b fun w e => hb (Finset.mem_image.mpr ⟨w, Finset.mem_univ _, e⟩)

theorem W13_arr (c : Dev nD) (w : Fin cfg3.W) :
    W13 m c (Proc.devRef .tc (Pipeline.arrRef spec3 w)) = (dat3 (atRef (W12 m)) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
theorem hF3 (c : Dev nD) (w : Fin cfg3.W) :
    (dat3 (atRef (W12 m)) c).arrAt w cfg3.N = atRef (W13 m) c (Pipeline.arrRef spec3 w) :=
  (W13_arr m c w).symm
theorem hrest3 (c : Dev nD) : ∀ b, b ∉ Finset.univ.image (Pipeline.arrRef spec3) → atRef (W13 m) c b = atRef (W12 m) c b :=
  fun b hb => W13_of_ne m c b fun w e => hb (Finset.mem_image.mpr ⟨w, Finset.mem_univ _, e⟩)

theorem W14_arr (c : Dev nD) (w : Fin cfg4.W) :
    W14 m c (Proc.devRef .tc (Pipeline.arrRef spec4 w)) = (dat4 (atRef (W13 m)) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
theorem hF4 (c : Dev nD) (w : Fin cfg4.W) :
    (dat4 (atRef (W13 m)) c).arrAt w cfg4.N = atRef (W14 m) c (Pipeline.arrRef spec4 w) :=
  (W14_arr m c w).symm
theorem hrest4 (c : Dev nD) : ∀ b, b ∉ Finset.univ.image (Pipeline.arrRef spec4) → atRef (W14 m) c b = atRef (W13 m) c b :=
  fun b hb => W14_of_ne m c b fun w e => hb (Finset.mem_image.mpr ⟨w, Finset.mem_univ _, e⟩)

theorem W7_of (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 m c (Proc.devRef .tc r) = m ((c : Thread nD τ).loc r) :=
  calc W7 m c (Proc.devRef .tc r)
    _ = W6 m c (Proc.devRef .tc r) := StableHlo.after_of_writes_sub hostOps0_6 _ hostOps0_6_writes h6
    _ = W5 m c (Proc.devRef .tc r) := StableHlo.after_of_writes_sub hostOps0_5 _ hostOps0_5_writes h5
    _ = W4 m c (Proc.devRef .tc r) := StableHlo.after_of_writes_sub hostOps0_4 _ hostOps0_4_writes h4
    _ = W3 m c (Proc.devRef .tc r) := StableHlo.after_of_writes_sub hostOps0_3 _ hostOps0_3_writes h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W15_of (c : Dev nD) (r : Ref sig .tc) (h1 : r ∉ hostOps1_W) (h2 : r ∉ hostOps2_W) (h5 : r ∉ hostOps5_W)
    (a1 : ∀ w, Pipeline.arrRef spec1 w ≠ r) (a2 : ∀ w, Pipeline.arrRef spec2 w ≠ r) (a3 : ∀ w, Pipeline.arrRef spec3 w ≠ r)
    (a4 : ∀ w, Pipeline.arrRef spec4 w ≠ r) :
    W15 m c (Proc.devRef .tc r) = W8 m c (Proc.devRef .tc r) :=
  calc W15 m c (Proc.devRef .tc r)
    _ = W14 m c (Proc.devRef .tc r) := StableHlo.after_of_writes_sub hostOps5 _ hostOps5_writes h5
    _ = W13 m c (Proc.devRef .tc r) := W14_of_ne m c r a4
    _ = W12 m c (Proc.devRef .tc r) := W13_of_ne m c r a3
    _ = W11 m c (Proc.devRef .tc r) := W12_of_ne m c r a2
    _ = W10 m c (Proc.devRef .tc r) := StableHlo.after_of_writes_sub hostOps2 _ hostOps2_writes h2
    _ = W9 m c (Proc.devRef .tc r) := W10_of_ne m c r a1
    _ = W8 m c (Proc.devRef .tc r) := StableHlo.after_of_writes_sub hostOps1 _ hostOps1_writes h1

theorem W8_in (c : Dev nD) (w : Fin cfg0.W) (hin : (cfg0.win w).isOut = false) :
    W8 m c (Proc.devRef .tc (Pipeline.arrRef spec0 w)) = W7 m c (Proc.devRef .tc (Pipeline.arrRef spec0 w)) :=
  (W8_arr m c w).trans (((dat0 (atRef (W7 m)) c).arrAt_in w hin _).trans (A_eq0 (atRef (W7 m)) c w))

theorem W15_main_arg0 (c : Dev nD) : W15 m c (Proc.devRef .tc main_arg0) = m ((c : Thread nD τ).loc main_arg0) :=
  calc W15 m c (Proc.devRef .tc main_arg0)
    _ = W8 m c (Proc.devRef .tc main_arg0) :=
      W15_of m c main_arg0 (by decide) (by decide) (by decide) (by decide) (by decide) (by decide) (by decide)
    _ = W7 m c (Proc.devRef .tc main_arg0) := W8_of_ne m c main_arg0 (by decide)
    _ = m ((c : Thread nD τ).loc main_arg0) :=
      W7_of m c main_arg0 (by decide) (by decide) (by decide) (by decide) (by decide) (by decide) (by decide)

theorem W15_main_arg1 (c : Dev nD) : W15 m c (Proc.devRef .tc main_arg1) = m ((c : Thread nD τ).loc main_arg1) :=
  calc W15 m c (Proc.devRef .tc main_arg1)
    _ = W8 m c (Proc.devRef .tc main_arg1) :=
      W15_of m c main_arg1 (by decide) (by decide) (by decide) (by decide) (by decide) (by decide) (by decide)
    _ = W7 m c (Proc.devRef .tc main_arg1) := W8_in m c 1 rfl
    _ = m ((c : Thread nD τ).loc main_arg1) :=
      W7_of m c main_arg1 (by decide) (by decide) (by decide) (by decide) (by decide) (by decide) (by decide)

theorem W15_main_arg2 (c : Dev nD) : W15 m c (Proc.devRef .tc main_arg2) = m ((c : Thread nD τ).loc main_arg2) :=
  calc W15 m c (Proc.devRef .tc main_arg2)
    _ = W8 m c (Proc.devRef .tc main_arg2) :=
      W15_of m c main_arg2 (by decide) (by decide) (by decide) (by decide) (by decide) (by decide) (by decide)
    _ = W7 m c (Proc.devRef .tc main_arg2) := W8_in m c 2 rfl
    _ = m ((c : Thread nD τ).loc main_arg2) :=
      W7_of m c main_arg2 (by decide) (by decide) (by decide) (by decide) (by decide) (by decide) (by decide)

theorem W15_main_arg3 (c : Dev nD) : W15 m c (Proc.devRef .tc main_arg3) = m ((c : Thread nD τ).loc main_arg3) :=
  calc W15 m c (Proc.devRef .tc main_arg3)
    _ = W8 m c (Proc.devRef .tc main_arg3) :=
      W15_of m c main_arg3 (by decide) (by decide) (by decide) (by decide) (by decide) (by decide) (by decide)
    _ = W7 m c (Proc.devRef .tc main_arg3) := W8_of_ne m c main_arg3 (by decide)
    _ = m ((c : Thread nD τ).loc main_arg3) :=
      W7_of m c main_arg3 (by decide) (by decide) (by decide) (by decide) (by decide) (by decide) (by decide)

theorem W15_main_arg4 (c : Dev nD) : W15 m c (Proc.devRef .tc main_arg4) = m ((c : Thread nD τ).loc main_arg4) :=
  calc W15 m c (Proc.devRef .tc main_arg4)
    _ = W8 m c (Proc.devRef .tc main_arg4) :=
      W15_of m c main_arg4 (by decide) (by decide) (by decide) (by decide) (by decide) (by decide) (by decide)
    _ = W7 m c (Proc.devRef .tc main_arg4) := W8_of_ne m c main_arg4 (by decide)
    _ = m ((c : Thread nD τ).loc main_arg4) :=
      W7_of m c main_arg4 (by decide) (by decide) (by decide) (by decide) (by decide) (by decide) (by decide)

theorem W15_main_arg5 (c : Dev nD) : W15 m c (Proc.devRef .tc main_arg5) = m ((c : Thread nD τ).loc main_arg5) :=
  calc W15 m c (Proc.devRef .tc main_arg5)
    _ = W8 m c (Proc.devRef .tc main_arg5) :=
      W15_of m c main_arg5 (by decide) (by decide) (by decide) (by decide) (by decide) (by decide) (by decide)
    _ = W7 m c (Proc.devRef .tc main_arg5) := W8_of_ne m c main_arg5 (by decide)
    _ = m ((c : Thread nD τ).loc main_arg5) :=
      W7_of m c main_arg5 (by decide) (by decide) (by decide) (by decide) (by decide) (by decide) (by decide)

abbrev adm : (p : Fin 5) → (pcfgs (F := F) p).Adm := Gen.adm

def pdats : (p : Fin 5) → (c : Dev nD) → Dat τ (Elt F) Unit ℕ (Pipeline.UD sig nD τ) ℕ (Pipeline.pin (pcfgs (F := F)) adm p) c
  | ⟨0, _⟩ => fun c => dat0 (atRef (W7 m)) c
  | ⟨1, _⟩ => fun c => dat1 (atRef (W9 m)) c
  | ⟨2, _⟩ => fun c => dat2 (atRef (W11 m)) c
  | ⟨3, _⟩ => fun c => dat3 (atRef (W12 m)) c
  | ⟨4, _⟩ => fun c => dat4 (atRef (W13 m)) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem owesAt_of_nothing {cfg : Pipeline.Cfg sig Λ₀} {c : Dev nD} (dat : Dat τ (Elt F) Unit ℕ (Pipeline.UD sig nD τ) ℕ cfg c)
    (t : Fin (cfg.N + 1)) (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem nothing_of_owesAt {cfg : Pipeline.Cfg sig Λ₀} {c : Dev nD} (dat : Dat τ (Elt F) Unit ℕ (Pipeline.UD sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRef (W7 m)) c).loose
  hwaits := Pipeline.hwaits_of_owed_zero _ _ _ _ L lv 0 fun c t => owed0 (atRef (W7 m)) c t
  pre := T (W7 m)
  post := T (W8 m)
  X c := iprop(∃ r, prngReg c r)
  Y c := iprop(∃ r, prngReg c r)
  Z c := Pipeline.unscopedRest (Ix := Unit) (Name := ℕ) (U := Pipeline.UD sig nD τ) (Lvl := ℕ) spec0 c (atRef (W7 m) c)
  hentry c := by
    rw [Pipeline.ownSems0_none]
    have hsplit := Pipeline.arrays_of_unscopedBufs (p := 0) (pcfgs (F := F)) adm (pdats m) launch0.win launch0.arr_whole c
      ((pdats m 0 c).share_full fun w => share0 (atRef (W7 m)) c w) (atRef (W7 m) c) fun w => A_eq0 (atRef (W7 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 0 c) 0 (owed0 (atRef (W7 m)) c 0) (recorded0 (atRef (W7 m)) c 0)); iexact HO
    isplitl [Hp]; · iexact Hp
    iexact Hrest
  hin c := by
    refine BIBase.Entails.trans ?_ (hin0 (atRef (W7 m)) c)
    unfold Pipeline.ΦA
    iintro ⟨Hp, -, Hr⟩
    isplitl [Hr]; · iexact Hr
    iexact Hp
  hout c := by
    rw [Pipeline.ownSems0_none]
    refine BIBase.Entails.trans (hout0 (atRef (W7 m)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun w => share0 (atRef (W7 m)) c w)
      (atRef (W7 m) c) (atRef (W8 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 0 c) _ (owed0 (atRef (W7 m)) c _)); iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRef (W9 m)) c).loose
  hwaits := Pipeline.hwaits_of_owed_zero _ _ _ _ L lv 1 fun c t => owed1 (atRef (W9 m)) c t
  pre := T (W9 m)
  post := T (W10 m)
  X c := iprop(∃ r, prngReg c r)
  Y c := iprop(∃ r, prngReg c r)
  Z c := Pipeline.unscopedRest (Ix := Unit) (Name := ℕ) (U := Pipeline.UD sig nD τ) (Lvl := ℕ) spec1 c (atRef (W9 m) c)
  hentry c := by
    rw [Pipeline.ownSems0_none]
    have hsplit := Pipeline.arrays_of_unscopedBufs (p := 1) (pcfgs (F := F)) adm (pdats m) launch1.win launch1.arr_whole c
      ((pdats m 1 c).share_full fun w => share1 (atRef (W9 m)) c w) (atRef (W9 m) c) fun w => A_eq1 (atRef (W9 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 1 c) 0 (owed1 (atRef (W9 m)) c 0) (recorded1 (atRef (W9 m)) c 0)); iexact HO
    isplitl [Hp]; · iexact Hp
    iexact Hrest
  hin c := by
    refine BIBase.Entails.trans ?_ (hin1 (atRef (W9 m)) c)
    unfold Pipeline.ΦA
    iintro ⟨Hp, -, Hr⟩
    isplitl [Hr]; · iexact Hr
    iexact Hp
  hout c := by
    rw [Pipeline.ownSems0_none]
    refine BIBase.Entails.trans (hout1 (atRef (W9 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun w => share1 (atRef (W9 m)) c w)
      (atRef (W9 m) c) (atRef (W10 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 1 c) _ (owed1 (atRef (W9 m)) c _)); iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRef (W11 m)) c).loose
  hwaits := Pipeline.hwaits_of_owed_zero _ _ _ _ L lv 2 fun c t => owed2 (atRef (W11 m)) c t
  pre := T (W11 m)
  post := T (W12 m)
  X c := iprop(∃ r, prngReg c r)
  Y c := iprop(∃ r, prngReg c r)
  Z c := Pipeline.unscopedRest (Ix := Unit) (Name := ℕ) (U := Pipeline.UD sig nD τ) (Lvl := ℕ) spec2 c (atRef (W11 m) c)
  hentry c := by
    rw [Pipeline.ownSems0_none]
    have hsplit := Pipeline.arrays_of_unscopedBufs (p := 2) (pcfgs (F := F)) adm (pdats m) launch2.win launch2.arr_whole c
      ((pdats m 2 c).share_full fun w => share2 (atRef (W11 m)) c w) (atRef (W11 m) c) fun w => A_eq2 (atRef (W11 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 2 c) 0 (owed2 (atRef (W11 m)) c 0) (recorded2 (atRef (W11 m)) c 0)); iexact HO
    isplitl [Hp]; · iexact Hp
    iexact Hrest
  hin c := by
    refine BIBase.Entails.trans ?_ (hin2 (atRef (W11 m)) c)
    unfold Pipeline.ΦA
    iintro ⟨Hp, -, Hr⟩
    isplitl [Hr]; · iexact Hr
    iexact Hp
  hout c := by
    rw [Pipeline.ownSems0_none]
    refine BIBase.Entails.trans (hout2 (atRef (W11 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun w => share2 (atRef (W11 m)) c w)
      (atRef (W11 m) c) (atRef (W12 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 2 c) _ (owed2 (atRef (W11 m)) c _)); iexact HO

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRef (W12 m)) c).loose
  hwaits := Pipeline.hwaits_of_owed_zero _ _ _ _ L lv 3 fun c t => owed3 (atRef (W12 m)) c t
  pre := T (W12 m)
  post := T (W13 m)
  X c := iprop(∃ r, prngReg c r)
  Y c := iprop(∃ r, prngReg c r)
  Z c := Pipeline.unscopedRest (Ix := Unit) (Name := ℕ) (U := Pipeline.UD sig nD τ) (Lvl := ℕ) spec3 c (atRef (W12 m) c)
  hentry c := by
    rw [Pipeline.ownSems0_none]
    have hsplit := Pipeline.arrays_of_unscopedBufs (p := 3) (pcfgs (F := F)) adm (pdats m) launch3.win launch3.arr_whole c
      ((pdats m 3 c).share_full fun w => share3 (atRef (W12 m)) c w) (atRef (W12 m) c) fun w => A_eq3 (atRef (W12 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 3 c) 0 (owed3 (atRef (W12 m)) c 0) (recorded3 (atRef (W12 m)) c 0)); iexact HO
    isplitl [Hp]; · iexact Hp
    iexact Hrest
  hin c := by
    refine BIBase.Entails.trans ?_ (hin3 (atRef (W12 m)) c)
    unfold Pipeline.ΦA
    iintro ⟨Hp, -, Hr⟩
    isplitl [Hr]; · iexact Hr
    iexact Hp
  hout c := by
    rw [Pipeline.ownSems0_none]
    refine BIBase.Entails.trans (hout3 (atRef (W12 m)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun w => share3 (atRef (W12 m)) c w)
      (atRef (W12 m) c) (atRef (W13 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 3 c) _ (owed3 (atRef (W12 m)) c _)); iexact HO

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atRef (W13 m)) c).loose
  hwaits := Pipeline.hwaits_of_owed_zero _ _ _ _ L lv 4 fun c t => owed4 (atRef (W13 m)) c t
  pre := T (W13 m)
  post := T (W14 m)
  X c := iprop(∃ r, prngReg c r)
  Y c := iprop(∃ r, prngReg c r)
  Z c := Pipeline.unscopedRest (Ix := Unit) (Name := ℕ) (U := Pipeline.UD sig nD τ) (Lvl := ℕ) spec4 c (atRef (W13 m) c)
  hentry c := by
    rw [Pipeline.ownSems0_none]
    have hsplit := Pipeline.arrays_of_unscopedBufs (p := 4) (pcfgs (F := F)) adm (pdats m) launch4.win launch4.arr_whole c
      ((pdats m 4 c).share_full fun w => share4 (atRef (W13 m)) c w) (atRef (W13 m) c) fun w => A_eq4 (atRef (W13 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 4 c) 0 (owed4 (atRef (W13 m)) c 0) (recorded4 (atRef (W13 m)) c 0)); iexact HO
    isplitl [Hp]; · iexact Hp
    iexact Hrest
  hin c := by
    refine BIBase.Entails.trans ?_ (hin4 (atRef (W13 m)) c)
    unfold Pipeline.ΦA
    iintro ⟨Hp, -, Hr⟩
    isplitl [Hr]; · iexact Hr
    iexact Hp
  hout c := by
    rw [Pipeline.ownSems0_none]
    refine BIBase.Entails.trans (hout4 (atRef (W13 m)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun w => share4 (atRef (W13 m)) c w)
      (atRef (W13 m) c) (atRef (W14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 4 c) _ (owed4 (atRef (W13 m)) c _)); iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .region (reg1 m),
    .host (hseg hostOps2 hostOps2_sub hostOps2_fresh (W10 m)),
    .region (reg2 m),
    .region (reg3 m),
    .region (reg4 m),
    .host (hseg hostOps5 hostOps5_sub hostOps5_fresh (W14 m)) ]

theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W15 m c) ∗ ∃ r, prngReg c r)

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W15 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        show T (W15 m) c ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h => h)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c)⟩) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic

def node (t : Fin 208) (jj : Fin 512) : Fin 106496 := ⟨t.val * 512 + jj.val, by have := t.isLt; have := jj.isLt; omega⟩
def edge (t : Fin 208) (ee : Fin 8192) : Fin 1703936 := ⟨t.val * 8192 + ee.val, by have := t.isLt; have := ee.isLt; omega⟩
def col (h : Fin 4) (f : Fin 16) : Fin 64 := ⟨h.val * 16 + f.val, by have := h.isLt; have := f.isLt; omega⟩

def oh (a : BitVec 32) (j : ℕ) : EReal := if a = BitVec.ofNat 32 j then 1 else 0

def lin (hpad : Fin 106496 → Fin 64 → EReal) (w : Fin 64 → Fin 64 → EReal) (b : Fin 64 → EReal)
    (n : Fin 106496) (c : Fin 64) : EReal :=
  (∑ k : Fin 64, hpad n k * w k c) + b c

def gath {C : ℕ} (idx : Fin 1703936 → BitVec 32) (tbl : Fin 106496 → Fin C → EReal)
    (e : Fin 1703936) (c : Fin C) : EReal :=
  ∑ t : Fin 208, ∑ jj : Fin 512, oh (idx e) (node t jj).val * tbl (node t jj) c

def scat {C : ℕ} (idx : Fin 1703936 → BitVec 32) (upd : Fin 1703936 → Fin C → EReal)
    (n : Fin 106496) (c : Fin C) : EReal :=
  ∑ t : Fin 208, ∑ ee : Fin 8192, oh (idx (edge t ee)) n.val * upd (edge t ee) c

def logit (sf : Fin 1703936 → Fin 64 → EReal) (asrc atrg : Fin 4 → Fin 16 → EReal)
    (e : Fin 1703936) (h : Fin 4) : EReal :=
  (∑ f : Fin 16, sf e (col h f) * asrc h f) + (∑ f : Fin 16, sf e (col h f) * atrg h f)

def leaky (x : EReal) : EReal :=
  Scalar.select (FloatOps.cmpf (F := Ideal) (φ := .f32) .oge x (Ideal.ofBits .f32 0x00000000#32)) x
    (Ideal.ofBits .f32 0x3E4CCCCD#32 * x)

def score (sf : Fin 1703936 → Fin 64 → EReal) (asrc atrg : Fin 4 → Fin 16 → EReal)
    (e : Fin 1703936) (h : Fin 4) : EReal :=
  leaky (logit sf asrc atrg e h)

def expo (sc : Fin 1703936 → Fin 4 → EReal) (g : EReal) (e : Fin 1703936) (h : Fin 4) : EReal :=
  Ideal.exp (sc e h - g)

def alpha (sc : Fin 1703936 → Fin 4 → EReal) (g : EReal) (den : Fin 1703936 → Fin 4 → EReal)
    (e : Fin 1703936) (h : Fin 4) : EReal :=
  Ideal.div (expo sc g e h) (den e h + Ideal.ofBits .f32 0x2EDBE6FF#32)

def wfeat (sf : Fin 1703936 → Fin 64 → EReal) (al : Fin 1703936 → Fin 4 → EReal)
    (e : Fin 1703936) (h : Fin 4) (f : Fin 16) : EReal :=
  sf e (col h f) * al e h

def gmax (x : (⟨2, ![1700000, 4]⟩ : Shape).Idx → EReal) : EReal :=
  Host.reduce (s := ⟨2, ![1700000, 4]⟩) (t := ⟨0, ![]⟩) (u := ⟨0, ![]⟩) (axes := [0, 1])
    (FloatOps.maximumf (F := Ideal) (φ := .f32)) x (fun _ => Ideal.ofBits .f32 0xFF800000#32) (by decide) (by decide)
    ValueIdx.ix0

structure Args where
  h : Fin 100000 → Fin 64 → EReal
  w : Fin 64 → Fin 64 → EReal
  b : Fin 64 → EReal
  asrc : Fin 4 → Fin 16 → EReal
  atrg : Fin 4 → Fin 16 → EReal
  ei : Fin 2 → Fin 1600000 → BitVec 32

def eidx (a : Args) (r : Fin 2) (e : Fin 1703936) : BitVec 32 :=
  if h1 : e.val < 1600000 then a.ei r ⟨e.val, h1⟩
  else if e.val < 1700000 then BitVec.ofNat 32 (e.val - 1600000)
  else 100000#32

def hpad (a : Args) (n : Fin 106496) (k : Fin 64) : EReal :=
  if hn : n.val < 100000 then a.h ⟨n.val, hn⟩ k else 0

def real (e : Fin 1700000) : Fin 1703936 := ⟨e.val, by have := e.isLt; omega⟩
def rnode (n : Fin 100000) : Fin 106496 := ⟨n.val, by have := n.isLt; omega⟩

namespace Kernel
def hp (a : Args) : Fin 106496 → Fin 64 → EReal := lin (hpad a) a.w a.b
def sf (a : Args) : Fin 1703936 → Fin 64 → EReal := gath (eidx a 0) (hp a)
def sc (a : Args) : Fin 1703936 → Fin 4 → EReal := score (sf a) a.asrc a.atrg
def g (a : Args) : EReal := gmax fun i => sc a (real ⟨(i 0).val, (i 0).isLt⟩) ⟨(i 1).val, (i 1).isLt⟩
def tn (a : Args) : Fin 106496 → Fin 4 → EReal := scat (eidx a 1) (expo (sc a) (g a))
def al (a : Args) : Fin 1703936 → Fin 4 → EReal := alpha (sc a) (g a) (gath (eidx a 1) (tn a))
def op (a : Args) : Fin 106496 → Fin 64 → EReal :=
  scat (eidx a 1) fun e c => wfeat (sf a) (al a) e ⟨c.val / 16, by have := c.isLt; omega⟩ ⟨c.val % 16, Nat.mod_lt _ (by decide)⟩
def out (a : Args) (h : Fin 4) (n : Fin 100000) (f : Fin 16) : EReal := op a (rnode n) (col h f)
end Kernel

namespace Ref
def nodeOf (x : BitVec 32) : Fin 100000 :=
  let y : BitVec 32 := if x.toInt < 0 then x + 100000#32 else x
  ⟨(max 0 (min y.toInt 99999)).toNat, by omega⟩
def eidx (a : Args) (r : Fin 2) (e : Fin 1700000) : BitVec 32 :=
  if h1 : e.val < 1600000 then a.ei r ⟨e.val, h1⟩ else BitVec.ofNat 32 (e.val - 1600000)
def hp (a : Args) (n : Fin 100000) (c : Fin 64) : EReal := (∑ k : Fin 64, a.h n k * a.w k c) + a.b c
def sf (a : Args) (e : Fin 1700000) (c : Fin 64) : EReal := hp a (nodeOf (eidx a 0 e)) c
def sc (a : Args) (e : Fin 1700000) (h : Fin 4) : EReal :=
  leaky ((∑ f : Fin 16, sf a e (col h f) * a.asrc h f) + (∑ f : Fin 16, sf a e (col h f) * a.atrg h f))
def g (a : Args) : EReal := gmax fun i => sc a ⟨(i 0).val, (i 0).isLt⟩ ⟨(i 1).val, (i 1).isLt⟩
def ex (a : Args) (e : Fin 1700000) (h : Fin 4) : EReal := Ideal.exp (sc a e h - g a)
def into (a : Args) (n : Fin 100000) : Finset (Fin 1700000) :=
  Finset.univ.filter fun e =>
    let x := eidx a 1 e
    let y : BitVec 32 := if x.toInt < 0 then x + 100000#32 else x
    y.toInt = (n.val : ℤ)
def tn (a : Args) (n : Fin 100000) (h : Fin 4) : EReal := ∑ e ∈ into a n, ex a e h
def al (a : Args) (e : Fin 1700000) (h : Fin 4) : EReal :=
  Ideal.div (ex a e h) (tn a (nodeOf (eidx a 1 e)) h + Ideal.ofBits .f32 0x2EDBE6FF#32)
def out (a : Args) (h : Fin 4) (n : Fin 100000) (f : Fin 16) : EReal :=
  ∑ e ∈ into a n, sf a e (col h f) * al a e h
end Ref

def InRange (a : Args) : Prop := ∀ r e, 0 ≤ (a.ei r e).toInt ∧ (a.ei r e).toInt < 100000

end Cert.Spec

end
-- ==== Proof.KI.Val0.lean ====
import proofs.«417626_j75007308858099_3_alg».proof.Proof.KI.Reg0
import proofs.«417626_j75007308858099_3_alg».proof.Proof.KIPoints
import proofs.«417626_j75007308858099_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.GenP Idealize.ShloMosaic.ValueIdx
open Idealize.ShloMosaic Idealize.ShloMosaic.TcCoe
open Idealize.ShloMosaic.Pipeline (Dat)

theorem lhs_lin_0 (i : S8192x64.Idx) (r : dot_S8192x64_S64x64_S8192x64_1_0_0_1_n_n.contr.Idx) :
    (dot_S8192x64_S64x64_S8192x64_1_0_0_1_n_n.lhsIdx i r 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl

theorem lhs_lin_1 (i : S8192x64.Idx) (r : dot_S8192x64_S64x64_S8192x64_1_0_0_1_n_n.contr.Idx) :
    (dot_S8192x64_S64x64_S8192x64_1_0_0_1_n_n.lhsIdx i r 1).val = (r ⟨0, by decide⟩).val :=
  dot_S8192x64_S64x64_S8192x64_1_0_0_1_n_n.lhsIdx_val_of_single rfl i r

theorem rhs_lin_0 (i : S8192x64.Idx) (r : dot_S8192x64_S64x64_S8192x64_1_0_0_1_n_n.contr.Idx) :
    (dot_S8192x64_S64x64_S8192x64_1_0_0_1_n_n.rhsIdx i r 0).val = (r ⟨0, by decide⟩).val :=
  dot_S8192x64_S64x64_S8192x64_1_0_0_1_n_n.rhsIdx_val_of_single rfl i r

theorem rhs_lin_1 (i : S8192x64.Idx) (r : dot_S8192x64_S64x64_S8192x64_1_0_0_1_n_n.contr.Idx) :
    (dot_S8192x64_S64x64_S8192x64_1_0_0_1_n_n.rhsIdx i r 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

theorem linProduct_apply (x : FVec Ideal S8192x64 .bf16) (w : FVec Ideal S64x64 .bf16) (p : Fin 8192) (q : Fin 64) :
    matmul dot_S8192x64_S64x64_S8192x64_1_0_0_1_n_n none x w (constant (F := Ideal) S8192x64 .f32 0x00000000#32) (ix2 p q)
      = ∑ k : Fin 64, x (ix2 p k) * w (ix2 k q) := by
  refine (Ideal.matmul_constant_zero_apply dot_S8192x64_S64x64_S8192x64_1_0_0_1_n_n none x w (ix2 p q)).trans ?_
  rw [← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 p q)
      ((contrEquiv1 dot_S8192x64_S64x64_S8192x64_1_0_0_1_n_n 64 rfl rfl).symm k) = ix2 p k := funext fun a => Fin.ext (by
    match a with
    | ⟨0, _⟩ => exact lhs_lin_0 _ _
    | ⟨1, _⟩ => exact (lhs_lin_1 _ _).trans hk)
  have er : dot_S8192x64_S64x64_S8192x64_1_0_0_1_n_n.rhsIdx (ix2 p q)
      ((contrEquiv1 dot_S8192x64_S64x64_S8192x64_1_0_0_1_n_n 64 rfl rfl).symm k) = ix2 k q := funext fun a => Fin.ext (by
    match a with
    | ⟨0, _⟩ => exact (rhs_lin_0 _ _).trans hk
    | ⟨1, _⟩ => exact rhs_lin_1 _ _)
  rw [el, er]

theorem linBias_apply (b : Vec Ideal S64 .f32) (p : Fin 8192) (q : Fin 64) :
    broadcastTo S8192x64 (shapeCast S1x64 b shapeCasts_S64_S1x64) broadcasts_S1x64_S8192x64 (ix2 p q) = b (ix1 q) :=
  (broadcastTo_1b_ab_apply _ broadcasts_S1x64_S8192x64 p q).trans (shapeCast_a_1a_apply b shapeCasts_S64_S1x64 0 q)

theorem linBlock_apply (x : Vec Ideal S8192x64 .f32) (w : Vec Ideal S64x64 .f32) (b : Vec Ideal S64 .f32)
    (p : Fin 8192) (q : Fin 64) :
    Gen.k0_pay1 x w b (ix2 p q) = (∑ k : Fin 64, x (ix2 p k) * w (ix2 k q)) + b (ix1 q) := by
  unfold Gen.k0_pay1
  refine (truncf_apply (ψ := .bf16) _ bitsLt_bf16_f32 (ix2 p q)).trans ?_
  refine (addf_apply _ _ _).trans ?_
  refine congrArg₂ (· + ·) ?_ (linBias_apply b p q)
  refine (linProduct_apply _ _ p q).trans ?_
  refine Finset.sum_congr rfl fun k _ => ?_
  rw [shapeCast_self]
  rfl

variable (V : (c : Dev nD) → (b : Ref sig .tc) → Buf (Elt Ideal) ((c : Thread nD τ).loc b))

def linTable (c : Dev nD) : S106496x64.Idx → EReal := fun i =>
  Cert.Spec.lin (fun n k => (V c main_v11 : S106496x64.Idx → EReal) (ix2 n k))
    (fun k q => (V c main_arg1 : S64x64.Idx → EReal) (ix2 k q))
    (fun q => (V c main_arg2 : S64.Idx → EReal) (ix1 q)) ⟨(i 0).val, idx2_lt0 i⟩ ⟨(i 1).val, idx2_lt1 i⟩

theorem lin_point_lt (t : Fin cfg0.N) : t.val < 13 := lt_of_lt_of_eq t.isLt Gen.N_0

def linRow (t : Fin cfg0.N) (p : Fin 8192) : Fin 106496 :=
  ⟨t.val * 8192 + p.val, by have := lin_point_lt t; have := p.isLt; omega⟩

theorem blockAt0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem linFeatBlock_apply (c : Dev nD) (t : Fin cfg0.N) (p : Fin 8192) (k : Fin 64) :
    iblk0 V c 0 t (ix2 p k) = (V c main_v11 : S106496x64.Idx → EReal) (ix2 (linRow t p) k) := by
  show (V c main_v11 : S106496x64.Idx → EReal) (((cfg0.win 0).blk t).view.emb (ix2 p k)) = _
  refine congrArg _ (funext fun a => Fin.ext ?_)
  obtain ⟨e0, e1, -⟩ := blockAt0 t
  match a with
  | ⟨0, _⟩ => show win0_0.index t (0 : Fin 2) * 8192 + 1 * p.val = t.val * 8192 + p.val; omega
  | ⟨1, _⟩ => show win0_0.index t (1 : Fin 2) * 64 + 1 * k.val = k.val; omega

theorem linWeightBlock_apply (c : Dev nD) (t : Fin cfg0.N) (k q : Fin 64) :
    iblk0 V c 1 t (ix2 k q) = (V c main_arg1 : S64x64.Idx → EReal) (ix2 k q) := by
  show (V c main_arg1 : S64x64.Idx → EReal) (((cfg0.win 1).blk t).view.emb (ix2 k q)) = _
  refine congrArg _ (funext fun a => Fin.ext ?_)
  obtain ⟨-, -, e0, e1, -⟩ := blockAt0 t
  match a with
  | ⟨0, _⟩ => show win0_1.index t (0 : Fin 2) * 64 + 1 * k.val = k.val; omega
  | ⟨1, _⟩ => show win0_1.index t (1 : Fin 2) * 64 + 1 * q.val = q.val; omega

theorem linBiasBlock_apply (c : Dev nD) (t : Fin cfg0.N) (q : Fin 64) :
    iblk0 V c 2 t (ix1 q) = (V c main_arg2 : S64.Idx → EReal) (ix1 q) := by
  show (V c main_arg2 : S64.Idx → EReal) (((cfg0.win 2).blk t).view.emb (ix1 q)) = _
  refine congrArg _ (funext fun a => Fin.ext ?_)
  obtain ⟨-, -, -, -, e0, -⟩ := blockAt0 t
  match a with
  | ⟨0, _⟩ => show win0_2.index t (0 : Fin 1) * 64 + 1 * q.val = q.val; omega

theorem linOutBlock_emb (t : Fin cfg0.N) (p : Fin 8192) (q : Fin 64) :
    (((cfg0.win 3).blk t).view.emb (ix2 p q) : S106496x64.Idx) = ix2 (linRow t p) q := by
  refine funext fun a => Fin.ext ?_
  obtain ⟨-, -, -, -, -, e0, e1⟩ := blockAt0 t
  match a with
  | ⟨0, _⟩ => show win0_3.index t (0 : Fin 2) * 8192 + 1 * p.val = t.val * 8192 + p.val; omega
  | ⟨1, _⟩ => show win0_3.index t (1 : Fin 2) * 64 + 1 * q.val = q.val; omega

theorem flushed0_3 (c : Dev nD) (t : Fin cfg0.N) :
    (dat0 (F := Ideal) V c).flushed 3 t = ((cfg0.win 3).blk t).view.read (Elt Ideal) (linTable V c) := by
  show (cfg0.win 3).cut (grid0.coords t) ((dat0 (F := Ideal) V c).after 3 t) = _
  rw [after0_3]
  funext j
  obtain ⟨p, q, rfl⟩ : ∃ (p : Fin 8192) (q : Fin 64), j = ix2 p q := ⟨j 0, j 1, eq_ix2 j⟩
  show Gen.k0_pay1 (iblk0 V c 0 t) (iblk0 V c 1 t) (iblk0 V c 2 t) (ix2 p q)
    = linTable V c (((cfg0.win 3).blk t).view.emb (ix2 p q))
  rw [linOutBlock_emb t p q]
  refine (linBlock_apply (iblk0 V c 0 t) (iblk0 V c 1 t) (iblk0 V c 2 t) p q).trans ?_
  exact congrArg₂ (· + ·)
    (Finset.sum_congr rfl fun k _ => congrArg₂ (· * ·) (linFeatBlock_apply V c t p k) (linWeightBlock_apply V c t k q))
    (linBiasBlock_apply V c t q)

theorem mem_linOutBlock (t : Fin cfg0.N) (i : S106496x64.Idx) :
    i ∈ ((cfg0.win 3).blk t).view.set ↔ ∀ a : Fin 2, win0_3.index t a * S8192x64.size a ≤ (i a).val
      ∧ (i a).val < win0_3.index t a * S8192x64.size a + S8192x64.size a := by
  show i ∈ ((View.whole main_v14).slice (win0_3.rect t)).set ↔ _
  rw [View.set_slice_whole, Rect.mem_set_unit]
  exact Iff.rfl

theorem linOutBlocks_cover (i : S106496x64.Idx) :
    ∃ t : Fin cfg0.N, (cfg0.win 3).flush t = true ∧ i ∈ ((cfg0.win 3).blk t).view.set := by
  have hi0 : (i 0).val < 106496 := (i 0).isLt
  have hi1 : (i 1).val < 64 := (i 1).isLt
  have hN : cfg0.N = 13 := Gen.N_0
  have ht : (i 0).val / 8192 < cfg0.N := by rw [hN]; omega
  refine ⟨⟨(i 0).val / 8192, ht⟩, flush0_3 _, ?_⟩
  rw [mem_linOutBlock]
  obtain ⟨-, -, -, -, -, e0, e1⟩ := blockAt0 ⟨(i 0).val / 8192, ht⟩
  intro a
  match a with
  | ⟨0, _⟩ =>
    show win0_3.index ⟨(i 0).val / 8192, ht⟩ (0 : Fin 2) * 8192 ≤ (i 0).val
      ∧ (i 0).val < win0_3.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win0_3.index ⟨(i 0).val / 8192, ht⟩ (1 : Fin 2) * 64 ≤ (i 1).val
      ∧ (i 1).val < win0_3.index ⟨(i 0).val / 8192, ht⟩ (1 : Fin 2) * 64 + 64
    omega

theorem final0_3 (c : Dev nD) (n : Fin 106496) (q : Fin 64) :
    (dat0 (F := Ideal) V c).arrAt 3 cfg0.N (ix2 n q)
      = Cert.Spec.lin (fun n k => (V c main_v11 : S106496x64.Idx → EReal) (ix2 n k))
          (fun k q => (V c main_arg1 : S64x64.Idx → EReal) (ix2 k q))
          (fun q => (V c main_arg2 : S64.Idx → EReal) (ix1 q)) n q := by
  have h := (dat0 (F := Ideal) V c).arrAt_eq_of_cover 3 (linTable V c) (fun t _ => flushed0_3 V c t) linOutBlocks_cover
  exact congrFun h (ix2 n q)

end Cert.KernelIdeal.Hand

end
-- ==== Proof.KI.Val1.lean ====
import proofs.«417626_j75007308858099_3_alg».proof.Proof.KI.Reg1
import proofs.«417626_j75007308858099_3_alg».proof.Proof.KIPoints
import proofs.«417626_j75007308858099_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)

namespace Val1

theorem node_word (nb jj : ℕ) :
    IntOp.addi (BitVec.ofNat 32 jj) (Scalar.muli (BitVec.ofNat 32 nb) 512#32) = BitVec.ofNat 32 (nb * 512 + jj) := by
  unfold IntOp.addi Scalar.muli IntOp.muli
  rw [BitVec.ofNat_add, BitVec.ofNat_mul, BitVec.add_comm]

theorem onehot_entry (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · subst h; simp
  · rw [if_neg h]
    have : (a == b) = false := by simpa using h
    simp [this]

theorem dotA_lhs (p : Fin 8192) (q : Fin 64) (jj : Fin 512) :
    dot_S8192x512_S512x64_S8192x64_1_0_0_1_n_n.lhsIdx (ix2 p q)
      ((contrEquiv1 dot_S8192x512_S512x64_S8192x64_1_0_0_1_n_n 512 rfl rfl).symm jj) = ix2 p jj := by
  have c2 := contrEquiv1_symm_val dot_S8192x512_S512x64_S8192x64_1_0_0_1_n_n 512 rfl rfl jj
  funext ax; apply Fin.ext
  match ax with
  | ⟨0, _⟩ => simp [DotDims.lhsIdx, dot_S8192x512_S512x64_S8192x64_1_0_0_1_n_n]; rfl
  | ⟨1, _⟩ => simp [DotDims.lhsIdx, dot_S8192x512_S512x64_S8192x64_1_0_0_1_n_n]; exact c2

theorem dotA_rhs (p : Fin 8192) (q : Fin 64) (jj : Fin 512) :
    dot_S8192x512_S512x64_S8192x64_1_0_0_1_n_n.rhsIdx (ix2 p q)
      ((contrEquiv1 dot_S8192x512_S512x64_S8192x64_1_0_0_1_n_n 512 rfl rfl).symm jj) = ix2 jj q := by
  have c2 := contrEquiv1_symm_val dot_S8192x512_S512x64_S8192x64_1_0_0_1_n_n 512 rfl rfl jj
  funext ax; apply Fin.ext
  match ax with
  | ⟨0, _⟩ => simp [DotDims.rhsIdx, dot_S8192x512_S512x64_S8192x64_1_0_0_1_n_n]; exact c2
  | ⟨1, _⟩ => simp [DotDims.rhsIdx, dot_S8192x512_S512x64_S8192x64_1_0_0_1_n_n]; rfl

theorem tile_matmul_apply (lhs : FVec Ideal S8192x512 .bf16) (rhs : FVec Ideal S512x64 .bf16) (p : Fin 8192) (q : Fin 64) :
    matmul dot_S8192x512_S512x64_S8192x64_1_0_0_1_n_n none lhs rhs (constant (F := Ideal) S8192x64 .f32 0x00000000#32) (ix2 p q)
      = ∑ jj : Fin 512, lhs (ix2 p jj) * rhs (ix2 jj q) := by
  show FloatOps.matmul _ none lhs rhs _ (ix2 p q) = _
  rw [Ideal.matmul_constant_zero_apply,
    ← Equiv.sum_comp (contrEquiv1 dot_S8192x512_S512x64_S8192x64_1_0_0_1_n_n 512 rfl rfl).symm]
  refine Finset.sum_congr rfl fun jj _ => ?_
  rw [dotA_lhs, dotA_rhs]

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem pay1_apply (p : Fin 8192) (q : Fin 64) : (k1_pay1 (F := Ideal)) (ix2 p q) = 0 := by
  unfold k1_pay1
  refine (congrFun (shapeCast_self _ _) (ix2 p q)).trans ?_
  exact Ideal.ofBits_zero_f32

theorem pay2_apply (i : grid1.Coords) (v3 : Vec Ideal S8192x1 .i32) (v15 : Vec Ideal S512x64 .bf16) (v17 : Vec Ideal S8192x64 .f32)
    (p : Fin 8192) (q : Fin 64) :
    k1_pay2 i v3 v15 v17 (ix2 p q)
      = v17 (ix2 p q) + ∑ jj : Fin 512, Cert.Spec.oh (v3 (ix2 p (0 : Fin 1))) ((i 1).val * 512 + jj.val) * v15 (ix2 jj q) := by
  unfold k1_pay2
  refine (congrFun (shapeCast_self _ _) (ix2 p q)).trans ?_
  refine congrArg (v17 (ix2 p q) + ·) ?_
  refine (tile_matmul_apply _ _ p q).trans ?_
  refine Finset.sum_congr rfl fun jj _ => ?_
  refine congrArg₂ (· * ·) ?_ (congrFun (shapeCast_self v15 _) (ix2 jj q))
  refine (onehot_entry _ _).trans ?_
  unfold Cert.Spec.oh
  refine if_congr ?_ rfl rfl
  refine Eq.congr ?_ ?_
  · refine (broadcastTo_a1_ab_apply _ _ p jj).trans ?_
    exact congrFun (shapeCast_self v3 _) (ix2 p (0 : Fin 1))
  · refine (broadcastTo_1b_ab_apply _ _ p jj).trans ?_
    refine Eq.trans ?_ (node_word (i 1).val jj.val)
    refine congrArg₂ IntOp.addi ?_ rfl
    exact iota_single_apply .tc S1x512 32 1 iota_S1x512_d1_w32 (ix2 (0 : Fin 1) jj)

theorem head_half_apply (o : ℕ) (hs : S8192x64.Slices ![0, o] S8192x16) (A : Vec Ideal S8192x64 .f32) (r : FVec Ideal S1x16 .f32)
    (hφ : FKind.Formats .f32) (hacc : (0x00000000#32 : BitVec 32) = 0x00000000#32)
    (h : Fin 4) (ho : o = h.val * 16) (p : Fin 8192) (u : Fin 1) :
    shapeCast S8192x1 (multiReduction (F := Ideal) .add [1] S8192
        (mulf (extractStridedSlice S8192x16 ![0, o] A hs) (broadcastTo S8192x16 r broadcasts_S1x16_S8192x16))
        0x00000000#32 reduces_S8192x16_S8192 hφ hacc) shapeCasts_S8192_S8192x1 (ix2 p u)
      = ∑ f : Fin 16, A (ix2 p (Cert.Spec.col h f)) * r (ix2 (0 : Fin 1) f) := by
  refine (shapeCast_a_a1_apply _ _ p u).trans ?_
  refine (Ideal.multiReduction_add_single _ 0x00000000#32 reduces_S8192x16_S8192 hφ hacc (ix1 p)).trans ?_
  refine Finset.sum_congr rfl fun f _ => ?_
  have e : reduces_S8192x16_S8192.lift (ix1 p) f = ix2 p f := by
    funext ax; apply Fin.ext
    match ax with
    | ⟨0, _⟩ => rfl
    | ⟨1, _⟩ => rfl
  rw [e]
  refine congrArg₂ (· * ·) ?_ ?_
  · exact slice2_axis1_apply o A hs p f (Cert.Spec.col h f) (by show h.val * 16 + f.val = o + f.val; omega)
  · exact broadcastTo_1b_ab_apply r _ p f

theorem leaky_select_apply (X : FVec Ideal S8192x4 .f32) (p : Fin 8192) (h : Fin 4) :
    select (cmpf .oge X (broadcast S8192x4 (Scalar.ofBits (F := Ideal) .f32 0x00000000#32))) X
        (mulf (broadcast S8192x4 (Scalar.ofBits (F := Ideal) .f32 0x3E4CCCCD#32)) X) (ix2 p h)
      = Cert.Spec.leaky (X (ix2 p h)) := rfl

theorem pay5_apply (A : Vec Ideal S8192x64 .f32) (a b : Vec Ideal S1x16 .f32) (p : Fin 8192) (u : Fin 1) :
    k1_pay5 A a b (ix2 p u)
      = (∑ f : Fin 16, A (ix2 p (Cert.Spec.col 0 f)) * a (ix2 (0 : Fin 1) f))
        + ∑ f : Fin 16, A (ix2 p (Cert.Spec.col 0 f)) * b (ix2 (0 : Fin 1) f) := by
  unfold k1_pay5
  refine congrArg₂ (· + ·) ?_ ?_
  · refine (head_half_apply 0 _ A _ _ _ 0 rfl p u).trans ?_
    exact Finset.sum_congr rfl fun f _ => congrArg (A (ix2 p (Cert.Spec.col 0 f)) * ·) (congrFun (shapeCast_self a _) _)
  · refine (head_half_apply 0 _ A _ _ _ 0 rfl p u).trans ?_
    exact Finset.sum_congr rfl fun f _ => congrArg (A (ix2 p (Cert.Spec.col 0 f)) * ·) (congrFun (shapeCast_self b _) _)

theorem pay6_apply (A : Vec Ideal S8192x64 .f32) (a b : Vec Ideal S1x16 .f32) (p : Fin 8192) (u : Fin 1) :
    k1_pay6 A a b (ix2 p u)
      = (∑ f : Fin 16, A (ix2 p (Cert.Spec.col 1 f)) * a (ix2 (0 : Fin 1) f))
        + ∑ f : Fin 16, A (ix2 p (Cert.Spec.col 1 f)) * b (ix2 (0 : Fin 1) f) := by
  unfold k1_pay6
  refine congrArg₂ (· + ·) ?_ ?_
  · refine (head_half_apply 16 _ A _ _ _ 1 rfl p u).trans ?_
    exact Finset.sum_congr rfl fun f _ => congrArg (A (ix2 p (Cert.Spec.col 1 f)) * ·) (congrFun (shapeCast_self a _) _)
  · refine (head_half_apply 16 _ A _ _ _ 1 rfl p u).trans ?_
    exact Finset.sum_congr rfl fun f _ => congrArg (A (ix2 p (Cert.Spec.col 1 f)) * ·) (congrFun (shapeCast_self b _) _)

theorem concat4_apply (x0 x1 x2 x3 : FVec Ideal S8192x1 .f32) (p : Fin 8192) (h : Fin 4) :
    concatenate S8192x4 1 [⟨S8192x1, x0⟩, ⟨S8192x1, x1⟩, ⟨S8192x1, x2⟩, ⟨S8192x1, x3⟩]
        concatenates_S8192x1_S8192x1_S8192x1_S8192x1_S8192x4_d1 (ix2 p h)
      = (match h with | ⟨0, _⟩ => x0 | ⟨1, _⟩ => x1 | ⟨2, _⟩ => x2 | ⟨3, _⟩ => x3) (ix2 p (0 : Fin 1)) := by
  match h with
  | ⟨0, _⟩ =>
    exact concatenate_apply_piece 1 [⟨S8192x1, x0⟩, ⟨S8192x1, x1⟩, ⟨S8192x1, x2⟩, ⟨S8192x1, x3⟩] concatenates_S8192x1_S8192x1_S8192x1_S8192x1_S8192x4_d1 (ix2 p _) 0 (by show 0 < 4; omega) S8192x1 x0 rfl rfl 0 rfl (ix2 p (0 : Fin 1))
      (fun b hb => by match b with | ⟨0, _⟩ => rfl | ⟨1, _⟩ => exact absurd rfl hb) rfl
  | ⟨1, _⟩ =>
    exact concatenate_apply_piece 1 [⟨S8192x1, x0⟩, ⟨S8192x1, x1⟩, ⟨S8192x1, x2⟩, ⟨S8192x1, x3⟩] concatenates_S8192x1_S8192x1_S8192x1_S8192x1_S8192x4_d1 (ix2 p _) 1 (by show 1 < 4; omega) S8192x1 x1 rfl rfl 1 rfl (ix2 p (0 : Fin 1))
      (fun b hb => by match b with | ⟨0, _⟩ => rfl | ⟨1, _⟩ => exact absurd rfl hb) rfl
  | ⟨2, _⟩ =>
    exact concatenate_apply_piece 1 [⟨S8192x1, x0⟩, ⟨S8192x1, x1⟩, ⟨S8192x1, x2⟩, ⟨S8192x1, x3⟩] concatenates_S8192x1_S8192x1_S8192x1_S8192x1_S8192x4_d1 (ix2 p _) 2 (by show 2 < 4; omega) S8192x1 x2 rfl rfl 2 rfl (ix2 p (0 : Fin 1))
      (fun b hb => by match b with | ⟨0, _⟩ => rfl | ⟨1, _⟩ => exact absurd rfl hb) rfl
  | ⟨3, _⟩ =>
    exact concatenate_apply_piece 1 [⟨S8192x1, x0⟩, ⟨S8192x1, x1⟩, ⟨S8192x1, x2⟩, ⟨S8192x1, x3⟩] concatenates_S8192x1_S8192x1_S8192x1_S8192x1_S8192x4_d1 (ix2 p _) 3 (by show 3 < 4; omega) S8192x1 x3 rfl rfl 3 rfl (ix2 p (0 : Fin 1))
      (fun b hb => by match b with | ⟨0, _⟩ => rfl | ⟨1, _⟩ => exact absurd rfl hb) rfl

theorem pay3_apply (A : Vec Ideal S8192x64 .f32) (ar br : Fin 4 → Vec Ideal S1x16 .f32) (p : Fin 8192) (h : Fin 4) :
    k1_pay3 A (k1_pay5 A (ar 0) (br 0)) (k1_pay6 A (ar 1) (br 1)) (k1_pay7 A) (k1_pay8 (br 2)) (k1_pay9 A (ar 2)) (ar 3) (br 3) (ix2 p h)
      = Cert.Spec.leaky ((∑ f : Fin 16, A (ix2 p (Cert.Spec.col h f)) * ar h (ix2 (0 : Fin 1) f))
          + ∑ f : Fin 16, A (ix2 p (Cert.Spec.col h f)) * br h (ix2 (0 : Fin 1) f)) := by
  unfold k1_pay3
  refine (leaky_select_apply _ p h).trans ?_
  refine congrArg Cert.Spec.leaky ?_
  refine (concat4_apply _ _ _ _ p h).trans ?_
  match h with
  | ⟨0, _⟩ => exact pay5_apply A (ar 0) (br 0) p 0
  | ⟨1, _⟩ => exact pay6_apply A (ar 1) (br 1) p 0
  | ⟨2, _⟩ =>
    refine congrArg₂ (· + ·) ?_ ?_
    · refine (head_half_apply 32 slices_S8192x64_o0_32_S8192x16 A _ _ _ 2 rfl p 0).trans ?_
      exact Finset.sum_congr rfl fun f _ => congrArg (A (ix2 p (Cert.Spec.col 2 f)) * ·) (congrFun (shapeCast_self (ar 2) _) _)
    · refine (head_half_apply 32 slices_S8192x64_o0_32_S8192x16 A _ _ _ 2 rfl p 0).trans ?_
      exact Finset.sum_congr rfl fun f _ => congrArg (A (ix2 p (Cert.Spec.col 2 f)) * ·) (congrFun (shapeCast_self (br 2) _) _)
  | ⟨3, _⟩ =>
    refine congrArg₂ (· + ·) ?_ ?_
    · refine (head_half_apply 48 slices_S8192x64_o0_48_S8192x16 A _ _ _ 3 rfl p 0).trans ?_
      exact Finset.sum_congr rfl fun f _ => congrArg (A (ix2 p (Cert.Spec.col 3 f)) * ·) (congrFun (shapeCast_self (ar 3) _) _)
    · refine (head_half_apply 48 slices_S8192x64_o0_48_S8192x16 A _ _ _ 3 rfl p 0).trans ?_
      exact Finset.sum_congr rfl fun f _ => congrArg (A (ix2 p (Cert.Spec.col 3 f)) * ·) (congrFun (shapeCast_self (br 3) _) _)

variable (V : (c : Dev nD) → (b : Ref sig .tc) → Buf (Elt Ideal) ((c : Thread nD τ).loc b))

theorem pt1_lt (t : Fin cfg1.N) : t.val < 43264 := by
  have h := t.isLt
  have hN : cfg1.N = 43264 := N_1
  omega

theorem pt1_inner (t : Fin cfg1.N) : ((grid1.coords t) 1).val = t.val % 208 := by
  show t.val / grid1.stride 1 % 208 = t.val % 208
  have h : grid1.stride 1 = 1 := by decide
  rw [h, Nat.div_one]

theorem pt1_outer (t : Fin cfg1.N) : ((grid1.coords t) 0).val = t.val / 208 := by
  show t.val / grid1.stride 0 % 208 = t.val / 208
  have h : grid1.stride 0 = 208 := by decide
  have := pt1_lt t
  rw [h]; omega

theorem word_toNat (n : ℕ) (h : n < 208) : (BitVec.ofNat 32 n).toNat = n := by
  rw [BitVec.toNat_ofNat]; omega

theorem idx1_0 (t : Fin cfg1.N) : win1_0.index t (0 : Fin 2) = t.val / 208 ∧ win1_0.index t (1 : Fin 2) = 0 := by
  refine ⟨?_, rfl⟩
  show (BitVec.ofNat 32 ((grid1.coords t) 0).val).toNat = t.val / 208
  rw [pt1_outer]; exact word_toNat _ (by have := pt1_lt t; omega)

theorem idx1_1 (t : Fin cfg1.N) : win1_1.index t (0 : Fin 2) = t.val % 208 ∧ win1_1.index t (1 : Fin 2) = 0 := by
  refine ⟨?_, rfl⟩
  show (BitVec.ofNat 32 ((grid1.coords t) 1).val).toNat = t.val % 208
  rw [pt1_inner]; exact word_toNat _ (Nat.mod_lt _ (by decide))

theorem idx1_4 (t : Fin cfg1.N) : win1_4.index t (0 : Fin 2) = t.val / 208 ∧ win1_4.index t (1 : Fin 2) = 0 := by
  refine ⟨?_, rfl⟩
  show (BitVec.ofNat 32 ((grid1.coords t) 0).val).toNat = t.val / 208
  rw [pt1_outer]; exact word_toNat _ (by have := pt1_lt t; omega)
theorem idx1_5 (t : Fin cfg1.N) : win1_5.index t (0 : Fin 2) = t.val / 208 ∧ win1_5.index t (1 : Fin 2) = 0 := by
  refine ⟨?_, rfl⟩
  show (BitVec.ofNat 32 ((grid1.coords t) 0).val).toNat = t.val / 208
  rw [pt1_outer]; exact word_toNat _ (by have := pt1_lt t; omega)

abbrev idxArr (c : Dev nD) : S1703936x1.Idx → BitVec 32 := V c main_v15
abbrev tblArr (c : Dev nD) : S106496x64.Idx → EReal := V c main_v14
abbrev asrcArr (c : Dev nD) : S4x16.Idx → EReal := V c main_v12
abbrev atrgArr (c : Dev nD) : S4x16.Idx → EReal := V c main_v13

abbrev idxBlk (c : Dev nD) (t : Fin cfg1.N) : Vec Ideal S8192x1 .i32 := iblk1 V c 0 t
abbrev tblBlk (c : Dev nD) (t : Fin cfg1.N) : Vec Ideal S512x64 .bf16 := iblk1 V c 1 t
abbrev asrcBlk (c : Dev nD) (t : Fin cfg1.N) : Vec Ideal S4x16 .f32 := iblk1 V c 2 t
abbrev atrgBlk (c : Dev nD) (t : Fin cfg1.N) : Vec Ideal S4x16 .f32 := iblk1 V c 3 t

theorem idxBlk_apply (c : Dev nD) (t : Fin cfg1.N) (p : Fin 8192) (u : Fin 1) (e : Fin 1703936)
    (he : e.val = t.val / 208 * 8192 + p.val) : idxBlk V c t (ix2 p u) = idxArr V c (ix2 e u) := by
  show idxArr V c (((cfg1.win 0).blk t).view.emb (ix2 p u)) = idxArr V c (ix2 e u)
  refine congrArg (idxArr V c) ?_
  funext a; apply Fin.ext
  match a with
  | ⟨0, _⟩ =>
    show win1_0.index t (0 : Fin 2) * 8192 + 1 * p.val = e.val
    rw [(idx1_0 t).1]; omega
  | ⟨1, _⟩ =>
    show win1_0.index t (1 : Fin 2) * 1 + 1 * u.val = u.val
    rw [(idx1_0 t).2]; omega

theorem tblBlk_apply (c : Dev nD) (t : Fin cfg1.N) (jj : Fin 512) (q : Fin 64) (j : Fin 106496)
    (hj : j.val = t.val % 208 * 512 + jj.val) : tblBlk V c t (ix2 jj q) = tblArr V c (ix2 j q) := by
  show tblArr V c (((cfg1.win 1).blk t).view.emb (ix2 jj q)) = tblArr V c (ix2 j q)
  refine congrArg (tblArr V c) ?_
  funext a; apply Fin.ext
  match a with
  | ⟨0, _⟩ =>
    show win1_1.index t (0 : Fin 2) * 512 + 1 * jj.val = j.val
    rw [(idx1_1 t).1]; omega
  | ⟨1, _⟩ =>
    show win1_1.index t (1 : Fin 2) * 64 + 1 * q.val = q.val
    rw [(idx1_1 t).2]; omega

theorem asrcBlk_apply (c : Dev nD) (t : Fin cfg1.N) (r : Fin 4) (f : Fin 16) : asrcBlk V c t (ix2 r f) = asrcArr V c (ix2 r f) := by
  show asrcArr V c (((cfg1.win 2).blk t).view.emb (ix2 r f)) = asrcArr V c (ix2 r f)
  refine congrArg (asrcArr V c) ?_
  funext a; apply Fin.ext
  match a with
  | ⟨0, _⟩ => show 0 * 4 + 1 * r.val = r.val; omega
  | ⟨1, _⟩ => show 0 * 16 + 1 * f.val = f.val; omega
theorem atrgBlk_apply (c : Dev nD) (t : Fin cfg1.N) (r : Fin 4) (f : Fin 16) : atrgBlk V c t (ix2 r f) = atrgArr V c (ix2 r f) := by
  show atrgArr V c (((cfg1.win 3).blk t).view.emb (ix2 r f)) = atrgArr V c (ix2 r f)
  refine congrArg (atrgArr V c) ?_
  funext a; apply Fin.ext
  match a with
  | ⟨0, _⟩ => show 0 * 4 + 1 * r.val = r.val; omega
  | ⟨1, _⟩ => show 0 * 16 + 1 * f.val = f.val; omega

abbrev idxF (c : Dev nD) : Fin 1703936 → BitVec 32 := fun e => idxArr V c (ix2 e (0 : Fin 1))
abbrev tblF (c : Dev nD) : Fin 106496 → Fin 64 → EReal := fun j q => tblArr V c (ix2 j q)

def gtile (idx : Fin 1703936 → BitVec 32) (tbl : Fin 106496 → Fin 64 → EReal) (e : Fin 1703936) (q : Fin 64) (n : ℕ) : EReal :=
  if h : n < 208 then ∑ jj : Fin 512, Cert.Spec.oh (idx e) (Cert.Spec.node ⟨n, h⟩ jj).val * tbl (Cert.Spec.node ⟨n, h⟩ jj) q else 0

theorem gath_eq_range (idx : Fin 1703936 → BitVec 32) (tbl : Fin 106496 → Fin 64 → EReal) (e : Fin 1703936) (q : Fin 64) :
    Cert.Spec.gath idx tbl e q = ∑ n ∈ Finset.range 208, gtile idx tbl e q n := by
  unfold Cert.Spec.gath
  rw [Finset.sum_range]
  refine Finset.sum_congr rfl fun t _ => ?_
  unfold gtile; rw [dif_pos t.isLt]

theorem tile_term (c : Dev nD) (t : Fin cfg1.N) (eb nb : ℕ) (hq : t.val / 208 = eb) (hr : t.val % 208 = nb)
    (p : Fin 8192) (q : Fin 64) (e : Fin 1703936) (he : e.val = eb * 8192 + p.val) :
    ∑ jj : Fin 512, Cert.Spec.oh (idxBlk V c t (ix2 p (0 : Fin 1))) (((grid1.coords t) 1).val * 512 + jj.val) * tblBlk V c t (ix2 jj q)
      = gtile (idxF V c) (tblF V c) e q nb := by
  subst hq hr
  unfold gtile
  rw [dif_pos (Nat.mod_lt _ (by decide))]
  refine Finset.sum_congr rfl fun jj _ => ?_
  rw [idxBlk_apply V c t p 0 e he, pt1_inner t]
  exact congrArg (Cert.Spec.oh (idxArr V c (ix2 e (0 : Fin 1))) (t.val % 208 * 512 + jj.val) * ·)
    (tblBlk_apply V c t jj q (Cert.Spec.node ⟨t.val % 208, Nat.mod_lt _ (by decide)⟩ jj) rfl)

theorem acc1_congr (c : Dev nD) {n m : ℕ} (h : n = m) (hn : n < cfg1.N) (hm : m < cfg1.N) :
    acc1 V c n hn = acc1 V c m hm := by subst h; rfl

theorem acc1_closed (c : Dev nD) (eb : ℕ) (heb : eb < 208) (p : Fin 8192) (q : Fin 64) (e : Fin 1703936)
    (he : e.val = eb * 8192 + p.val) :
    ∀ (nb : ℕ) (hnb : nb < 208) (ht : eb * 208 + nb < cfg1.N),
      acc1 V c (eb * 208 + nb) ht (ix2 p q) = ∑ n ∈ Finset.range (nb + 1), gtile (idxF V c) (tblF V c) e q n := by
  intro nb
  induction nb with
  | zero =>
    intro hnb ht
    have h0 : (⟨eb * 208 + 0, ht⟩ : Fin cfg1.N).val % 208 = 0 := by show (eb * 208 + 0) % 208 = 0; omega
    refine (congrFun (acc1_first V c ⟨eb * 208 + 0, ht⟩ h0) (ix2 p q)).trans ?_
    refine (pay2_apply (grid1.coords ⟨eb * 208 + 0, ht⟩) (idxBlk V c ⟨eb * 208 + 0, ht⟩) (tblBlk V c ⟨eb * 208 + 0, ht⟩)
      (k1_pay1 (F := Ideal)) p q).trans ?_
    rw [pay1_apply, zero_add, Finset.sum_range_one]
    exact tile_term V c ⟨eb * 208 + 0, ht⟩ eb 0 (by show (eb * 208 + 0) / 208 = eb; omega) h0 p q e he
  | succ nb ih =>
    intro hnb ht
    have hne : (⟨eb * 208 + (nb + 1), ht⟩ : Fin cfg1.N).val % 208 ≠ 0 := by show (eb * 208 + (nb + 1)) % 208 ≠ 0; omega
    have hprev : eb * 208 + nb < cfg1.N := by omega
    refine (congrFun (acc1_next V c ⟨eb * 208 + (nb + 1), ht⟩ hne) (ix2 p q)).trans ?_
    refine (pay2_apply (grid1.coords ⟨eb * 208 + (nb + 1), ht⟩) (idxBlk V c ⟨eb * 208 + (nb + 1), ht⟩) (tblBlk V c ⟨eb * 208 + (nb + 1), ht⟩)
      (acc1 V c (eb * 208 + (nb + 1) - 1) (by omega)) p q).trans ?_
    rw [Finset.sum_range_succ _ (nb + 1)]
    refine congrArg₂ (· + ·) ?_ ?_
    · rw [acc1_congr V c (show eb * 208 + (nb + 1) - 1 = eb * 208 + nb by omega) _ hprev]
      exact ih (by omega) hprev
    · exact tile_term V c ⟨eb * 208 + (nb + 1), ht⟩ eb (nb + 1) (by show (eb * 208 + (nb + 1)) / 208 = eb; omega)
        (by show (eb * 208 + (nb + 1)) % 208 = nb + 1; omega) p q e he

theorem acc1_last (c : Dev nD) (t : Fin cfg1.N) (h : t.val % 208 = 207) (p : Fin 8192) (q : Fin 64) (e : Fin 1703936)
    (he : e.val = t.val / 208 * 8192 + p.val) :
    acc1 V c t.val t.isLt (ix2 p q) = Cert.Spec.gath (idxF V c) (tblF V c) e q := by
  have hlt := pt1_lt t
  have hN : cfg1.N = 43264 := N_1
  have ht : t.val / 208 * 208 + 207 < cfg1.N := by omega
  rw [acc1_congr V c (show t.val = t.val / 208 * 208 + 207 by omega) t.isLt ht, gath_eq_range]
  exact acc1_closed V c (t.val / 208) (by omega) p q e he 207 (by omega) ht

def gathArr (c : Dev nD) : S1703936x64.Idx → EReal :=
  fun i => Cert.Spec.gath (idxF V c) (tblF V c) ⟨(i 0).val, idx2_lt0 i⟩ ⟨(i 1).val, idx2_lt1 i⟩

theorem emb1_4 (t : Fin cfg1.N) (p : Fin 8192) (q : Fin 64) (e : Fin 1703936) (he : e.val = t.val / 208 * 8192 + p.val) :
    ((cfg1.win 4).blk t).view.emb (ix2 p q) = (ix2 e q : S1703936x64.Idx) := by
  funext a; apply Fin.ext
  match a with
  | ⟨0, _⟩ =>
    show win1_4.index t (0 : Fin 2) * 8192 + 1 * p.val = e.val
    rw [(idx1_4 t).1]; omega
  | ⟨1, _⟩ =>
    show win1_4.index t (1 : Fin 2) * 64 + 1 * q.val = q.val
    rw [(idx1_4 t).2]; omega

theorem flushed1_4 (c : Dev nD) (t : Fin cfg1.N) (h : t.val % 208 = 207) :
    (dat1 V c).flushed 4 t = ((cfg1.win 4).blk t).view.read (Elt Ideal) (gathArr V c) := by
  funext y
  obtain ⟨p, q, rfl⟩ : ∃ (p : Fin 8192) (q : Fin 64), y = ix2 p q := ⟨y 0, y 1, eq_ix2 y⟩
  have hlt := pt1_lt t
  have he : (⟨t.val / 208 * 8192 + p.val, by omega⟩ : Fin 1703936).val = t.val / 208 * 8192 + p.val := rfl
  show (cfg1.win 4).cut (grid1.coords t) ((dat1 V c).after 4 t) (ix2 p q) = gathArr V c (((cfg1.win 4).blk t).view.emb (ix2 p q))
  rw [emb1_4 t p q _ he]
  refine (congrFun (congrArg ((cfg1.win 4).cut (grid1.coords t)) (after1_4_last V c t h)) (ix2 p q)).trans ?_
  exact acc1_last V c t h p q _ he

theorem mem_blk1_4 (t : Fin cfg1.N) (i : S1703936x64.Idx) :
    i ∈ ((cfg1.win 4).blk t).view.set ↔ ∀ a : Fin 2, win1_4.index t a * S8192x64.size a ≤ (i a).val ∧ (i a).val < win1_4.index t a * S8192x64.size a + S8192x64.size a := by
  show i ∈ ((View.whole main_v18_0).slice (win1_4.rect t)).set ↔ _
  rw [View.set_slice_whole, Rect.mem_set_unit]
  exact Iff.rfl

theorem cover1_4 (i : S1703936x64.Idx) :
    ∃ t : Fin cfg1.N, (cfg1.win 4).flush t = true ∧ i ∈ ((cfg1.win 4).blk t).view.set := by
  have hi0 : (i 0).val < 1703936 := idx2_lt0 i
  have hi1 : (i 1).val < 64 := idx2_lt1 i
  have hN : cfg1.N = 43264 := N_1
  refine ⟨⟨(i 0).val / 8192 * 208 + 207, by omega⟩,
    (flush1_4 _).mpr (by show ((i 0).val / 8192 * 208 + 207) % 208 = 207; omega), ?_⟩
  rw [mem_blk1_4]
  intro a
  match a with
  | ⟨0, _⟩ =>
    show win1_4.index _ (0 : Fin 2) * 8192 ≤ (i 0).val ∧ (i 0).val < win1_4.index _ (0 : Fin 2) * 8192 + 8192
    rw [(idx1_4 _).1]
    show ((i 0).val / 8192 * 208 + 207) / 208 * 8192 ≤ (i 0).val ∧ (i 0).val < ((i 0).val / 8192 * 208 + 207) / 208 * 8192 + 8192
    omega
  | ⟨1, _⟩ =>
    show win1_4.index _ (1 : Fin 2) * 64 ≤ (i 1).val ∧ (i 1).val < win1_4.index _ (1 : Fin 2) * 64 + 64
    rw [(idx1_4 _).2]; omega

abbrev asrcF (c : Dev nD) : Fin 4 → Fin 16 → EReal := fun h f => asrcArr V c (ix2 h f)
abbrev atrgF (c : Dev nD) : Fin 4 → Fin 16 → EReal := fun h f => atrgArr V c (ix2 h f)

def scoreArr (c : Dev nD) : S1703936x4.Idx → EReal :=
  fun i => Cert.Spec.score (Cert.Spec.gath (idxF V c) (tblF V c)) (asrcF V c) (atrgF V c) ⟨(i 0).val, idx2_lt0 i⟩ ⟨(i 1).val, idx2_lt1 i⟩

theorem emb1_5 (t : Fin cfg1.N) (p : Fin 8192) (hd : Fin 4) (e : Fin 1703936) (he : e.val = t.val / 208 * 8192 + p.val) :
    ((cfg1.win 5).blk t).view.emb (ix2 p hd) = (ix2 e hd : S1703936x4.Idx) := by
  funext a; apply Fin.ext
  match a with
  | ⟨0, _⟩ =>
    show win1_5.index t (0 : Fin 2) * 8192 + 1 * p.val = e.val
    rw [(idx1_5 t).1]; omega
  | ⟨1, _⟩ =>
    show win1_5.index t (1 : Fin 2) * 4 + 1 * hd.val = hd.val
    rw [(idx1_5 t).2]; omega

theorem flushed1_5 (c : Dev nD) (t : Fin cfg1.N) (h : t.val % 208 = 207) :
    (dat1 V c).flushed 5 t = ((cfg1.win 5).blk t).view.read (Elt Ideal) (scoreArr V c) := by
  funext y
  obtain ⟨p, hd, rfl⟩ : ∃ (p : Fin 8192) (hd : Fin 4), y = ix2 p hd := ⟨y 0, y 1, eq_ix2 y⟩
  have hlt := pt1_lt t
  have he : (⟨t.val / 208 * 8192 + p.val, by omega⟩ : Fin 1703936).val = t.val / 208 * 8192 + p.val := rfl
  show (cfg1.win 5).cut (grid1.coords t) ((dat1 V c).after 5 t) (ix2 p hd) = scoreArr V c (((cfg1.win 5).blk t).view.emb (ix2 p hd))
  rw [emb1_5 t p hd _ he]
  refine (congrFun (congrArg ((cfg1.win 5).cut (grid1.coords t)) (after1_5_last V c t h)) (ix2 p hd)).trans ?_
  refine (pay3_apply (acc1 V c t.val t.isLt) (fun r => arow1 V c r t) (fun r => brow1 V c r t) p hd).trans ?_
  refine congrArg Cert.Spec.leaky ?_
  refine congrArg₂ (· + ·) (Finset.sum_congr rfl fun f _ => ?_) (Finset.sum_congr rfl fun f _ => ?_)
  · exact congrArg₂ (· * ·) (acc1_last V c t h p (Cert.Spec.col hd f) _ he)
      ((arow1_apply V c hd t f).trans (asrcBlk_apply V c t hd f))
  · exact congrArg₂ (· * ·) (acc1_last V c t h p (Cert.Spec.col hd f) _ he)
      ((brow1_apply V c hd t f).trans (atrgBlk_apply V c t hd f))

theorem mem_blk1_5 (t : Fin cfg1.N) (i : S1703936x4.Idx) :
    i ∈ ((cfg1.win 5).blk t).view.set ↔ ∀ a : Fin 2, win1_5.index t a * S8192x4.size a ≤ (i a).val ∧ (i a).val < win1_5.index t a * S8192x4.size a + S8192x4.size a := by
  show i ∈ ((View.whole main_v18_1).slice (win1_5.rect t)).set ↔ _
  rw [View.set_slice_whole, Rect.mem_set_unit]
  exact Iff.rfl

theorem cover1_5 (i : S1703936x4.Idx) :
    ∃ t : Fin cfg1.N, (cfg1.win 5).flush t = true ∧ i ∈ ((cfg1.win 5).blk t).view.set := by
  have hi0 : (i 0).val < 1703936 := idx2_lt0 i
  have hi1 : (i 1).val < 4 := idx2_lt1 i
  have hN : cfg1.N = 43264 := N_1
  refine ⟨⟨(i 0).val / 8192 * 208 + 207, by omega⟩,
    (flush1_5 _).mpr (by show ((i 0).val / 8192 * 208 + 207) % 208 = 207; omega), ?_⟩
  rw [mem_blk1_5]
  intro a
  match a with
  | ⟨0, _⟩ =>
    show win1_5.index _ (0 : Fin 2) * 8192 ≤ (i 0).val ∧ (i 0).val < win1_5.index _ (0 : Fin 2) * 8192 + 8192
    rw [(idx1_5 _).1]
    show ((i 0).val / 8192 * 208 + 207) / 208 * 8192 ≤ (i 0).val ∧ (i 0).val < ((i 0).val / 8192 * 208 + 207) / 208 * 8192 + 8192
    omega
  | ⟨1, _⟩ =>
    show win1_5.index _ (1 : Fin 2) * 4 ≤ (i 1).val ∧ (i 1).val < win1_5.index _ (1 : Fin 2) * 4 + 4
    rw [(idx1_5 _).2]; omega

end Val1

variable (V : (c : Dev nD) → (b : Ref sig .tc) → Buf (Elt Ideal) ((c : Thread nD τ).loc b))

open Val1 in
theorem final1_4 (c : Dev nD) (e : Fin 1703936) (q : Fin 64) :
    (dat1 (F := Ideal) V c).arrAt 4 cfg1.N (ix2 e q)
      = Cert.Spec.gath (fun e => (V c main_v15 : S1703936x1.Idx → BitVec 32) (ix2 e 0))
          (fun j q => (V c main_v14 : S106496x64.Idx → EReal) (ix2 j q)) e q := by
  have hA := (dat1 V c).arrAt_eq_of_cover 4 (gathArr V c) (fun t hf => flushed1_4 V c t ((flush1_4 t).mp hf)) cover1_4
  exact congrFun hA (ix2 e q)

open Val1 in
theorem final1_5 (c : Dev nD) (e : Fin 1703936) (h : Fin 4) :
    (dat1 (F := Ideal) V c).arrAt 5 cfg1.N (ix2 e h)
      = Cert.Spec.score
          (Cert.Spec.gath (fun e => (V c main_v15 : S1703936x1.Idx → BitVec 32) (ix2 e 0))
            (fun j q => (V c main_v14 : S106496x64.Idx → EReal) (ix2 j q)))
          (fun h f => (V c main_v12 : S4x16.Idx → EReal) (ix2 h f)) (fun h f => (V c main_v13 : S4x16.Idx → EReal) (ix2 h f)) e h := by
  have hA := (dat1 V c).arrAt_eq_of_cover 5 (scoreArr V c) (fun t hf => flushed1_5 V c t ((flush1_5 t).mp hf)) cover1_5
  exact congrFun hA (ix2 e h)

end Cert.KernelIdeal.Hand

end
-- ==== Proof.KI.Val2.lean ====
import proofs.«417626_j75007308858099_3_alg».proof.Proof.KI.Reg2
import proofs.«417626_j75007308858099_3_alg».proof.Proof.KI.Val1
import proofs.«417626_j75007308858099_3_alg».proof.Proof.KIPoints
import proofs.«417626_j75007308858099_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

namespace V2

open Val1 (broadcastTo_a1_ab_apply onehot_entry word_toNat)

abbrev D2 : DotDims S512x8192 S8192x4 S512x4 := dot_S512x8192_S8192x4_S512x4_1_0_0_1_n_n

theorem D2_lhs_0 (j : S512x4.Idx) (k : dot_S512x8192_S8192x4_S512x4_1_0_0_1_n_n.contr.Idx) :
    (dot_S512x8192_S8192x4_S512x4_1_0_0_1_n_n.lhsIdx j k 0 : ℕ) = j 0 := by
  simp [DotDims.lhsIdx, dot_S512x8192_S8192x4_S512x4_1_0_0_1_n_n]; rfl
theorem D2_lhs_1 (j : S512x4.Idx) (k : dot_S512x8192_S8192x4_S512x4_1_0_0_1_n_n.contr.Idx) :
    (dot_S512x8192_S8192x4_S512x4_1_0_0_1_n_n.lhsIdx j k 1 : ℕ) = k ⟨0, by decide⟩ := by
  simp [DotDims.lhsIdx, dot_S512x8192_S8192x4_S512x4_1_0_0_1_n_n]; rfl
theorem D2_rhs_0 (j : S512x4.Idx) (k : dot_S512x8192_S8192x4_S512x4_1_0_0_1_n_n.contr.Idx) :
    (dot_S512x8192_S8192x4_S512x4_1_0_0_1_n_n.rhsIdx j k 0 : ℕ) = k ⟨0, by decide⟩ := by
  simp [DotDims.rhsIdx, dot_S512x8192_S8192x4_S512x4_1_0_0_1_n_n]; rfl
theorem D2_rhs_1 (j : S512x4.Idx) (k : dot_S512x8192_S8192x4_S512x4_1_0_0_1_n_n.contr.Idx) :
    (dot_S512x8192_S8192x4_S512x4_1_0_0_1_n_n.rhsIdx j k 1 : ℕ) = j 1 := by
  simp [DotDims.rhsIdx, dot_S512x8192_S8192x4_S512x4_1_0_0_1_n_n]; rfl

theorem matmul2_apply (A : FVec Ideal S512x8192 .bf16) (B : FVec Ideal S8192x4 .bf16) (p : Fin 512) (h : Fin 4) :
    matmul dot_S512x8192_S8192x4_S512x4_1_0_0_1_n_n none A B (constant (F := Ideal) S512x4 .f32 0x00000000#32) (ix2 p h)
      = ∑ ee : Fin 8192, A (ix2 p ee) * B (ix2 ee h) := by
  refine (Ideal.matmul_constant_zero_apply dot_S512x8192_S8192x4_S512x4_1_0_0_1_n_n none A B (ix2 p h)).trans ?_
  rw [← Equiv.sum_comp (contrEquiv1 D2 8192 rfl rfl).symm]
  refine Finset.sum_congr rfl fun ee _ => ?_
  have hk : (((contrEquiv1 D2 8192 rfl rfl).symm ee) ⟨0, by decide⟩ : ℕ) = ee.val :=
    contrEquiv1_symm_val D2 8192 rfl rfl ee
  have hl : dot_S512x8192_S8192x4_S512x4_1_0_0_1_n_n.lhsIdx (ix2 p h) ((contrEquiv1 D2 8192 rfl rfl).symm ee) = ix2 p ee :=
    Shape.idx_ext₂ (D2_lhs_0 _ _) ((D2_lhs_1 _ _).trans hk)
  have hr : dot_S512x8192_S8192x4_S512x4_1_0_0_1_n_n.rhsIdx (ix2 p h) ((contrEquiv1 D2 8192 rfl rfl).symm ee) = ix2 ee h :=
    Shape.idx_ext₂ ((D2_rhs_0 _ _).trans hk) (D2_rhs_1 _ _)
  rw [hl, hr]

theorem node_word (n p : ℕ) : BitVec.ofNat 32 p + BitVec.ofNat 32 n * 512#32 = BitVec.ofNat 32 (n * 512 + p) := by
  rw [BitVec.ofNat_add, BitVec.ofNat_mul, BitVec.add_comm]

theorem onehot_val (a b : BitVec 32) :
    FloatOps.sitofp (F := Ideal) .f32 ((IntOp.cmpi .eq a b).setWidth 32) = if b = a then (1 : EReal) else 0 :=
  (onehot_entry a b).trans (if_congr eq_comm rfl rfl)

def ohT (i : grid2.Coords) (v7 : Vec Ideal S1x8192 .i32) : FVec Ideal S512x8192 .bf16 :=
  truncf .bf16 (sitofp .f32 (extui 32 (cmpi .eq
    (broadcastTo S512x8192 (addi (iota .tc S512x1 32 [0] iota_S512x1_d0_w32)
      (broadcast S512x1 (Scalar.muli (BitVec.ofNat 32 (i 0).val) 512#32))) broadcasts_S512x1_S512x8192)
    (broadcastTo S512x8192 (shapeCast S1x8192 v7 shapeCasts_S1x8192_S1x8192) broadcasts_S1x8192_S512x8192))
    natLt_1_32)) bitsLt_bf16_f32

def exT (v15 : Vec Ideal S8192x4 .f32) (v17 : Vec Ideal S1x1 .f32) : FVec Ideal S8192x4 .bf16 :=
  truncf .bf16 (exp (subf (shapeCast S8192x4 v15 shapeCasts_S8192x4_S8192x4)
    (broadcast S8192x4 (extractAt ![0, 0] v17 inpos_S1x1_p0_0)))) bitsLt_bf16_f32

theorem pay2_eq (i : grid2.Coords) (v7 : Vec Ideal S1x8192 .i32) (v15 : Vec Ideal S8192x4 .f32)
    (v17 : Vec Ideal S1x1 .f32) (v23 : Vec Ideal S512x4 .f32) :
    Gen.k2_pay2 i v7 v15 v17 v23
      = shapeCast S512x4 (addf v23 (matmul dot_S512x8192_S8192x4_S512x4_1_0_0_1_n_n none (ohT i v7) (exT v15 v17)
          (constant (F := Ideal) S512x4 .f32 0x00000000#32))) shapeCasts_S512x4_S512x4 := rfl

theorem ohT_apply (i : grid2.Coords) (v7 : Vec Ideal S1x8192 .i32) (p : Fin 512) (ee : Fin 8192) :
    ohT i v7 (ix2 p ee) = Cert.Spec.oh (v7 (ix2 0 ee)) ((i 0).val * 512 + p.val) := by
  have e9 : broadcastTo S512x8192 (addi (iota .tc S512x1 32 [0] iota_S512x1_d0_w32)
      (broadcast S512x1 (Scalar.muli (BitVec.ofNat 32 (i 0).val) 512#32))) broadcasts_S512x1_S512x8192 (ix2 p ee)
        = BitVec.ofNat 32 ((i 0).val * 512 + p.val) := by
    refine (broadcastTo_a1_ab_apply _ _ p ee).trans ?_
    show IntOp.addi (iota .tc S512x1 32 [0] iota_S512x1_d0_w32 (ix2 p (0 : Fin 1)))
      (Scalar.muli (BitVec.ofNat 32 (i 0).val) 512#32) = _
    rw [iota_single_apply]
    exact node_word _ _
  have e10 : broadcastTo S512x8192 (shapeCast S1x8192 v7 shapeCasts_S1x8192_S1x8192) broadcasts_S1x8192_S512x8192 (ix2 p ee)
        = v7 (ix2 0 ee) := by
    refine (broadcastTo_1b_ab_apply _ _ p ee).trans ?_
    rw [shapeCast_self]
  show FloatOps.sitofp (F := Ideal) .f32 ((IntOp.cmpi .eq
    (broadcastTo S512x8192 (addi (iota .tc S512x1 32 [0] iota_S512x1_d0_w32)
      (broadcast S512x1 (Scalar.muli (BitVec.ofNat 32 (i 0).val) 512#32))) broadcasts_S512x1_S512x8192 (ix2 p ee))
    (broadcastTo S512x8192 (shapeCast S1x8192 v7 shapeCasts_S1x8192_S1x8192) broadcasts_S1x8192_S512x8192 (ix2 p ee))).setWidth 32) = _
  rw [e9, e10]
  exact onehot_val _ _

theorem exT_apply (v15 : Vec Ideal S8192x4 .f32) (v17 : Vec Ideal S1x1 .f32) (ee : Fin 8192) (h : Fin 4) :
    exT v15 v17 (ix2 ee h) = Ideal.exp (v15 (ix2 ee h) - v17 (ix2 0 0)) := by
  unfold exT
  rw [shapeCast_self]
  show Ideal.exp (v15 (ix2 ee h) - v17 (fun a => ⟨(![0, 0] : Fin 2 → ℕ) a, inpos_S1x1_p0_0 a⟩)) = _
  have e : (fun a => ⟨(![0, 0] : Fin 2 → ℕ) a, inpos_S1x1_p0_0 a⟩ : S1x1.Idx) = ix2 0 0 :=
    Shape.idx_ext₂ rfl rfl
  rw [e]

theorem pay2_apply (i : grid2.Coords) (v7 : Vec Ideal S1x8192 .i32) (v15 : Vec Ideal S8192x4 .f32)
    (v17 : Vec Ideal S1x1 .f32) (v23 : Vec Ideal S512x4 .f32) (p : Fin 512) (h : Fin 4) :
    Gen.k2_pay2 i v7 v15 v17 v23 (ix2 p h)
      = v23 (ix2 p h) + ∑ ee : Fin 8192, Cert.Spec.oh (v7 (ix2 0 ee)) ((i 0).val * 512 + p.val)
          * Ideal.exp (v15 (ix2 ee h) - v17 (ix2 0 0)) := by
  rw [pay2_eq, shapeCast_self]
  show v23 (ix2 p h) + matmul dot_S512x8192_S8192x4_S512x4_1_0_0_1_n_n none (ohT i v7) (exT v15 v17)
          (constant (F := Ideal) S512x4 .f32 0x00000000#32) (ix2 p h) = _
  rw [matmul2_apply]
  refine congrArg (v23 (ix2 p h) + ·) (Finset.sum_congr rfl fun ee _ => ?_)
  rw [ohT_apply, exT_apply]

theorem pay1_apply (p : Fin 512) (h : Fin 4) : (Gen.k2_pay1 (F := Ideal)) (ix2 p h) = 0 := by
  unfold Gen.k2_pay1
  rw [shapeCast_self]
  exact Ideal.ofBits_zero_f32

theorem N2 : cfg2.N = 43264 := Gen.N_2

theorem lt2 (t : Fin cfg2.N) : t.val < 43264 := Nat.lt_of_lt_of_eq t.isLt N2

theorem coords2_0 (t : Fin cfg2.N) : ((grid2.coords t) 0).val = t.val / 208 := by
  have ht : t.val < 43264 := lt2 t
  show t.val / grid2.stride 0 % 208 = _
  rw [show grid2.stride 0 = 208 from by decide]
  omega

theorem coords2_1 (t : Fin cfg2.N) : ((grid2.coords t) 1).val = t.val % 208 := by
  show t.val / grid2.stride 1 % 208 = _
  rw [show grid2.stride 1 = 1 from by decide, Nat.div_one]

def etile (t : Fin cfg2.N) : Fin 208 := ⟨t.val % 208, Nat.mod_lt _ (by decide)⟩
def nblock (t : Fin cfg2.N) : Fin 208 :=
  ⟨t.val / 208, by have := lt2 t; omega⟩

theorem index2_0 (t : Fin cfg2.N) : win2_0.index t 0 = 0 ∧ win2_0.index t 1 = t.val % 208 := by
  refine ⟨rfl, ?_⟩
  show (BitVec.ofNat 32 ((grid2.coords t) 1).val).toNat = _
  rw [coords2_1, word_toNat _ (Nat.mod_lt _ (by decide))]

theorem index2_1 (t : Fin cfg2.N) : win2_1.index t 0 = t.val % 208 ∧ win2_1.index t 1 = 0 := by
  refine ⟨?_, rfl⟩
  show (BitVec.ofNat 32 ((grid2.coords t) 1).val).toNat = _
  rw [coords2_1, word_toNat _ (Nat.mod_lt _ (by decide))]

theorem index2_3 (t : Fin cfg2.N) : win2_3.index t 0 = t.val / 208 ∧ win2_3.index t 1 = 0 := by
  refine ⟨?_, rfl⟩
  have ht : t.val < 43264 := lt2 t
  show (BitVec.ofNat 32 ((grid2.coords t) 0).val).toNat = _
  rw [coords2_0, word_toNat _ (by omega)]

def idxOf (c : Dev nD) : Fin 1703936 → BitVec 32 := fun e => (V c main_v17 : S1x1703936.Idx → BitVec 32) (ix2 0 e)
def scOf (c : Dev nD) : Fin 1703936 → Fin 4 → EReal := fun e h => (V c main_v18_1 : S1703936x4.Idx → EReal) (ix2 e h)
def gOf (c : Dev nD) : EReal := (V c main_v21 : S1x1.Idx → EReal) (ix2 0 0)

theorem iblk2_0_apply (c : Dev nD) (t : Fin cfg2.N) (ee : Fin 8192) :
    (iblk2 V c 0 t : Vec Ideal S1x8192 .i32) (ix2 0 ee) = idxOf V c (Cert.Spec.edge (etile t) ee) := by
  unfold iblk2 idxOf
  rw [View.read_apply]
  show V c main_v17 _ = V c main_v17 _
  congr 1
  funext a
  apply Fin.ext
  match a with
  | ⟨0, _⟩ => show win2_0.index t 0 * 1 + 1 * 0 = 0; rw [(index2_0 t).1]
  | ⟨1, _⟩ => show win2_0.index t 1 * 8192 + 1 * ee.val = t.val % 208 * 8192 + ee.val; rw [(index2_0 t).2]; omega

theorem iblk2_1_apply (c : Dev nD) (t : Fin cfg2.N) (ee : Fin 8192) (h : Fin 4) :
    (iblk2 V c 1 t : Vec Ideal S8192x4 .f32) (ix2 ee h) = scOf V c (Cert.Spec.edge (etile t) ee) h := by
  unfold iblk2 scOf
  rw [View.read_apply]
  show V c main_v18_1 _ = V c main_v18_1 _
  congr 1
  funext a
  apply Fin.ext
  match a with
  | ⟨0, _⟩ => show win2_1.index t 0 * 8192 + 1 * ee.val = t.val % 208 * 8192 + ee.val; rw [(index2_1 t).1]; omega
  | ⟨1, _⟩ => show win2_1.index t 1 * 4 + 1 * h.val = h.val; rw [(index2_1 t).2]; omega

theorem iblk2_2_apply (c : Dev nD) (t : Fin cfg2.N) :
    (iblk2 V c 2 t : Vec Ideal S1x1 .f32) (ix2 0 0) = gOf V c := by
  unfold iblk2 gOf
  rw [View.read_apply]
  show V c main_v21 _ = V c main_v21 _
  congr 1
  funext a
  apply Fin.ext
  match a with
  | ⟨0, _⟩ => rfl
  | ⟨1, _⟩ => rfl

def share (c : Dev nD) (q : ℕ) (p : Fin 512) (h : Fin 4) (s : Fin 208) : EReal :=
  ∑ ee : Fin 8192, Cert.Spec.oh (idxOf V c (Cert.Spec.edge s ee)) (q * 512 + p.val)
    * Cert.Spec.expo (scOf V c) (gOf V c) (Cert.Spec.edge s ee) h

def shareN (c : Dev nD) (q : ℕ) (p : Fin 512) (h : Fin 4) (s : ℕ) : EReal :=
  if hs : s < 208 then share V c q p h ⟨s, hs⟩ else 0

theorem step_apply (c : Dev nD) (t : Fin cfg2.N) (v23 : Vec Ideal S512x4 .f32) (p : Fin 512) (h : Fin 4) :
    Gen.k2_pay2 (grid2.coords t) (iblk2 V c 0 t) (iblk2 V c 1 t) (iblk2 V c 2 t) v23 (ix2 p h)
      = v23 (ix2 p h) + share V c (t.val / 208) p h (etile t) := by
  refine (pay2_apply (grid2.coords t) (iblk2 V c 0 t) (iblk2 V c 1 t) (iblk2 V c 2 t) v23 p h).trans ?_
  refine congrArg (v23 (ix2 p h) + ·) (Finset.sum_congr rfl fun ee _ => ?_)
  rw [iblk2_0_apply, iblk2_1_apply, iblk2_2_apply, coords2_0]
  rfl

theorem share_at (c : Dev nD) (q j : ℕ) (hj : j < 208) (ht : 208 * q + j < cfg2.N) (p : Fin 512) (h : Fin 4) :
    share V c ((⟨208 * q + j, ht⟩ : Fin cfg2.N).val / 208) p h (etile ⟨208 * q + j, ht⟩) = shareN V c q p h j := by
  have e1 : (208 * q + j) / 208 = q := by omega
  have e2 : etile ⟨208 * q + j, ht⟩ = ⟨j, hj⟩ := Fin.ext (by show (208 * q + j) % 208 = j; omega)
  unfold shareN
  rw [dif_pos hj]
  show share V c ((208 * q + j) / 208) p h _ = _
  rw [e1, e2]

theorem acc2_congr (c : Dev nD) {n n' : ℕ} (e : n = n') (hn : n < cfg2.N) (hn' : n' < cfg2.N) :
    acc2 V c n hn = acc2 V c n' hn' := by
  subst e; rfl

theorem acc2_closed (c : Dev nD) (q : ℕ) :
    ∀ (j : ℕ) (hj : j < 208) (ht : 208 * q + j < cfg2.N) (p : Fin 512) (h : Fin 4),
      acc2 V c (208 * q + j) ht (ix2 p h) = ∑ s ∈ Finset.range (j + 1), shareN V c q p h s
  | 0, hj, ht, p, h => by
    have hm : (⟨208 * q + 0, ht⟩ : Fin cfg2.N).val % 208 = 0 := by show (208 * q + 0) % 208 = 0; omega
    have e := acc2_first V c ⟨208 * q + 0, ht⟩ hm
    rw [Finset.sum_range_one]
    refine (congrFun e (ix2 p h)).trans ?_
    rw [step_apply, pay1_apply, zero_add, share_at V c q 0 hj ht p h]
  | j + 1, hj, ht, p, h => by
    have hm : (⟨208 * q + (j + 1), ht⟩ : Fin cfg2.N).val % 208 ≠ 0 := by
      show (208 * q + (j + 1)) % 208 ≠ 0; omega
    have e := acc2_next V c ⟨208 * q + (j + 1), ht⟩ hm
    rw [Finset.sum_range_succ]
    refine (congrFun e (ix2 p h)).trans ?_
    rw [step_apply, share_at V c q (j + 1) hj ht p h]
    refine congrArg (· + shareN V c q p h (j + 1)) ?_
    rw [← acc2_closed c q j (by omega) (by omega) p h]
    exact congrFun (acc2_congr V c (by show 208 * q + (j + 1) - 1 = 208 * q + j; omega) _ _) (ix2 p h)

theorem sum_shareN (c : Dev nD) (q : Fin 208) (p : Fin 512) (h : Fin 4) :
    ∑ s ∈ Finset.range 208, shareN V c q.val p h s
      = Cert.Spec.scat (idxOf V c) (Cert.Spec.expo (scOf V c) (gOf V c)) (Cert.Spec.node q p) h := by
  rw [Finset.sum_range]
  unfold Cert.Spec.scat
  refine Finset.sum_congr rfl fun s _ => ?_
  unfold shareN
  rw [dif_pos s.isLt]
  rfl

def G3 (c : Dev nD) : S106496x4.Idx → EReal := fun i =>
  Cert.Spec.scat (idxOf V c) (Cert.Spec.expo (scOf V c) (gOf V c)) ⟨(i 0).val, idx2_lt0 i⟩ ⟨(i 1).val, idx2_lt1 i⟩

theorem scat_congr {C : ℕ} (idx : Fin 1703936 → BitVec 32) (upd : Fin 1703936 → Fin C → EReal)
    (n n' : Fin 106496) (k k' : Fin C) (hn : n.val = n'.val) (hk : k.val = k'.val) :
    Cert.Spec.scat idx upd n k = Cert.Spec.scat idx upd n' k' := by
  cases Fin.ext hn; cases Fin.ext hk; rfl

theorem acc2_last (c : Dev nD) (t : Fin cfg2.N) (h207 : t.val % 208 = 207) (p : Fin 512) (h : Fin 4) :
    acc2 V c t.val t.isLt (ix2 p h)
      = Cert.Spec.scat (idxOf V c) (Cert.Spec.expo (scOf V c) (gOf V c)) (Cert.Spec.node (nblock t) p) h := by
  have ht : t.val < 43264 := lt2 t
  have e : t.val = 208 * (t.val / 208) + 207 := by omega
  have ht' : 208 * (t.val / 208) + 207 < cfg2.N := Nat.lt_of_lt_of_eq (by omega) N2.symm
  rw [acc2_congr V c e t.isLt ht', acc2_closed V c (t.val / 208) 207 (by omega) ht' p h]
  exact sum_shareN V c (nblock t) p h

theorem flushed3_eq (c : Dev nD) (t : Fin cfg2.N) (hf : (cfg2.win 3).flush t = true) :
    (dat2 (F := Ideal) V c).flushed 3 t = ((cfg2.win 3).blk t).view.read (Elt Ideal) (G3 V c) := by
  have h207 : t.val % 208 = 207 := (flush2_3 t).mp hf
  show (cfg2.win 3).cut (grid2.coords t) ((dat2 V c).after 3 t) = _
  rw [after2_3_last V c t h207]
  funext j
  obtain ⟨p, h, rfl⟩ : ∃ (p : Fin 512) (h : Fin 4), j = ix2 p h := ⟨j 0, j 1, eq_ix2 j⟩
  rw [View.read_apply]
  show acc2 V c t.val t.isLt (ix2 p h) = G3 V c (((cfg2.win 3).blk t).view.emb (ix2 p h))
  rw [acc2_last V c t h207 p h]
  refine scat_congr _ _ _ _ _ _ ?_ ?_
  · show t.val / 208 * 512 + p.val = win2_3.index t 0 * 512 + 1 * p.val
    rw [(index2_3 t).1]; omega
  · show h.val = win2_3.index t 1 * 4 + 1 * h.val
    rw [(index2_3 t).2]; omega

theorem cover3 (i : S106496x4.Idx) :
    ∃ t : Fin cfg2.N, (cfg2.win 3).flush t = true ∧ i ∈ ((cfg2.win 3).blk t).view.set := by
  have h0 : (i 0).val < 106496 := idx2_lt0 i
  have h1 : (i 1).val < 4 := idx2_lt1 i
  have htN : 208 * ((i 0).val / 512) + 207 < cfg2.N := Nat.lt_of_lt_of_eq (by omega) N2.symm
  refine ⟨⟨208 * ((i 0).val / 512) + 207, htN⟩, (flush2_3 _).mpr (by show (208 * ((i 0).val / 512) + 207) % 208 = 207; omega), ?_⟩
  show i ∈ ((View.whole main_v22).slice (win2_3.rect ⟨208 * ((i 0).val / 512) + 207, htN⟩)).set
  rw [View.set_slice_whole, Rect.mem_set_unit]
  intro a
  have hq : (208 * ((i 0).val / 512) + 207) / 208 = (i 0).val / 512 := by omega
  match a with
  | ⟨0, _⟩ =>
    show win2_3.index ⟨208 * ((i 0).val / 512) + 207, htN⟩ 0 * 512 ≤ (i 0).val
      ∧ (i 0).val < win2_3.index ⟨208 * ((i 0).val / 512) + 207, htN⟩ 0 * 512 + 512
    rw [(index2_3 _).1]
    show (208 * ((i 0).val / 512) + 207) / 208 * 512 ≤ (i 0).val ∧ (i 0).val < (208 * ((i 0).val / 512) + 207) / 208 * 512 + 512
    rw [hq]; omega
  | ⟨1, _⟩ =>
    show win2_3.index ⟨208 * ((i 0).val / 512) + 207, htN⟩ 1 * 4 ≤ (i 1).val
      ∧ (i 1).val < win2_3.index ⟨208 * ((i 0).val / 512) + 207, htN⟩ 1 * 4 + 4
    rw [(index2_3 _).2]; omega

theorem final2_3_all (c : Dev nD) : (dat2 (F := Ideal) V c).arrAt 3 cfg2.N = G3 V c :=
  (dat2 (F := Ideal) V c).arrAt_eq_of_cover 3 (G3 V c) (flushed3_eq V c) cover3

end V2

open V2 in
theorem final2_3 (c : Dev nD) (n : Fin 106496) (h : Fin 4) :
    (dat2 (F := Ideal) V c).arrAt 3 cfg2.N (ix2 n h)
      = Cert.Spec.scat (fun e => (V c main_v17 : S1x1703936.Idx → BitVec 32) (ix2 0 e))
          (Cert.Spec.expo (fun e h => (V c main_v18_1 : S1703936x4.Idx → EReal) (ix2 e h))
            ((V c main_v21 : S1x1.Idx → EReal) (ix2 0 0))) n h := by
  rw [final2_3_all V c]
  rfl

end Cert.KernelIdeal.Hand

end
-- ==== Proof.KI.Val3.lean ====
import proofs.«417626_j75007308858099_3_alg».proof.Proof.KI.Reg3
import proofs.«417626_j75007308858099_3_alg».proof.Proof.KI.Val1
import proofs.«417626_j75007308858099_3_alg».proof.Proof.KIPoints
import proofs.«417626_j75007308858099_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

namespace Val3

open Val1 (broadcastTo_a1_ab_apply onehot_entry word_toNat node_word)

theorem N3 : cfg3.N = 43264 := Gen.N_3

theorem coords3_inner (t : Fin cfg3.N) : ((grid3.coords t) 1).val = t.val % 208 := by
  show t.val / grid3.stride 1 % 208 = t.val % 208
  have h : grid3.stride 1 = 1 := by decide
  rw [h, Nat.div_one]

theorem coords3_outer (t : Fin cfg3.N) : ((grid3.coords t) 0).val = t.val / 208 := by
  show t.val / grid3.stride 0 % 208 = t.val / 208
  have h : grid3.stride 0 = 208 := by decide
  have hN := N3
  have := t.isLt
  rw [h]; omega

abbrev idxA (c : Dev nD) : S1703936x1.Idx → BitVec 32 := V c main_v16
abbrev tnA (c : Dev nD) : S106496x4.Idx → EReal := V c main_v22
abbrev sfA (c : Dev nD) : S1703936x64.Idx → EReal := V c main_v18_0
abbrev scA (c : Dev nD) : S1703936x4.Idx → EReal := V c main_v18_1
abbrev gA (c : Dev nD) : S1x1.Idx → EReal := V c main_v21

theorem idx3_0 (t : Fin cfg3.N) : win3_0.index t 0 = t.val / 208 ∧ win3_0.index t 1 = 0 := by
  have hN := N3
  have := t.isLt
  refine ⟨?_, rfl⟩
  show (BitVec.ofNat 32 ((grid3.coords t) 0).val).toNat = _
  rw [coords3_outer, word_toNat _ (by omega)]
theorem idx3_1 (t : Fin cfg3.N) : win3_1.index t 0 = t.val % 208 ∧ win3_1.index t 1 = 0 := by
  refine ⟨?_, rfl⟩
  show (BitVec.ofNat 32 ((grid3.coords t) 1).val).toNat = _
  rw [coords3_inner, word_toNat _ (Nat.mod_lt _ (by decide))]
theorem idx3_2 (t : Fin cfg3.N) : win3_2.index t 0 = t.val / 208 ∧ win3_2.index t 1 = 0 := by
  have hN := N3
  have := t.isLt
  refine ⟨?_, rfl⟩
  show (BitVec.ofNat 32 ((grid3.coords t) 0).val).toNat = _
  rw [coords3_outer, word_toNat _ (by omega)]
theorem idx3_3 (t : Fin cfg3.N) : win3_3.index t 0 = t.val / 208 ∧ win3_3.index t 1 = 0 := by
  have hN := N3
  have := t.isLt
  refine ⟨?_, rfl⟩
  show (BitVec.ofNat 32 ((grid3.coords t) 0).val).toNat = _
  rw [coords3_outer, word_toNat _ (by omega)]
theorem idx3_5 (t : Fin cfg3.N) : win3_5.index t 0 = t.val / 208 ∧ win3_5.index t 1 = 0 := by
  have hN := N3
  have := t.isLt
  refine ⟨?_, rfl⟩
  show (BitVec.ofNat 32 ((grid3.coords t) 0).val).toNat = _
  rw [coords3_outer, word_toNat _ (by omega)]

theorem iblk3_0_apply (c : Dev nD) (t : Fin cfg3.N) (p : Fin 8192) (e : Fin 1703936)
    (he : e.val = t.val / 208 * 8192 + p.val) :
    (iblk3 V c 0 t : S8192x1.Idx → BitVec 32) (ix2 p 0) = idxA V c (ix2 e 0) := by
  obtain ⟨h0, h1⟩ := idx3_0 t
  unfold iblk3
  rw [View.read_apply]
  show V c main_v16 _ = V c main_v16 _
  congr 1
  funext a
  apply Fin.ext
  match a with
  | ⟨0, _⟩ => show win3_0.index t 0 * 8192 + 1 * p.val = e.val; rw [h0, he]; omega
  | ⟨1, _⟩ => show win3_0.index t 1 * 1 + 1 * 0 = 0; rw [h1]

theorem iblk3_1_apply (c : Dev nD) (t : Fin cfg3.N) (jj : Fin 512) (h : Fin 4) (n : Fin 106496)
    (hn : n.val = t.val % 208 * 512 + jj.val) :
    (iblk3 V c 1 t : S512x4.Idx → EReal) (ix2 jj h) = tnA V c (ix2 n h) := by
  obtain ⟨h0, h1⟩ := idx3_1 t
  unfold iblk3
  rw [View.read_apply]
  show V c main_v22 _ = V c main_v22 _
  congr 1
  funext a
  apply Fin.ext
  match a with
  | ⟨0, _⟩ => show win3_1.index t 0 * 512 + 1 * jj.val = n.val; rw [h0, hn]; omega
  | ⟨1, _⟩ => show win3_1.index t 1 * 4 + 1 * h.val = h.val; rw [h1]; omega

theorem iblk3_2_apply (c : Dev nD) (t : Fin cfg3.N) (p : Fin 8192) (q : Fin 64) (e : Fin 1703936)
    (he : e.val = t.val / 208 * 8192 + p.val) :
    (iblk3 V c 2 t : S8192x64.Idx → EReal) (ix2 p q) = sfA V c (ix2 e q) := by
  obtain ⟨h0, h1⟩ := idx3_2 t
  unfold iblk3
  rw [View.read_apply]
  show V c main_v18_0 _ = V c main_v18_0 _
  congr 1
  funext a
  apply Fin.ext
  match a with
  | ⟨0, _⟩ => show win3_2.index t 0 * 8192 + 1 * p.val = e.val; rw [h0, he]; omega
  | ⟨1, _⟩ => show win3_2.index t 1 * 64 + 1 * q.val = q.val; rw [h1]; omega

theorem iblk3_3_apply (c : Dev nD) (t : Fin cfg3.N) (p : Fin 8192) (h : Fin 4) (e : Fin 1703936)
    (he : e.val = t.val / 208 * 8192 + p.val) :
    (iblk3 V c 3 t : S8192x4.Idx → EReal) (ix2 p h) = scA V c (ix2 e h) := by
  obtain ⟨h0, h1⟩ := idx3_3 t
  unfold iblk3
  rw [View.read_apply]
  show V c main_v18_1 _ = V c main_v18_1 _
  congr 1
  funext a
  apply Fin.ext
  match a with
  | ⟨0, _⟩ => show win3_3.index t 0 * 8192 + 1 * p.val = e.val; rw [h0, he]; omega
  | ⟨1, _⟩ => show win3_3.index t 1 * 4 + 1 * h.val = h.val; rw [h1]; omega

theorem iblk3_4_apply (c : Dev nD) (t : Fin cfg3.N) :
    (iblk3 V c 4 t : S1x1.Idx → EReal) (ix2 0 0) = gA V c (ix2 0 0) := by
  unfold iblk3
  rw [View.read_apply]
  show V c main_v21 _ = V c main_v21 _
  congr 1
  funext a
  apply Fin.ext
  match a with
  | ⟨0, _⟩ => rfl
  | ⟨1, _⟩ => rfl

theorem gatherDot_apply (A : FVec Ideal S8192x512 .bf16) (B : FVec Ideal S512x4 .bf16) (p : Fin 8192) (h : Fin 4) :
    matmul dot_S8192x512_S512x4_S8192x4_1_0_0_1_n_n none A B (constant (F := Ideal) S8192x4 .f32 0x00000000#32) (ix2 p h)
      = ∑ jj : Fin 512, A (ix2 p jj) * B (ix2 jj h) := by
  show FloatOps.matmul _ none A B _ (ix2 p h) = _
  rw [Ideal.matmul_constant_zero_apply,
    ← Equiv.sum_comp (contrEquiv1 dot_S8192x512_S512x4_S8192x4_1_0_0_1_n_n 512 rfl rfl).symm]
  refine Finset.sum_congr rfl fun jj _ => ?_
  have c2 := contrEquiv1_symm_val dot_S8192x512_S512x4_S8192x4_1_0_0_1_n_n 512 rfl rfl jj
  have l2 : dot_S8192x512_S512x4_S8192x4_1_0_0_1_n_n.lhsIdx (ix2 p h) ((contrEquiv1 _ 512 rfl rfl).symm jj) = ix2 p jj := by
    funext ax; apply Fin.ext
    match ax with
    | ⟨0, _⟩ => simp [DotDims.lhsIdx, dot_S8192x512_S512x4_S8192x4_1_0_0_1_n_n]; rfl
    | ⟨1, _⟩ => simp [DotDims.lhsIdx, dot_S8192x512_S512x4_S8192x4_1_0_0_1_n_n]; exact c2
  have r2 : dot_S8192x512_S512x4_S8192x4_1_0_0_1_n_n.rhsIdx (ix2 p h) ((contrEquiv1 _ 512 rfl rfl).symm jj) = ix2 jj h := by
    funext ax; apply Fin.ext
    match ax with
    | ⟨0, _⟩ => simp [DotDims.rhsIdx, dot_S8192x512_S512x4_S8192x4_1_0_0_1_n_n]; exact c2
    | ⟨1, _⟩ => simp [DotDims.rhsIdx, dot_S8192x512_S512x4_S8192x4_1_0_0_1_n_n]; rfl
  rw [l2, r2]

theorem hot_row (X Y : IVec S8192x512 32) (h1 : 1 < 32) (h2 : FTy.bf16.bits < FTy.f32.bits) (p : Fin 8192) (jj : Fin 512)
    (a w : BitVec 32) (hX : X (ix2 p jj) = a) (hY : Y (ix2 p jj) = w) :
    (truncf .bf16 (sitofp (F := Ideal) .f32 (extui 32 (cmpi .eq X Y) h1)) h2 : FVec Ideal S8192x512 .bf16) (ix2 p jj)
      = if a = w then 1 else 0 := by
  subst hX hY
  exact onehot_entry _ _

theorem pay2_apply (i : grid3.Coords) (v3 : Vec Ideal S8192x1 .i32) (v15 : Vec Ideal S512x4 .f32)
    (v18 : Vec Ideal S8192x4 .f32) (p : Fin 8192) (h : Fin 4) :
    k3_pay2 i v3 v15 v18 (ix2 p h)
      = v18 (ix2 p h) + ∑ jj : Fin 512, Cert.Spec.oh (v3 (ix2 p 0)) ((i 1).val * 512 + jj.val) * v15 (ix2 jj h) := by
  unfold k3_pay2
  simp only [shapeCast_self]
  refine (addf_apply _ _ (ix2 p h)).trans ?_
  refine congrArg (v18 (ix2 p h) + ·) ?_
  refine (gatherDot_apply _ _ p h).trans ?_
  refine Finset.sum_congr rfl fun jj _ => ?_
  refine congrArg₂ (· * ·) ?_ rfl
  exact hot_row _ _ _ _ p jj (v3 (ix2 p 0)) (BitVec.ofNat 32 ((i 1).val * 512 + jj.val))
    (broadcastTo_a1_ab_apply _ _ p jj)
    ((broadcastTo_1b_ab_apply _ _ p jj).trans
      ((congrArg (IntOp.addi · _) (iota_single_apply .tc S1x512 32 1 _ (ix2 (0 : Fin 1) jj))).trans
        (node_word (i 1).val jj.val)))

theorem pay1_apply (p : Fin 8192) (h : Fin 4) : (k3_pay1 (F := Ideal)) (ix2 p h) = 0 := by
  unfold k3_pay1
  rw [shapeCast_self]
  exact Ideal.ofBits_zero_f32

theorem head_piece (X : FVec Ideal S8192x64 .f32) (Y : FVec Ideal S8192x4 .f32) (o k : ℕ)
    (hs : S8192x64.Slices ![0, o] S8192x16) (ht : S8192x4.Slices ![0, k] S8192x1) (hb : S8192x1.Broadcasts S8192x16)
    (p : Fin 8192) (f : Fin 16) (q : Fin 64) (h : Fin 4) (hq : q.val = o + f.val) (hh : h.val = k) :
    mulf (extractStridedSlice S8192x16 ![0, o] X hs) (broadcastTo S8192x16 (extractStridedSlice S8192x1 ![0, k] Y ht) hb) (ix2 p f)
      = X (ix2 p q) * Y (ix2 p h) := by
  refine (mulf_apply _ _ (ix2 p f)).trans ?_
  refine congrArg₂ (· * ·) (slice2_axis1_apply o X hs p f q hq) ?_
  refine (broadcastTo_a1_ab_apply _ hb p f).trans ?_
  exact slice2_axis1_apply k Y ht p (0 : Fin 1) h (by rw [hh]; rfl)

theorem weight_entry (acc sc : FVec Ideal S8192x4 .f32) (g : FVec Ideal S1x1 .f32)
    (hp : ∀ a, (![0, 0] : Fin 2 → ℕ) a < S1x1.size a) (p : Fin 8192) (h : Fin 4) :
    divf (exp (subf sc (broadcast S8192x4 (extractAt ![0, 0] g hp))))
        (addf acc (broadcast S8192x4 (Scalar.ofBits (F := Ideal) .f32 0x2EDBE6FF#32))) (ix2 p h)
      = Ideal.div (Ideal.exp (sc (ix2 p h) - g (ix2 0 0))) (acc (ix2 p h) + Ideal.ofBits .f32 0x2EDBE6FF#32) := by
  have e : extractAt ![0, 0] g hp = g (ix2 0 0) :=
    congrArg g (funext fun a => Fin.ext (by match a with | ⟨0, _⟩ => rfl | ⟨1, _⟩ => rfl))
  show Ideal.div (Ideal.exp (sc (ix2 p h) - extractAt ![0, 0] g hp)) (acc (ix2 p h) + Ideal.ofBits .f32 0x2EDBE6FF#32) = _
  rw [e]

theorem concat4_apply (x0 x1 x2 x3 : FVec Ideal S8192x16 .f32)
    (hc : Shape.Concatenates (([⟨S8192x16, x0⟩, ⟨S8192x16, x1⟩, ⟨S8192x16, x2⟩, ⟨S8192x16, x3⟩] :
      List ((s : Shape) × (s.Idx → Ideal .f32))).map (·.1)) S8192x64 1) (p : Fin 8192) (h : Fin 4) (f : Fin 16) :
    concatenate S8192x64 1 [⟨S8192x16, x0⟩, ⟨S8192x16, x1⟩, ⟨S8192x16, x2⟩, ⟨S8192x16, x3⟩] hc (ix2 p (Cert.Spec.col h f))
      = (![x0, x1, x2, x3] h) (ix2 p f) := by
  have hoff : ∀ b : Fin S8192x16.rank, b.cast (rfl : S8192x16.rank = S8192x64.rank) ≠ (1 : Fin 2) →
      ((ix2 p f : S8192x16.Idx) b).val = ((ix2 p (Cert.Spec.col h f) : S8192x64.Idx) (b.cast rfl)).val := by
    intro b hb
    match b with
    | ⟨0, _⟩ => rfl
    | ⟨1, _⟩ => exact absurd rfl hb
  match h with
  | ⟨0, _⟩ =>
    exact concatenate_apply_piece (t := S8192x64) (1 : Fin 2) [⟨S8192x16, x0⟩, ⟨S8192x16, x1⟩, ⟨S8192x16, x2⟩, ⟨S8192x16, x3⟩] hc (ix2 p (Cert.Spec.col _ f)) 0 (by show 0 < 4; omega) S8192x16 x0 rfl rfl 0 rfl (ix2 p f) hoff
      (by show 0 + f.val = 0 * 16 + f.val; omega)
  | ⟨1, _⟩ =>
    exact concatenate_apply_piece (t := S8192x64) (1 : Fin 2) [⟨S8192x16, x0⟩, ⟨S8192x16, x1⟩, ⟨S8192x16, x2⟩, ⟨S8192x16, x3⟩] hc (ix2 p (Cert.Spec.col _ f)) 1 (by show 1 < 4; omega) S8192x16 x1 rfl rfl 16 rfl (ix2 p f) hoff
      (by show 16 + f.val = 1 * 16 + f.val; omega)
  | ⟨2, _⟩ =>
    exact concatenate_apply_piece (t := S8192x64) (1 : Fin 2) [⟨S8192x16, x0⟩, ⟨S8192x16, x1⟩, ⟨S8192x16, x2⟩, ⟨S8192x16, x3⟩] hc (ix2 p (Cert.Spec.col _ f)) 2 (by show 2 < 4; omega) S8192x16 x2 rfl rfl 32 rfl (ix2 p f) hoff
      (by show 32 + f.val = 2 * 16 + f.val; omega)
  | ⟨3, _⟩ =>
    exact concatenate_apply_piece (t := S8192x64) (1 : Fin 2) [⟨S8192x16, x0⟩, ⟨S8192x16, x1⟩, ⟨S8192x16, x2⟩, ⟨S8192x16, x3⟩] hc (ix2 p (Cert.Spec.col _ f)) 3 (by show 3 < 4; omega) S8192x16 x3 rfl rfl 48 rfl (ix2 p f) hoff
      (by show 48 + f.val = 3 * 16 + f.val; omega)

theorem narrow_apply (X : FVec Ideal S8192x64 .f32) (hb : FTy.bf16.bits < FTy.f32.bits) (j : S8192x64.Idx) :
    (truncf .bf16 X hb : FVec Ideal S8192x64 .bf16) j = X j := rfl

theorem pay3_apply (acc sc : Vec Ideal S8192x4 .f32) (g : Vec Ideal S1x1 .f32) (sf : Vec Ideal S8192x64 .bf16)
    (p : Fin 8192) (h : Fin 4) (f : Fin 16) :
    k3_pay3 acc sc g sf (ix2 p (Cert.Spec.col h f))
      = sf (ix2 p (Cert.Spec.col h f))
        * Ideal.div (Ideal.exp (sc (ix2 p h) - g (ix2 0 0))) (acc (ix2 p h) + Ideal.ofBits .f32 0x2EDBE6FF#32) := by
  unfold k3_pay3
  refine (narrow_apply _ _ (ix2 p (Cert.Spec.col h f))).trans ?_
  refine (concat4_apply _ _ _ _ _ p h f).trans ?_
  match h with
  | ⟨0, h0⟩ =>
    refine (head_piece _ _ 0 0 _ _ _ p f (Cert.Spec.col ⟨0, h0⟩ f) ⟨0, h0⟩ (by show 0 * 16 + f.val = 0 + f.val; omega) rfl).trans ?_
    simp only [shapeCast_self]
    exact congrArg (sf (ix2 p (Cert.Spec.col ⟨0, h0⟩ f)) * ·) (weight_entry acc sc g _ p ⟨0, h0⟩)
  | ⟨1, h0⟩ =>
    refine (head_piece _ _ 16 1 _ _ _ p f (Cert.Spec.col ⟨1, h0⟩ f) ⟨1, h0⟩ (by show 1 * 16 + f.val = 16 + f.val; omega) rfl).trans ?_
    simp only [shapeCast_self]
    exact congrArg (sf (ix2 p (Cert.Spec.col ⟨1, h0⟩ f)) * ·) (weight_entry acc sc g _ p ⟨1, h0⟩)
  | ⟨2, h0⟩ =>
    refine (head_piece _ _ 32 2 _ _ _ p f (Cert.Spec.col ⟨2, h0⟩ f) ⟨2, h0⟩ (by show 2 * 16 + f.val = 32 + f.val; omega) rfl).trans ?_
    simp only [shapeCast_self]
    exact congrArg (sf (ix2 p (Cert.Spec.col ⟨2, h0⟩ f)) * ·) (weight_entry acc sc g _ p ⟨2, h0⟩)
  | ⟨3, h0⟩ =>
    refine (head_piece _ _ 48 3 _ _ _ p f (Cert.Spec.col ⟨3, h0⟩ f) ⟨3, h0⟩ (by show 3 * 16 + f.val = 48 + f.val; omega) rfl).trans ?_
    simp only [shapeCast_self]
    exact congrArg (sf (ix2 p (Cert.Spec.col ⟨3, h0⟩ f)) * ·) (weight_entry acc sc g _ p ⟨3, h0⟩)

def gterm (c : Dev nD) (e : Fin 1703936) (h : Fin 4) (t' : ℕ) : EReal :=
  if ht : t' < 208 then
    ∑ jj : Fin 512, Cert.Spec.oh (idxA V c (ix2 e 0)) (Cert.Spec.node ⟨t', ht⟩ jj).val
      * tnA V c (ix2 (Cert.Spec.node ⟨t', ht⟩ jj) h)
  else 0

theorem step3 (c : Dev nD) (t : Fin cfg3.N) (prev : Vec Ideal S8192x4 .f32) (p : Fin 8192) (h : Fin 4)
    (e : Fin 1703936) (he : e.val = t.val / 208 * 8192 + p.val) :
    k3_pay2 (grid3.coords t) (iblk3 V c 0 t) (iblk3 V c 1 t) prev (ix2 p h)
      = prev (ix2 p h) + gterm V c e h (t.val % 208) := by
  refine (pay2_apply (grid3.coords t) (iblk3 V c 0 t) (iblk3 V c 1 t) prev p h).trans ?_
  refine congrArg (prev (ix2 p h) + ·) ?_
  have hlt : t.val % 208 < 208 := Nat.mod_lt _ (by decide)
  unfold gterm
  rw [dif_pos hlt]
  refine Finset.sum_congr rfl fun jj _ => ?_
  rw [iblk3_0_apply V c t p e he, iblk3_1_apply V c t jj h (Cert.Spec.node ⟨t.val % 208, hlt⟩ jj) rfl, coords3_inner]
  rfl

theorem acc3_closed (c : Dev nD) : ∀ (n : ℕ) (hn : n < cfg3.N) (p : Fin 8192) (h : Fin 4) (e : Fin 1703936),
    e.val = n / 208 * 8192 + p.val →
    acc3 V c n hn (ix2 p h) = ∑ t' ∈ Finset.range (n % 208 + 1), gterm V c e h t' := by
  intro n
  induction n with
  | zero =>
    intro hn p h e he
    have h0 : (⟨0, hn⟩ : Fin cfg3.N).val % 208 = 0 := rfl
    rw [show acc3 V c 0 hn = _ from acc3_first V c ⟨0, hn⟩ h0]
    refine (step3 V c ⟨0, hn⟩ (k3_pay1 (F := Ideal)) p h e he).trans ?_
    rw [pay1_apply, zero_add]
    show gterm V c e h 0 = ∑ t' ∈ Finset.range 1, gterm V c e h t'
    rw [Finset.sum_range_one]
  | succ n ih =>
    intro hn p h e he
    by_cases hm : (n + 1) % 208 = 0
    · rw [show acc3 V c (n + 1) hn = _ from acc3_first V c ⟨n + 1, hn⟩ hm]
      refine (step3 V c ⟨n + 1, hn⟩ (k3_pay1 (F := Ideal)) p h e he).trans ?_
      rw [pay1_apply, zero_add]
      show gterm V c e h ((n + 1) % 208) = _
      rw [hm, Finset.sum_range_one]
    · rw [show acc3 V c (n + 1) hn = _ from acc3_next V c ⟨n + 1, hn⟩ hm]
      refine (step3 V c ⟨n + 1, hn⟩ _ p h e he).trans ?_
      show acc3 V c n _ (ix2 p h) + gterm V c e h ((n + 1) % 208) = _
      have e1 : n % 208 + 1 = (n + 1) % 208 := by omega
      have hd : (n + 1) / 208 = n / 208 := by omega
      have he' : e.val = n / 208 * 8192 + p.val := by rw [← hd]; exact he
      rw [ih _ p h e he', e1]
      exact (Finset.sum_range_succ _ _).symm

theorem acc3_last (c : Dev nD) (t : Fin cfg3.N) (hm : t.val % 208 = 207) (p : Fin 8192) (h : Fin 4)
    (e : Fin 1703936) (he : e.val = t.val / 208 * 8192 + p.val) :
    acc3 V c t.val t.isLt (ix2 p h)
      = Cert.Spec.gath (fun e => idxA V c (ix2 e 0)) (fun j h => tnA V c (ix2 j h)) e h := by
  rw [acc3_closed V c t.val t.isLt p h e he, hm]
  show ∑ t' ∈ Finset.range 208, gterm V c e h t' = _
  rw [Finset.sum_range]
  unfold Cert.Spec.gath
  refine Finset.sum_congr rfl fun t' _ => ?_
  unfold gterm
  rw [dif_pos t'.isLt]

def out3 (c : Dev nD) : S1703936x64.Idx → EReal := fun i =>
  Cert.Spec.wfeat (fun e q => sfA V c (ix2 e q))
    (Cert.Spec.alpha (fun e h => scA V c (ix2 e h)) (gA V c (ix2 0 0))
      (Cert.Spec.gath (fun e => idxA V c (ix2 e 0)) (fun j h => tnA V c (ix2 j h))))
    ⟨(i 0).val, idx2_lt0 i⟩ ⟨(i 1).val / 16, by have := idx2_lt1 i; omega⟩ ⟨(i 1).val % 16, Nat.mod_lt _ (by decide)⟩

theorem out3_apply (c : Dev nD) (e : Fin 1703936) (h : Fin 4) (f : Fin 16) :
    out3 V c (ix2 e (Cert.Spec.col h f))
      = Cert.Spec.wfeat (fun e q => sfA V c (ix2 e q))
          (Cert.Spec.alpha (fun e h => scA V c (ix2 e h)) (gA V c (ix2 0 0))
            (Cert.Spec.gath (fun e => idxA V c (ix2 e 0)) (fun j h => tnA V c (ix2 j h)))) e h f := by
  have hh : (⟨(h.val * 16 + f.val) / 16, by have := h.isLt; have := f.isLt; omega⟩ : Fin 4) = h :=
    Fin.ext (by show (h.val * 16 + f.val) / 16 = h.val; have := f.isLt; omega)
  have hf : (⟨(h.val * 16 + f.val) % 16, Nat.mod_lt _ (by decide)⟩ : Fin 16) = f :=
    Fin.ext (by show (h.val * 16 + f.val) % 16 = f.val; have := f.isLt; omega)
  show Cert.Spec.wfeat _ _ ⟨e.val, _⟩ ⟨(h.val * 16 + f.val) / 16, _⟩ ⟨(h.val * 16 + f.val) % 16, _⟩ = _
  rw [hh, hf]

theorem out3_blk (c : Dev nD) (t : Fin cfg3.N) (p : Fin 8192) (q : Fin 64) (e : Fin 1703936)
    (he : e.val = t.val / 208 * 8192 + p.val) :
    ((cfg3.win 5).blk t).view.read (Elt Ideal) (out3 V c) (ix2 p q) = out3 V c (ix2 e q) := by
  obtain ⟨h0, h1⟩ := idx3_5 t
  rw [View.read_apply]
  show out3 V c _ = out3 V c _
  congr 1
  funext a
  apply Fin.ext
  match a with
  | ⟨0, _⟩ => show win3_5.index t 0 * 8192 + 1 * p.val = e.val; rw [h0, he]; omega
  | ⟨1, _⟩ => show win3_5.index t 1 * 64 + 1 * q.val = q.val; rw [h1]; omega

theorem flushed3_5 (c : Dev nD) (t : Fin cfg3.N) (hf : (cfg3.win 5).flush t = true) :
    (dat3 (F := Ideal) V c).flushed 5 t = ((cfg3.win 5).blk t).view.read (Elt Ideal) (out3 V c) := by
  have hm : t.val % 208 = 207 := (GenP.flush3_5 t).mp hf
  have hN := N3
  have htl := t.isLt
  show (cfg3.win 5).cut (grid3.coords t) ((dat3 (F := Ideal) V c).after 5 t) = _
  rw [after3_5_last V c t hm]
  funext j
  obtain ⟨p, q, rfl⟩ : ∃ (p : Fin 8192) (q : Fin 64), j = ix2 p q := ⟨j 0, j 1, eq_ix2 j⟩
  obtain ⟨h, f, rfl⟩ : ∃ (h : Fin 4) (f : Fin 16), q = Cert.Spec.col h f :=
    ⟨⟨q.val / 16, by have := q.isLt; omega⟩, ⟨q.val % 16, Nat.mod_lt _ (by decide)⟩,
      Fin.ext (by show q.val = q.val / 16 * 16 + q.val % 16; omega)⟩
  have hp := p.isLt
  refine Eq.trans ?_ (out3_blk V c t p (Cert.Spec.col h f) ⟨t.val / 208 * 8192 + p.val, by omega⟩ rfl).symm
  rw [out3_apply]
  show k3_pay3 (acc3 V c t.val t.isLt) (iblk3 V c 3 t) (iblk3 V c 4 t) (iblk3 V c 2 t) (ix2 p (Cert.Spec.col h f)) = _
  refine (pay3_apply (acc3 V c t.val t.isLt) (iblk3 V c 3 t) (iblk3 V c 4 t) (iblk3 V c 2 t) p h f).trans ?_
  rw [iblk3_2_apply V c t p (Cert.Spec.col h f) ⟨t.val / 208 * 8192 + p.val, by omega⟩ rfl,
    iblk3_3_apply V c t p h ⟨t.val / 208 * 8192 + p.val, by omega⟩ rfl, iblk3_4_apply V c t,
    acc3_last V c t hm p h ⟨t.val / 208 * 8192 + p.val, by omega⟩ rfl]
  rfl

theorem cover3_5 (i : S1703936x64.Idx) :
    ∃ t : Fin cfg3.N, (cfg3.win 5).flush t = true ∧ i ∈ ((cfg3.win 5).blk t).view.set := by
  have hN := N3
  have h0 : (i 0).val < 1703936 := idx2_lt0 i
  have h1 : (i 1).val < 64 := idx2_lt1 i
  obtain ⟨t, htv⟩ : ∃ t : Fin cfg3.N, t.val = (i 0).val / 8192 * 208 + 207 :=
    ⟨⟨(i 0).val / 8192 * 208 + 207, by omega⟩, rfl⟩
  refine ⟨t, (GenP.flush3_5 t).mpr (by omega), ?_⟩
  obtain ⟨e0, e1⟩ := idx3_5 t
  show i ∈ ((View.whole main_v23).slice (win3_5.rect t)).set
  rw [View.set_slice_whole, Rect.mem_set_unit]
  intro a
  match a with
  | ⟨0, _⟩ =>
    show win3_5.index t 0 * 8192 ≤ (i 0).val ∧ (i 0).val < win3_5.index t 0 * 8192 + 8192
    rw [e0]; omega
  | ⟨1, _⟩ =>
    show win3_5.index t 1 * 64 ≤ (i 1).val ∧ (i 1).val < win3_5.index t 1 * 64 + 64
    rw [e1]; omega

end Val3

theorem final3_5 (c : Dev nD) (e : Fin 1703936) (h : Fin 4) (f : Fin 16) : (dat3 (F := Ideal) V c).arrAt 5 cfg3.N (ix2 e (Cert.Spec.col h f)) = Cert.Spec.wfeat (fun e q => (V c main_v18_0 : S1703936x64.Idx → EReal) (ix2 e q)) (Cert.Spec.alpha (fun e h => (V c main_v18_1 : S1703936x4.Idx → EReal) (ix2 e h)) ((V c main_v21 : S1x1.Idx → EReal) (ix2 0 0)) (Cert.Spec.gath (fun e => (V c main_v16 : S1703936x1.Idx → BitVec 32) (ix2 e 0)) (fun j h => (V c main_v22 : S106496x4.Idx → EReal) (ix2 j h)))) e h f := by
  have hfin : (dat3 (F := Ideal) V c).arrAt 5 cfg3.N = Val3.out3 V c :=
    (dat3 (F := Ideal) V c).arrAt_eq_of_cover 5 (Val3.out3 V c) (fun t hf => Val3.flushed3_5 V c t hf) Val3.cover3_5
  rw [hfin]
  exact Val3.out3_apply V c e h f

end Cert.KernelIdeal.Hand

end
-- ==== Proof.KI.Val4.lean ====
import proofs.«417626_j75007308858099_3_alg».proof.Proof.KI.Reg4
import proofs.«417626_j75007308858099_3_alg».proof.Proof.KIPoints
import proofs.«417626_j75007308858099_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Idealize.ShloMosaic.Pipeline (Dat)

theorem colBcast4_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem dot4_apply (A : FVec Ideal S512x8192 .bf16) (B : FVec Ideal S8192x64 .bf16) (p : Fin 512) (q : Fin 64) :
    matmul dot_S512x8192_S8192x64_S512x64_1_0_0_1_n_n none A B (constant (F := Ideal) S512x64 .f32 0x00000000#32) (ix2 p q)
      = ∑ e : Fin 8192, A (ix2 p e) * B (ix2 e q) := by
  refine (Ideal.matmul_constant_zero_apply dot_S512x8192_S8192x64_S512x64_1_0_0_1_n_n none A B (ix2 p q)).trans ?_
  rw [← Equiv.sum_comp (contrEquiv1 dot_S512x8192_S8192x64_S512x64_1_0_0_1_n_n 8192 rfl rfl).symm]
  refine Finset.sum_congr rfl fun e _ => ?_
  have ce := contrEquiv1_symm_val dot_S512x8192_S8192x64_S512x64_1_0_0_1_n_n 8192 rfl rfl e
  have hl : dot_S512x8192_S8192x64_S512x64_1_0_0_1_n_n.lhsIdx (ix2 p q)
      ((contrEquiv1 dot_S512x8192_S8192x64_S512x64_1_0_0_1_n_n 8192 rfl rfl).symm e) = ix2 p e := by
    funext ax; apply Fin.ext
    match ax with
    | ⟨0, _⟩ => simp [DotDims.lhsIdx, dot_S512x8192_S8192x64_S512x64_1_0_0_1_n_n]; rfl
    | ⟨1, _⟩ => simp [DotDims.lhsIdx, dot_S512x8192_S8192x64_S512x64_1_0_0_1_n_n]; exact ce
  have hr : dot_S512x8192_S8192x64_S512x64_1_0_0_1_n_n.rhsIdx (ix2 p q)
      ((contrEquiv1 dot_S512x8192_S8192x64_S512x64_1_0_0_1_n_n 8192 rfl rfl).symm e) = ix2 e q := by
    funext ax; apply Fin.ext
    match ax with
    | ⟨0, _⟩ => simp [DotDims.rhsIdx, dot_S512x8192_S8192x64_S512x64_1_0_0_1_n_n]; exact ce
    | ⟨1, _⟩ => simp [DotDims.rhsIdx, dot_S512x8192_S8192x64_S512x64_1_0_0_1_n_n]; rfl
  rw [hl, hr]

theorem nodeWord4 (nb : ℕ) (p : ℕ) :
    IntOp.addi (BitVec.ofNat 32 p) (Scalar.muli (BitVec.ofNat 32 nb) 512#32) = BitVec.ofNat 32 (nb * 512 + p) := by
  show BitVec.ofNat 32 p + BitVec.ofNat 32 nb * BitVec.ofNat 32 512 = _
  rw [← BitVec.ofNat_mul, ← BitVec.ofNat_add, Nat.add_comm]

theorem oneHot4 (x y : BitVec 32) :
    (FloatOps.sitofp (F := Ideal) .f32 ((IntOp.cmpi .eq x y).setWidth 32) : EReal) = if y = x then 1 else 0 := by
  show ((((BitVec.ofBool (x == y)).setWidth 32).toInt : ℝ) : EReal) = _
  by_cases h : y = x
  · subst h
    rw [if_pos rfl, beq_self_eq_true]
    have : ((BitVec.ofBool true).setWidth 32).toInt = 1 := by decide
    rw [this]; simp
  · rw [if_neg h]
    have hb : (x == y) = false := by
      rw [beq_eq_false_iff_ne]; exact fun e => h e.symm
    rw [hb]
    have : ((BitVec.ofBool false).setWidth 32).toInt = 0 := by decide
    rw [this]; simp

theorem k4_pay2_apply (i : grid4.Coords) (v7 : Vec Ideal S1x8192 .i32) (v15 : Vec Ideal S8192x64 .bf16)
    (v17 : Vec Ideal S512x64 .f32) (p : Fin 512) (q : Fin 64) :
    Gen.k4_pay2 i v7 v15 v17 (ix2 p q)
      = v17 (ix2 p q) + ∑ e : Fin 8192, Cert.Spec.oh (v7 (ix2 (0 : Fin 1) e)) ((i 0).val * 512 + p.val) * v15 (ix2 e q) := by
  unfold Gen.k4_pay2
  simp only [shapeCast_self]
  refine congrArg (v17 (ix2 p q) + ·) ?_
  refine (dot4_apply _ _ p q).trans ?_
  refine Finset.sum_congr rfl fun e _ => ?_
  refine congrArg (· * v15 (ix2 e q)) ?_
  have hrow : broadcastTo S512x8192
      (addi (iota Kind.tc S512x1 32 [0] iota_S512x1_d0_w32) (broadcast S512x1 (Scalar.muli (BitVec.ofNat 32 (i 0).val) 512#32)))
      broadcasts_S512x1_S512x8192 (ix2 p e) = BitVec.ofNat 32 ((i 0).val * 512 + p.val) := by
    refine (colBcast4_apply _ _ p e).trans ?_
    show IntOp.addi (iota Kind.tc S512x1 32 [0] iota_S512x1_d0_w32 (ix2 p (0 : Fin 1)))
      (Scalar.muli (BitVec.ofNat 32 (i 0).val) 512#32) = _
    rw [iota_single_apply]
    exact nodeWord4 _ _
  have hcol : broadcastTo S512x8192 v7 broadcasts_S1x8192_S512x8192 (ix2 p e) = v7 (ix2 (0 : Fin 1) e) :=
    broadcastTo_1b_ab_apply v7 _ p e
  show FloatOps.sitofp (F := Ideal) .f32 ((IntOp.cmpi .eq
      (broadcastTo S512x8192
        (addi (iota Kind.tc S512x1 32 [0] iota_S512x1_d0_w32) (broadcast S512x1 (Scalar.muli (BitVec.ofNat 32 (i 0).val) 512#32)))
        broadcasts_S512x1_S512x8192 (ix2 p e))
      (broadcastTo S512x8192 v7 broadcasts_S1x8192_S512x8192 (ix2 p e))).setWidth 32) = _
  rw [hrow, hcol]
  exact oneHot4 _ _

theorem k4_pay1_apply (p : Fin 512) (q : Fin 64) : (Gen.k4_pay1 (F := Ideal)) (ix2 p q) = 0 := by
  unfold Gen.k4_pay1
  simp only [shapeCast_self]
  exact Ideal.ofBits_zero_f32

variable (V : (c : Dev nD) → (b : Ref sig .tc) → Buf (Elt Ideal) ((c : Thread nD τ).loc b))

theorem stride4_0 : grid4.stride 0 = 208 := by decide
theorem stride4_1 : grid4.stride 1 = 1 := by decide

theorem coords4_0 (t : Fin cfg4.N) : (grid4.coords t 0).val = t.val / 208 := by
  have hN : grid4.N = 43264 := Gen.N_4
  have ht : t.val < grid4.N := t.isLt
  show t.val / grid4.stride 0 % 208 = _
  rw [stride4_0]; omega

theorem coords4_1 (t : Fin cfg4.N) : (grid4.coords t 1).val = t.val % 208 := by
  show t.val / grid4.stride 1 % 208 = _
  rw [stride4_1, Nat.div_one]

theorem index4_0 (t : Fin cfg4.N) : win4_0.index t 0 = 0 ∧ win4_0.index t 1 = t.val % 208 := by
  refine ⟨rfl, ?_⟩
  show (BitVec.ofNat 32 (grid4.coords t 1).val).toNat = _
  rw [coords4_1, BitVec.toNat_ofNat]
  omega

theorem index4_1 (t : Fin cfg4.N) : win4_1.index t 0 = t.val % 208 ∧ win4_1.index t 1 = 0 := by
  refine ⟨?_, rfl⟩
  show (BitVec.ofNat 32 (grid4.coords t 1).val).toNat = _
  rw [coords4_1, BitVec.toNat_ofNat]
  omega

theorem index4_2 (t : Fin cfg4.N) : win4_2.index t 0 = t.val / 208 ∧ win4_2.index t 1 = 0 := by
  refine ⟨?_, rfl⟩
  have hN : grid4.N = 43264 := Gen.N_4
  have ht : t.val < grid4.N := t.isLt
  show (BitVec.ofNat 32 (grid4.coords t 0).val).toNat = _
  rw [coords4_0, BitVec.toNat_ofNat]
  omega

theorem iblk4_0_apply (c : Dev nD) (t : Fin cfg4.N) (ee : Fin 8192) :
    (iblk4 V c 0 t : Vec Ideal S1x8192 .i32) (ix2 (0 : Fin 1) ee)
      = (V c main_v17 : S1x1703936.Idx → BitVec 32) (ix2 (0 : Fin 1) (Cert.Spec.edge ⟨t.val % 208, Nat.mod_lt _ (by decide)⟩ ee)) := by
  unfold iblk4
  rw [View.read_apply]
  show V c main_v17 _ = V c main_v17 _
  congr 1
  funext a
  apply Fin.ext
  match a with
  | ⟨0, _⟩ =>
    show win4_0.index t 0 * 1 + 1 * 0 = 0
    rw [(index4_0 t).1]
  | ⟨1, _⟩ =>
    show win4_0.index t 1 * 8192 + 1 * ee.val = t.val % 208 * 8192 + ee.val
    rw [(index4_0 t).2]; omega

theorem iblk4_1_apply (c : Dev nD) (t : Fin cfg4.N) (ee : Fin 8192) (q : Fin 64) :
    (iblk4 V c 1 t : Vec Ideal S8192x64 .bf16) (ix2 ee q)
      = (V c main_v23 : S1703936x64.Idx → EReal) (ix2 (Cert.Spec.edge ⟨t.val % 208, Nat.mod_lt _ (by decide)⟩ ee) q) := by
  unfold iblk4
  rw [View.read_apply]
  show V c main_v23 _ = V c main_v23 _
  congr 1
  funext a
  apply Fin.ext
  match a with
  | ⟨0, _⟩ =>
    show win4_1.index t 0 * 8192 + 1 * ee.val = t.val % 208 * 8192 + ee.val
    rw [(index4_1 t).1]; omega
  | ⟨1, _⟩ =>
    show win4_1.index t 1 * 64 + 1 * q.val = q.val
    rw [(index4_1 t).2]; omega

abbrev idx4 (c : Dev nD) : Fin 1703936 → BitVec 32 :=
  fun e => (V c main_v17 : S1x1703936.Idx → BitVec 32) (ix2 (0 : Fin 1) e)
abbrev val4 (c : Dev nD) : Fin 1703936 → Fin 64 → EReal :=
  fun e q => (V c main_v23 : S1703936x64.Idx → EReal) (ix2 e q)

def tile4 (c : Dev nD) (n : ℕ) (q : Fin 64) (s : ℕ) : EReal :=
  if h : s < 208 then
    ∑ ee : Fin 8192, Cert.Spec.oh (idx4 V c (Cert.Spec.edge ⟨s, h⟩ ee)) n * val4 V c (Cert.Spec.edge ⟨s, h⟩ ee) q
  else 0

theorem point4 (c : Dev nD) (t : Fin cfg4.N) (X : Vec Ideal S512x64 .f32) (p : Fin 512) (q : Fin 64) :
    Gen.k4_pay2 (grid4.coords t) (iblk4 V c 0 t) (iblk4 V c 1 t) X (ix2 p q)
      = X (ix2 p q) + tile4 V c (t.val / 208 * 512 + p.val) q (t.val % 208) := by
  refine (k4_pay2_apply _ _ _ X p q).trans ?_
  refine congrArg (X (ix2 p q) + ·) ?_
  unfold tile4
  rw [dif_pos (Nat.mod_lt _ (by decide)), coords4_0]
  refine Finset.sum_congr rfl fun ee _ => ?_
  rw [iblk4_0_apply, iblk4_1_apply]

theorem acc4_at_first (c : Dev nD) (t : Fin cfg4.N) (h0 : t.val % 208 = 0) (p : Fin 512) (q : Fin 64) :
    acc4 V c t.val t.isLt (ix2 p q) = tile4 V c (t.val / 208 * 512 + p.val) q 0 := by
  rw [acc4_first V c t h0]
  refine (point4 V c t _ p q).trans ?_
  rw [k4_pay1_apply, zero_add, h0]

theorem acc4_at_next (c : Dev nD) (t : Fin cfg4.N) (h : t.val % 208 ≠ 0) (p : Fin 512) (q : Fin 64) :
    acc4 V c t.val t.isLt (ix2 p q)
      = acc4 V c (t.val - 1) (by have := t.isLt; omega) (ix2 p q) + tile4 V c (t.val / 208 * 512 + p.val) q (t.val % 208) := by
  rw [acc4_next V c t h]
  exact point4 V c t _ p q

theorem acc4_closed (c : Dev nD) : ∀ (t : ℕ) (h : t < cfg4.N) (p : Fin 512) (q : Fin 64),
    acc4 V c t h (ix2 p q) = ∑ s ∈ Finset.range (t % 208 + 1), tile4 V c (t / 208 * 512 + p.val) q s
  | 0, h, p, q => by
    have e := acc4_at_first V c ⟨0, h⟩ rfl p q
    rw [show (0 : ℕ) % 208 + 1 = 1 from rfl, Finset.sum_range_one]
    exact e
  | t + 1, h, p, q => by
    by_cases h0 : (t + 1) % 208 = 0
    · have e := acc4_at_first V c ⟨t + 1, h⟩ h0 p q
      rw [h0, show (0 : ℕ) + 1 = 1 from rfl, Finset.sum_range_one]
      exact e
    · have e := acc4_at_next V c ⟨t + 1, h⟩ h0 p q
      have ih := acc4_closed c t (Nat.lt_of_succ_lt h) p q
      have hd : (t + 1) / 208 = t / 208 := by omega
      have hm : (t + 1) % 208 = t % 208 + 1 := by omega
      rw [hm, Finset.sum_range_succ, hd, ← ih]
      rw [hd, hm] at e
      exact e

theorem tiles4_sum (c : Dev nD) (n : Fin 106496) (q : Fin 64) :
    ∑ s ∈ Finset.range 208, tile4 V c n.val q s = Cert.Spec.scat (idx4 V c) (val4 V c) n q := by
  rw [Finset.sum_range]
  unfold Cert.Spec.scat
  refine Finset.sum_congr rfl fun s _ => ?_
  unfold tile4
  rw [dif_pos s.isLt]

abbrev out4 (c : Dev nD) : S106496x64.Idx → EReal :=
  fun i => Cert.Spec.scat (idx4 V c) (val4 V c) ⟨(i 0).val, idx2_lt0 i⟩ ⟨(i 1).val, idx2_lt1 i⟩

theorem mem_blk4_2 (t : Fin cfg4.N) (i : S106496x64.Idx) :
    i ∈ ((cfg4.win 2).blk t).view.set
      ↔ ∀ a : Fin 2, win4_2.index t a * S512x64.size a ≤ (i a).val ∧ (i a).val < win4_2.index t a * S512x64.size a + S512x64.size a := by
  show i ∈ ((View.whole main_v24).slice (win4_2.rect t)).set ↔ _
  rw [View.set_slice_whole, Rect.mem_set_unit]
  exact Iff.rfl

theorem acc4_last_apply (c : Dev nD) (t : Fin cfg4.N) (h207 : t.val % 208 = 207) (y : S512x64.Idx) :
    acc4 V c t.val t.isLt y
      = Cert.Spec.scat (idx4 V c) (val4 V c)
          ⟨t.val / 208 * 512 + (y 0).val, by
            have hN : grid4.N = 43264 := Gen.N_4
            have ht : t.val < grid4.N := t.isLt
            have := idx2_lt0 y
            omega⟩
          ⟨(y 1).val, idx2_lt1 y⟩ := by
  obtain ⟨p, q, rfl⟩ : ∃ (p : Fin 512) (q : Fin 64), y = ix2 p q := ⟨y 0, y 1, eq_ix2 y⟩
  rw [acc4_closed V c t.val t.isLt p q, h207]
  exact tiles4_sum V c ⟨t.val / 208 * 512 + p.val, _⟩ q

theorem flushed4_eq (c : Dev nD) (t : Fin cfg4.N) (hf : (cfg4.win 2).flush t = true) :
    (dat4 V c).flushed 2 t = ((cfg4.win 2).blk t).view.read (Elt Ideal) (out4 V c) := by
  have h207 : t.val % 208 = 207 := (flush4_2 t).mp hf
  show (cfg4.win 2).cut (grid4.coords t) ((dat4 V c).after 2 t) = _
  rw [after4_2_last V c t h207]
  funext y
  show acc4 V c t.val t.isLt y = out4 V c (((cfg4.win 2).blk t).view.emb y)
  refine (acc4_last_apply V c t h207 y).trans ?_
  refine congrArg₂ (Cert.Spec.scat (idx4 V c) (val4 V c)) (Fin.ext ?_) (Fin.ext ?_)
  · show t.val / 208 * 512 + (y 0).val = win4_2.index t 0 * 512 + 1 * (y 0).val
    rw [(index4_2 t).1]; omega
  · show (y 1).val = win4_2.index t 1 * 64 + 1 * (y 1).val
    rw [(index4_2 t).2]; omega

theorem cover4 (i : S106496x64.Idx) :
    ∃ t : Fin cfg4.N, (cfg4.win 2).flush t = true ∧ i ∈ ((cfg4.win 2).blk t).view.set := by
  have hN : grid4.N = 43264 := Gen.N_4
  have h0 : (i 0).val < 106496 := idx2_lt0 i
  have h1 : (i 1).val < 64 := idx2_lt1 i
  have hlt : 208 * ((i 0).val / 512) + 207 < cfg4.N := by
    show _ < grid4.N
    omega
  refine ⟨⟨208 * ((i 0).val / 512) + 207, hlt⟩, (flush4_2 _).mpr (by show (208 * ((i 0).val / 512) + 207) % 208 = 207; omega), ?_⟩
  rw [mem_blk4_2]
  intro a
  match a with
  | ⟨0, _⟩ =>
    show win4_2.index ⟨208 * ((i 0).val / 512) + 207, hlt⟩ 0 * 512 ≤ (i 0).val
      ∧ (i 0).val < win4_2.index ⟨208 * ((i 0).val / 512) + 207, hlt⟩ 0 * 512 + 512
    rw [(index4_2 _).1]
    show (208 * ((i 0).val / 512) + 207) / 208 * 512 ≤ (i 0).val ∧ (i 0).val < (208 * ((i 0).val / 512) + 207) / 208 * 512 + 512
    omega
  | ⟨1, _⟩ =>
    show win4_2.index ⟨208 * ((i 0).val / 512) + 207, hlt⟩ 1 * 64 ≤ (i 1).val
      ∧ (i 1).val < win4_2.index ⟨208 * ((i 0).val / 512) + 207, hlt⟩ 1 * 64 + 64
    rw [(index4_2 _).2]
    omega

theorem final4_2 (c : Dev nD) (n : Fin 106496) (q : Fin 64) :
    (dat4 (F := Ideal) V c).arrAt 2 cfg4.N (ix2 n q)
      = Cert.Spec.scat (fun e => (V c main_v17 : S1x1703936.Idx → BitVec 32) (ix2 0 e))
          (fun e q => (V c main_v23 : S1703936x64.Idx → EReal) (ix2 e q)) n q :=
  congrFun ((dat4 V c).arrAt_eq_of_cover 2 (out4 V c) (flushed4_eq V c) cover4) (ix2 n q)

end Cert.KernelIdeal.Hand

end
-- ==== Proof.ArgsOf.lean ====
import proofs.«417626_j75007308858099_3_alg».proof.Proof.Spec
import Idealize.ShloMosaic.Lib.ValueIdx

noncomputable section

namespace Cert.Spec

open Idealize.ShloMosaic Idealize.ShloMosaic.ValueIdx

def argsOf (a0 : FVec Ideal ⟨2, ![100000, 64]⟩ .f32) (a1 : FVec Ideal ⟨2, ![64, 64]⟩ .f32)
    (a2 : FVec Ideal ⟨1, ![64]⟩ .f32) (a3 a4 : FVec Ideal ⟨3, ![1, 4, 16]⟩ .f32)
    (a5 : IVec ⟨2, ![2, 1600000]⟩ 32) : Args where
  h := fun n k => a0 (ix2 n k)
  w := fun k q => a1 (ix2 k q)
  b := fun q => a2 (ix1 q)
  asrc := fun h f => a3 (ix3 0 h f)
  atrg := fun h f => a4 (ix3 0 h f)
  ei := fun r e => a5 (ix2 r e)

end Cert.Spec

end
-- ==== Proof.KI.Chain.lean ====
import proofs.«417626_j75007308858099_3_alg».proof.Proof.KI.Vals
import proofs.«417626_j75007308858099_3_alg».proof.Proof.KI.Val0
import proofs.«417626_j75007308858099_3_alg».proof.Proof.KI.Val1
import proofs.«417626_j75007308858099_3_alg».proof.Proof.KI.Val2
import proofs.«417626_j75007308858099_3_alg».proof.Proof.KI.Val3
import proofs.«417626_j75007308858099_3_alg».proof.Proof.KI.Val4
import proofs.«417626_j75007308858099_3_alg».proof.Proof.Spec
import proofs.«417626_j75007308858099_3_alg».proof.Proof.ArgsOf
import proofs.«417626_j75007308858099_3_alg».proof.Proof.Gen.KernelIdeal.Launch
import proofs.«417626_j75007308858099_3_alg».proof.Proof.Gen.KernelIdeal.Regions
import Idealize.ShloMosaic.Lib.StableHlo.Run
import Idealize.ShloMosaic.Lib.Pipeline.FrameSuffix
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL Idealize.SL.Sem
open Idealize.ShloMosaic.Pipeline (Dat)

section Args
variable (m : (ℓ : Loc nD τ sig) → Buf (Elt Ideal) ℓ)

def argsOfK (c : Dev nD) : Cert.Spec.Args :=
  Cert.Spec.argsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

end Args

namespace Chain

section HostTerms

def selfLoops : IVec S2x100000 32 :=
  concatenate S2x100000 0
    [⟨S1x100000, broadcastInDim S1x100000 ![1] bcast_S100000_S1x100000_1 (iotaInDim S100000 32 0)⟩,
      ⟨S1x100000, broadcastInDim S1x100000 ![1] bcast_S100000_S1x100000_1 (iotaInDim S100000 32 0)⟩]
    concatenates_S1x100000_S1x100000_S2x100000_d0

theorem nodeRow_apply (u : Fin 1) (j : Fin 100000) :
    broadcastInDim S1x100000 ![1] bcast_S100000_S1x100000_1 (iotaInDim S100000 32 0) (ix2 u j) = BitVec.ofNat 32 j.val :=
  (broadcastInDim_apply (s := S100000) (t := S1x100000) ![1] bcast_S100000_S1x100000_1 (iotaInDim S100000 32 0) (ix2 u j) (ix1 j)
    fun a => match a with | ⟨0, _⟩ => rfl).trans rfl

theorem selfLoops_apply (r : Fin 2) (j : Fin 100000) : selfLoops (ix2 r j) = BitVec.ofNat 32 j.val := by
  unfold selfLoops
  match r with
  | ⟨0, _⟩ =>
    refine (concatenate_pair_apply_left (t := S2x100000) (s₁ := S1x100000) (s₂ := S1x100000) 0 _ _ _ (ix2 (0 : Fin 2) j) rfl (ix2 (0 : Fin 1) j)
      fun b => match b with | ⟨0, _⟩ => rfl | ⟨1, _⟩ => rfl).trans (nodeRow_apply 0 j)
  | ⟨1, _⟩ =>
    refine (concatenate_pair_apply_right (t := S2x100000) (s₁ := S1x100000) (s₂ := S1x100000) 0 _ _ _ (ix2 (1 : Fin 2) j) rfl rfl (ix2 (0 : Fin 1) j)
      (fun b => match b with | ⟨0, _⟩ => fun h => absurd rfl h | ⟨1, _⟩ => fun _ => rfl) rfl).trans (nodeRow_apply 0 j)

def looped (x : IVec S2x1600000 32) : IVec S2x1700000 32 :=
  concatenate S2x1700000 1 [⟨S2x1600000, x⟩, ⟨S2x100000, selfLoops⟩] concatenates_S2x1600000_S2x100000_S2x1700000_d1

theorem looped_apply (x : IVec S2x1600000 32) (r : Fin 2) (e : Fin 1700000) :
    looped x (ix2 r e) = if h : e.val < 1600000 then x (ix2 r ⟨e.val, h⟩) else BitVec.ofNat 32 (e.val - 1600000) := by
  unfold looped
  split
  · next h =>
    exact concatenate_pair_apply_left (t := S2x1700000) (s₁ := S2x1600000) (s₂ := S2x100000) 1 _ _ _ (ix2 r e) rfl (ix2 r ⟨e.val, h⟩)
      fun b => match b with | ⟨0, _⟩ => rfl | ⟨1, _⟩ => rfl
  · next h =>
    have he := e.isLt
    refine (concatenate_pair_apply_right (t := S2x1700000) (s₁ := S2x1600000) (s₂ := S2x100000) 1 _ _ _ (ix2 r e) rfl rfl
      (ix2 r (⟨e.val - 1600000, by omega⟩ : Fin 100000))
      (fun b => match b with | ⟨0, _⟩ => fun _ => rfl | ⟨1, _⟩ => fun h => absurd rfl h)
      (by show e.val - 1600000 + 1600000 = e.val; omega)).trans (selfLoops_apply r _)

end HostTerms

section Layout
variable {α : Type}

theorem srcRow_apply (x : IVec S2x1600000 32) (e : Fin 1700000) :
    shapeCast S1700000 (extractStridedSlice S1x1700000 ![0, 0] (looped x) slices_S2x1700000_S1x1700000_0_0)
      shapeCasts_S1x1700000_S1700000 (ix1 e) = looped x (ix2 0 e) :=
  (shapeCast_1a_a_apply _ _ e).trans (slice2_axis0_apply 0 (looped x) _ 0 e 0 rfl)

theorem trgRow_apply (x : IVec S2x1600000 32) (e : Fin 1700000) :
    shapeCast S1700000 (extractStridedSlice S1x1700000 ![1, 0] (looped x) slices_S2x1700000_S1x1700000_1_0)
      shapeCasts_S1x1700000_S1700000 (ix1 e) = looped x (ix2 1 e) :=
  (shapeCast_1a_a_apply _ _ e).trans (slice2_axis0_apply 1 (looped x) _ 0 e 1 rfl)

theorem padEnd_apply (x : S1700000.Idx → α) (v : S_.Idx → α) (e : Fin 1703936) :
    pad S1703936 ![0] ![3936] ![0] x v pads_S1700000_S1703936_039360 h_S_ (ix1 e)
      = if h : e.val < 1700000 then x (ix1 ⟨e.val, h⟩) else v ix0 := by
  split
  · next h =>
    exact pad_apply_of_inside (s := S1700000) (t := S1703936) _ _ _ x v _ _ (ix1 e) (ix1 (⟨e.val, h⟩ : Fin 1700000))
      fun a => match a with | ⟨0, _⟩ => by show e.val = 0 + e.val * (0 + 1); omega
  · next h =>
    refine (pad_apply_of_not_inside (s := S1700000) (t := S1703936) _ _ _ x v _ _ (ix1 e) 0 ?_).trans (congrArg v (eq_ix0 _))
    show ¬(0 ≤ e.val ∧ (e.val - 0) % (0 + 1) = 0 ∧ (e.val - 0) / (0 + 1) < 1700000)
    omega

theorem padRows_apply (x : S100000x64.Idx → α) (v : S_.Idx → α) (n : Fin 106496) (k : Fin 64) :
    pad S106496x64 ![0, 0] ![6496, 0] ![0, 0] x v pads_S100000x64_S106496x64_064960_000 h_S_ (ix2 n k)
      = if h : n.val < 100000 then x (ix2 ⟨n.val, h⟩ k) else v ix0 := by
  split
  · next h =>
    exact pad_apply_of_inside (s := S100000x64) (t := S106496x64) _ _ _ x v _ _ (ix2 n k) (ix2 (⟨n.val, h⟩ : Fin 100000) k)
      fun a => match a with
        | ⟨0, _⟩ => by show n.val = 0 + n.val * (0 + 1); omega
        | ⟨1, _⟩ => by show k.val = 0 + k.val * (0 + 1); omega
  · next h =>
    refine (pad_apply_of_not_inside (s := S100000x64) (t := S106496x64) _ _ _ x v _ _ (ix2 n k) 0 ?_).trans (congrArg v (eq_ix0 _))
    show ¬(0 ≤ n.val ∧ (n.val - 0) % (0 + 1) = 0 ∧ (n.val - 0) / (0 + 1) < 100000)
    omega

theorem dropHead_apply (x : S1x4x16.Idx → α) (h : Fin 4) (f : Fin 16) :
    shapeCast S4x16 x shapeCasts_S1x4x16_S4x16 (ix2 h f) = x (ix3 0 h f) :=
  shapeCast_1ab_ab_apply x _ h f

theorem asCol_apply (x : S1703936.Idx → α) (e : Fin 1703936) (u : Fin 1) :
    shapeCast S1703936x1 x shapeCasts_S1703936_S1703936x1 (ix2 e u) = x (ix1 e) :=
  shapeCast_apply x _ _ _ (by
    have hu : u.val = 0 := by omega
    rw [Shape.rowMajor_val_one, Shape.rowMajor_val_two]
    show e.val = e.val * 1 + u.val
    omega)

theorem asRow_apply (x : S1703936.Idx → α) (u : Fin 1) (e : Fin 1703936) :
    shapeCast S1x1703936 x shapeCasts_S1703936_S1x1703936 (ix2 u e) = x (ix1 e) :=
  shapeCast_a_1a_apply x _ u e

theorem asCell_apply (x : S_.Idx → α) (j : S1x1.Idx) : shapeCast S1x1 x shapeCasts_S_S1x1 j = x ix0 := by
  unfold shapeCast
  exact congrArg x (eq_ix0 _)

theorem realRows_apply (x : S1703936x4.Idx → α) (e : Fin 1700000) (h : Fin 4) :
    extractStridedSlice S1700000x4 ![0, 0] x slices_S1703936x4_S1700000x4_0_0 (ix2 e h) = x (ix2 (Cert.Spec.real e) h) :=
  slice2_axis0_apply 0 x _ e h (Cert.Spec.real e) (by show e.val = 0 + e.val; omega)

theorem realNodes_apply (x : S106496x64.Idx → α) (n : Fin 100000) (q : Fin 64) :
    extractStridedSlice S100000x64 ![0, 0] x slices_S106496x64_S100000x64_0_0 (ix2 n q) = x (ix2 (Cert.Spec.rnode n) q) :=
  slice2_axis0_apply 0 x _ n q (Cert.Spec.rnode n) (by show n.val = 0 + n.val; omega)

theorem splitHeads_apply (x : S100000x64.Idx → α) (n : Fin 100000) (h : Fin 4) (f : Fin 16) :
    shapeCast S100000x4x16 x shapeCasts_S100000x64_S100000x4x16 (ix3 n h f) = x (ix2 n (Cert.Spec.col h f)) :=
  shapeCast_apply x _ _ _ (by
    rw [Shape.rowMajor_val_two, Shape.rowMajor_val_three]
    show n.val * 64 + (h.val * 16 + f.val) = (n.val * 4 + h.val) * 16 + f.val
    omega)

theorem headsFirst_apply (x : S100000x4x16.Idx → α) (h : Fin 4) (n : Fin 100000) (f : Fin 16) :
    transpose S4x100000x16 [1, 0, 2] x transposes_S100000x4x16_S4x100000x16_1_0_2 (ix3 h n f) = x (ix3 n h f) :=
  transpose_apply _ x _ _ _ fun b => match b with | ⟨0, _⟩ => rfl | ⟨1, _⟩ => rfl | ⟨2, _⟩ => rfl

theorem gmax_eq (x : FVec Ideal S1700000x4 .f32) :
    Host.reduce FloatOps.maximumf x (constant (F := Ideal) S_ .f32 0xFF800000#32) reducesTo_S1700000x4_S_d0_1 h_S_ ix0
      = Cert.Spec.gmax x := rfl

end Layout

section Stretches
variable (V : Valuation τ sig (Elt Ideal))

theorem stretch0_src : (StableHlo.after (hostOps0 (F := Ideal)) V (Proc.devRef .tc main_v6) : S1700000.Idx → BitVec 32)
    = shapeCast S1700000 (extractStridedSlice S1x1700000 ![0, 0] (looped (V (Proc.devRef .tc main_arg5))) slices_S2x1700000_S1x1700000_0_0)
        shapeCasts_S1x1700000_S1700000 := by
  after_results <;> rfl
theorem stretch0_trg : (StableHlo.after (hostOps0 (F := Ideal)) V (Proc.devRef .tc main_v8) : S1700000.Idx → BitVec 32)
    = shapeCast S1700000 (extractStridedSlice S1x1700000 ![1, 0] (looped (V (Proc.devRef .tc main_arg5))) slices_S2x1700000_S1x1700000_1_0)
        shapeCasts_S1x1700000_S1700000 := by
  after_results <;> rfl
theorem stretch0_c : (StableHlo.after (hostOps0 (F := Ideal)) V (Proc.devRef .tc main_c) : S_.Idx → BitVec 32)
    = constantI S_ 32 100000#32 := by
  after_results <;> rfl

theorem stretch1_src : (StableHlo.after (hostOps0_1 (F := Ideal)) V (Proc.devRef .tc main_v9) : S1703936.Idx → BitVec 32)
    = pad S1703936 ![0] ![3936] ![0] (V (Proc.devRef .tc main_v6) : S1700000.Idx → BitVec 32) (V (Proc.devRef .tc main_c) : S_.Idx → BitVec 32)
        pads_S1700000_S1703936_039360 h_S_ := by
  after_results <;> rfl
theorem stretch2_c : (StableHlo.after (hostOps0_2 (F := Ideal)) V (Proc.devRef .tc main_c_0) : S_.Idx → BitVec 32)
    = constantI S_ 32 100000#32 := by
  after_results <;> rfl
theorem stretch3_trg : (StableHlo.after (hostOps0_3 (F := Ideal)) V (Proc.devRef .tc main_v10) : S1703936.Idx → BitVec 32)
    = pad S1703936 ![0] ![3936] ![0] (V (Proc.devRef .tc main_v8) : S1700000.Idx → BitVec 32) (V (Proc.devRef .tc main_c_0) : S_.Idx → BitVec 32)
        pads_S1700000_S1703936_039360 h_S_ := by
  after_results <;> rfl
theorem stretch4_c : (StableHlo.after (hostOps0_4 (F := Ideal)) V (Proc.devRef .tc main_c_1) : S_.Idx → BitVec 32)
    = constantI S_ 32 0#32 := by
  after_results <;> rfl
theorem stretch5_feat : (StableHlo.after (hostOps0_5 (F := Ideal)) V (Proc.devRef .tc main_v11) : S106496x64.Idx → EReal)
    = pad S106496x64 ![0, 0] ![6496, 0] ![0, 0] (V (Proc.devRef .tc main_arg0) : S100000x64.Idx → EReal)
        (sitofp (F := Ideal) .f32 (V (Proc.devRef .tc main_c_1) : S_.Idx → BitVec 32) : S_.Idx → EReal)
        pads_S100000x64_S106496x64_064960_000 h_S_ := by
  after_results <;> rfl
theorem stretch6_asrc : (StableHlo.after (hostOps0_6 (F := Ideal)) V (Proc.devRef .tc main_v12) : S4x16.Idx → EReal)
    = shapeCast S4x16 (V (Proc.devRef .tc main_arg3) : S1x4x16.Idx → EReal) shapeCasts_S1x4x16_S4x16 := by
  after_results <;> rfl
theorem stretch6_atrg : (StableHlo.after (hostOps0_6 (F := Ideal)) V (Proc.devRef .tc main_v13) : S4x16.Idx → EReal)
    = shapeCast S4x16 (V (Proc.devRef .tc main_arg4) : S1x4x16.Idx → EReal) shapeCasts_S1x4x16_S4x16 := by
  after_results <;> rfl
theorem stretch7_srcCol : (StableHlo.after (hostOps1 (F := Ideal)) V (Proc.devRef .tc main_v15) : S1703936x1.Idx → BitVec 32)
    = shapeCast S1703936x1 (V (Proc.devRef .tc main_v9) : S1703936.Idx → BitVec 32) shapeCasts_S1703936_S1703936x1 := by
  after_results <;> rfl
theorem stretch7_trgCol : (StableHlo.after (hostOps1 (F := Ideal)) V (Proc.devRef .tc main_v16) : S1703936x1.Idx → BitVec 32)
    = shapeCast S1703936x1 (V (Proc.devRef .tc main_v10) : S1703936.Idx → BitVec 32) shapeCasts_S1703936_S1703936x1 := by
  after_results <;> rfl
theorem stretch7_trgRow : (StableHlo.after (hostOps1 (F := Ideal)) V (Proc.devRef .tc main_v17) : S1x1703936.Idx → BitVec 32)
    = shapeCast S1x1703936 (V (Proc.devRef .tc main_v10) : S1703936.Idx → BitVec 32) shapeCasts_S1703936_S1x1703936 := by
  after_results <;> rfl
theorem stretch8_max : (StableHlo.after (hostOps2 (F := Ideal)) V (Proc.devRef .tc main_v21) : S1x1.Idx → EReal)
    = shapeCast S1x1
        (Host.reduce (FloatOps.maximumf (F := Ideal) (φ := .f32))
          (extractStridedSlice S1700000x4 ![0, 0] (V (Proc.devRef .tc main_v18_1) : S1703936x4.Idx → EReal) slices_S1703936x4_S1700000x4_0_0)
          (constant (F := Ideal) S_ .f32 0xFF800000#32) reducesTo_S1700000x4_S_d0_1 h_S_ : S_.Idx → EReal)
        shapeCasts_S_S1x1 := by
  after_results <;> rfl
theorem stretch9_out : (StableHlo.after (hostOps5 (F := Ideal)) V (Proc.devRef .tc main_v27) : S4x100000x16.Idx → EReal)
    = transpose S4x100000x16 [1, 0, 2]
        (shapeCast S100000x4x16
          (extractStridedSlice S100000x64 ![0, 0] (V (Proc.devRef .tc main_v24) : S106496x64.Idx → EReal) slices_S106496x64_S100000x64_0_0)
          shapeCasts_S100000x64_S100000x4x16)
        transposes_S100000x4x16_S4x100000x16_1_0_2 := by
  after_results <;> rfl

end Stretches

section Decode

theorem eidx_of_pad (a : Cert.Spec.Args) (x : IVec S2x1600000 32) (ha : ∀ r e, a.ei r e = x (ix2 r e)) (r : Fin 2)
    (row : S1700000.Idx → BitVec 32) (hrow : ∀ e, row (ix1 e) = looped x (ix2 r e))
    (v : S_.Idx → BitVec 32) (hv : v ix0 = 100000#32) (e : Fin 1703936) :
    pad S1703936 ![0] ![3936] ![0] row v pads_S1700000_S1703936_039360 h_S_ (ix1 e) = Cert.Spec.eidx a r e := by
  rw [padEnd_apply]; unfold Cert.Spec.eidx
  by_cases h2 : e.val < 1700000
  · rw [dif_pos h2, hrow, looped_apply]
    by_cases h1 : e.val < 1600000
    · rw [dif_pos h1, dif_pos h1, ha]
    · rw [dif_neg h1, dif_neg h1, if_pos h2]
  · rw [dif_neg h2, dif_neg (by omega), if_neg h2, hv]

theorem hpad_of_pad (a : Cert.Spec.Args) (x : S100000x64.Idx → EReal) (ha : ∀ n k, a.h n k = x (ix2 n k))
    (v : S_.Idx → EReal) (hv : v ix0 = 0) (n : Fin 106496) (k : Fin 64) :
    pad S106496x64 ![0, 0] ![6496, 0] ![0, 0] x v pads_S100000x64_S106496x64_064960_000 h_S_ (ix2 n k) = Cert.Spec.hpad a n k := by
  rw [padRows_apply]; unfold Cert.Spec.hpad
  by_cases h : n.val < 100000
  · rw [dif_pos h, dif_pos h, ha]
  · rw [dif_neg h, dif_neg h, hv]

theorem zero_word_real (w : S_.Idx → BitVec 32) (hw : w ix0 = 0#32) : (sitofp (F := Ideal) .f32 w : S_.Idx → EReal) ix0 = 0 := by
  show (((w ix0).toInt : ℝ) : EReal) = 0
  rw [hw]
  have : (0#32 : BitVec 32).toInt = 0 := by decide
  rw [this]; simp

end Decode

section Steps
variable (m : (ℓ : Loc nD τ sig) → Buf (Elt Ideal) ℓ)

theorem W1_keep (c : Dev nD) (r : Ref sig .tc) (h : r ∉ hostOps0_W) : W1 m c (Proc.devRef .tc r) = W0 m c (Proc.devRef .tc r) :=
  StableHlo.after_of_writes_sub _ _ hostOps0_writes h
theorem W2_keep (c : Dev nD) (r : Ref sig .tc) (h : r ∉ hostOps0_1_W) : W2 m c (Proc.devRef .tc r) = W1 m c (Proc.devRef .tc r) :=
  StableHlo.after_of_writes_sub _ _ hostOps0_1_writes h
theorem W3_keep (c : Dev nD) (r : Ref sig .tc) (h : r ∉ hostOps0_2_W) : W3 m c (Proc.devRef .tc r) = W2 m c (Proc.devRef .tc r) :=
  StableHlo.after_of_writes_sub _ _ hostOps0_2_writes h
theorem W4_keep (c : Dev nD) (r : Ref sig .tc) (h : r ∉ hostOps0_3_W) : W4 m c (Proc.devRef .tc r) = W3 m c (Proc.devRef .tc r) :=
  StableHlo.after_of_writes_sub _ _ hostOps0_3_writes h
theorem W5_keep (c : Dev nD) (r : Ref sig .tc) (h : r ∉ hostOps0_4_W) : W5 m c (Proc.devRef .tc r) = W4 m c (Proc.devRef .tc r) :=
  StableHlo.after_of_writes_sub _ _ hostOps0_4_writes h
theorem W6_keep (c : Dev nD) (r : Ref sig .tc) (h : r ∉ hostOps0_5_W) : W6 m c (Proc.devRef .tc r) = W5 m c (Proc.devRef .tc r) :=
  StableHlo.after_of_writes_sub _ _ hostOps0_5_writes h
theorem W7_keep (c : Dev nD) (r : Ref sig .tc) (h : r ∉ hostOps0_6_W) : W7 m c (Proc.devRef .tc r) = W6 m c (Proc.devRef .tc r) :=
  StableHlo.after_of_writes_sub _ _ hostOps0_6_writes h
theorem W8_keep (c : Dev nD) (r : Ref sig .tc) (h : ∀ w, Pipeline.arrRef spec0 w ≠ r) : W8 m c (Proc.devRef .tc r) = W7 m c (Proc.devRef .tc r) := by
  unfold W8; exact Pipeline.withArrays_of_ne spec0 c _ _ r h
theorem W9_keep (c : Dev nD) (r : Ref sig .tc) (h : r ∉ hostOps1_W) : W9 m c (Proc.devRef .tc r) = W8 m c (Proc.devRef .tc r) :=
  StableHlo.after_of_writes_sub _ _ hostOps1_writes h
theorem W10_keep (c : Dev nD) (r : Ref sig .tc) (h : ∀ w, Pipeline.arrRef spec1 w ≠ r) : W10 m c (Proc.devRef .tc r) = W9 m c (Proc.devRef .tc r) := by
  unfold W10; exact Pipeline.withArrays_of_ne spec1 c _ _ r h
theorem W11_keep (c : Dev nD) (r : Ref sig .tc) (h : r ∉ hostOps2_W) : W11 m c (Proc.devRef .tc r) = W10 m c (Proc.devRef .tc r) :=
  StableHlo.after_of_writes_sub _ _ hostOps2_writes h
theorem W12_keep (c : Dev nD) (r : Ref sig .tc) (h : ∀ w, Pipeline.arrRef spec2 w ≠ r) : W12 m c (Proc.devRef .tc r) = W11 m c (Proc.devRef .tc r) := by
  unfold W12; exact Pipeline.withArrays_of_ne spec2 c _ _ r h
theorem W13_keep (c : Dev nD) (r : Ref sig .tc) (h : ∀ w, Pipeline.arrRef spec3 w ≠ r) : W13 m c (Proc.devRef .tc r) = W12 m c (Proc.devRef .tc r) := by
  unfold W13; exact Pipeline.withArrays_of_ne spec3 c _ _ r h

theorem W12_input (c : Dev nD) (w : Fin 4) (hin : (cfg2.win w).isOut = false) :
    W12 m c (Proc.devRef .tc (Pipeline.arrRef spec2 w)) = W11 m c (Proc.devRef .tc (Pipeline.arrRef spec2 w)) := by
  unfold W12
  exact (Pipeline.withArrays_arr spec2 winFacts2.arr_inj c (W11 m c) _ w).trans
    (((dat2 (atRef (W11 m)) c).arrAt_in w hin cfg2.N).trans (A_eq2 (atRef (W11 m)) c w))

end Steps

section Congr
open Cert.Spec

theorem lin_congr {F₁ G₁ : Fin 106496 → Fin 64 → EReal} {F₂ G₂ : Fin 64 → Fin 64 → EReal} {F₃ G₃ : Fin 64 → EReal}
    (h₁ : F₁ = G₁) (h₂ : F₂ = G₂) (h₃ : F₃ = G₃) : lin F₁ F₂ F₃ = lin G₁ G₂ G₃ := by rw [h₁, h₂, h₃]
theorem gath_congr {C : ℕ} {i₁ i₂ : Fin 1703936 → BitVec 32} {t₁ t₂ : Fin 106496 → Fin C → EReal}
    (hi : i₁ = i₂) (ht : t₁ = t₂) : gath i₁ t₁ = gath i₂ t₂ := by rw [hi, ht]
theorem scat_congr {C : ℕ} {i₁ i₂ : Fin 1703936 → BitVec 32} {u₁ u₂ : Fin 1703936 → Fin C → EReal}
    (hi : i₁ = i₂) (hu : u₁ = u₂) : scat i₁ u₁ = scat i₂ u₂ := by rw [hi, hu]
theorem score_congr {s₁ s₂ : Fin 1703936 → Fin 64 → EReal} {a₁ a₂ b₁ b₂ : Fin 4 → Fin 16 → EReal}
    (hs : s₁ = s₂) (ha : a₁ = a₂) (hb : b₁ = b₂) : score s₁ a₁ b₁ = score s₂ a₂ b₂ := by rw [hs, ha, hb]
theorem expo_congr {s₁ s₂ : Fin 1703936 → Fin 4 → EReal} {g₁ g₂ : EReal} (hs : s₁ = s₂) (hg : g₁ = g₂) :
    expo s₁ g₁ = expo s₂ g₂ := by rw [hs, hg]
theorem alpha_congr {s₁ s₂ : Fin 1703936 → Fin 4 → EReal} {g₁ g₂ : EReal} {d₁ d₂ : Fin 1703936 → Fin 4 → EReal}
    (hs : s₁ = s₂) (hg : g₁ = g₂) (hd : d₁ = d₂) : alpha s₁ g₁ d₁ = alpha s₂ g₂ d₂ := by rw [hs, hg, hd]
theorem wfeat_congr {s₁ s₂ : Fin 1703936 → Fin 64 → EReal} {a₁ a₂ : Fin 1703936 → Fin 4 → EReal}
    (hs : s₁ = s₂) (ha : a₁ = a₂) : wfeat s₁ a₁ = wfeat s₂ a₂ := by rw [hs, ha]

theorem col_split (c : Fin 64) :
    c = col ⟨c.val / 16, by have := c.isLt; omega⟩ ⟨c.val % 16, Nat.mod_lt _ (by decide)⟩ :=
  Fin.ext (by show c.val = c.val / 16 * 16 + c.val % 16; omega)

end Congr

section Values
open Cert.Spec
variable (m : (ℓ : Loc nD τ sig) → Buf (Elt Ideal) ℓ)

theorem W5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m c (Proc.devRef .tc r) = m ((c.tc : Thread nD τ).loc r) :=
  (W5_keep m c r h4).trans <| (W4_keep m c r h3).trans <| (W3_keep m c r h2).trans <| (W2_keep m c r h1).trans <| (W1_keep m c r h0).trans rfl
theorem W6_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) :
    W6 m c (Proc.devRef .tc r) = m ((c.tc : Thread nD τ).loc r) :=
  (W6_keep m c r h5).trans (W5_launch m c r h0 h1 h2 h3 h4)
theorem W7_launch (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 m c (Proc.devRef .tc r) = m ((c.tc : Thread nD τ).loc r) :=
  (W7_keep m c r h6).trans (W6_launch m c r h0 h1 h2 h3 h4 h5)

theorem W1_src (c : Dev nD) (e : Fin 1700000) :
    (W1 m c (Proc.devRef .tc main_v6) : S1700000.Idx → BitVec 32) (ix1 e) = looped (m ((c.tc : Thread nD τ).loc main_arg5)) (ix2 0 e) :=
  (congrFun (stretch0_src (W0 m c)) (ix1 e)).trans (srcRow_apply _ e)
theorem W1_trg (c : Dev nD) (e : Fin 1700000) :
    (W1 m c (Proc.devRef .tc main_v8) : S1700000.Idx → BitVec 32) (ix1 e) = looped (m ((c.tc : Thread nD τ).loc main_arg5)) (ix2 1 e) :=
  (congrFun (stretch0_trg (W0 m c)) (ix1 e)).trans (trgRow_apply _ e)
theorem W1_c (c : Dev nD) : (W1 m c (Proc.devRef .tc main_c) : S_.Idx → BitVec 32) ix0 = 100000#32 :=
  congrFun (stretch0_c (W0 m c)) ix0

theorem W2_src (c : Dev nD) (e : Fin 1703936) :
    (W2 m c (Proc.devRef .tc main_v9) : S1703936.Idx → BitVec 32) (ix1 e) = eidx (argsOfK m c) 0 e :=
  (congrFun (stretch1_src (W1 m c)) (ix1 e)).trans
    (eidx_of_pad (argsOfK m c) (m ((c.tc : Thread nD τ).loc main_arg5)) (fun _ _ => rfl) 0 _ (W1_src m c) _ (W1_c m c) e)

theorem W3_trg (c : Dev nD) (e : Fin 1700000) :
    (W3 m c (Proc.devRef .tc main_v8) : S1700000.Idx → BitVec 32) (ix1 e) = looped (m ((c.tc : Thread nD τ).loc main_arg5)) (ix2 1 e) :=
  (congrFun ((W3_keep m c main_v8 (by decide)).trans (W2_keep m c main_v8 (by decide))) (ix1 e)).trans (W1_trg m c e)
theorem W3_c (c : Dev nD) : (W3 m c (Proc.devRef .tc main_c_0) : S_.Idx → BitVec 32) ix0 = 100000#32 :=
  congrFun (stretch2_c (W2 m c)) ix0

theorem W4_trg (c : Dev nD) (e : Fin 1703936) :
    (W4 m c (Proc.devRef .tc main_v10) : S1703936.Idx → BitVec 32) (ix1 e) = eidx (argsOfK m c) 1 e :=
  (congrFun (stretch3_trg (W3 m c)) (ix1 e)).trans
    (eidx_of_pad (argsOfK m c) (m ((c.tc : Thread nD τ).loc main_arg5)) (fun _ _ => rfl) 1 _ (W3_trg m c) _ (W3_c m c) e)

theorem W5_c (c : Dev nD) : (W5 m c (Proc.devRef .tc main_c_1) : S_.Idx → BitVec 32) ix0 = 0#32 :=
  congrFun (stretch4_c (W4 m c)) ix0

theorem W6_feat (c : Dev nD) (n : Fin 106496) (k : Fin 64) :
    (W6 m c (Proc.devRef .tc main_v11) : S106496x64.Idx → EReal) (ix2 n k) = hpad (argsOfK m c) n k :=
  (congrFun (stretch5_feat (W5 m c)) (ix2 n k)).trans
    (hpad_of_pad (argsOfK m c) _
      (fun n k => (congrFun (W5_launch m c main_arg0 (by decide) (by decide) (by decide) (by decide) (by decide)) (ix2 n k)).symm)
      _ (zero_word_real _ (W5_c m c)) n k)

theorem W7_feat (c : Dev nD) :
    (fun n k => (W7 m c (Proc.devRef .tc main_v11) : S106496x64.Idx → EReal) (ix2 n k)) = hpad (argsOfK m c) :=
  funext fun n => funext fun k => (congrFun (W7_keep m c main_v11 (by decide)) (ix2 n k)).trans (W6_feat m c n k)
theorem W7_w (c : Dev nD) :
    (fun k q => (W7 m c (Proc.devRef .tc main_arg1) : S64x64.Idx → EReal) (ix2 k q)) = (argsOfK m c).w :=
  funext fun k => funext fun q =>
    congrFun (W7_launch m c main_arg1 (by decide) (by decide) (by decide) (by decide) (by decide) (by decide) (by decide)) (ix2 k q)
theorem W7_b (c : Dev nD) :
    (fun q => (W7 m c (Proc.devRef .tc main_arg2) : S64.Idx → EReal) (ix1 q)) = (argsOfK m c).b :=
  funext fun q =>
    congrFun (W7_launch m c main_arg2 (by decide) (by decide) (by decide) (by decide) (by decide) (by decide) (by decide)) (ix1 q)
theorem W7_asrc (c : Dev nD) (h : Fin 4) (f : Fin 16) :
    (W7 m c (Proc.devRef .tc main_v12) : S4x16.Idx → EReal) (ix2 h f) = (argsOfK m c).asrc h f :=
  (congrFun (stretch6_asrc (W6 m c)) (ix2 h f)).trans ((dropHead_apply _ h f).trans
    (congrFun (W6_launch m c main_arg3 (by decide) (by decide) (by decide) (by decide) (by decide) (by decide)) (ix3 0 h f)))
theorem W7_atrg (c : Dev nD) (h : Fin 4) (f : Fin 16) :
    (W7 m c (Proc.devRef .tc main_v13) : S4x16.Idx → EReal) (ix2 h f) = (argsOfK m c).atrg h f :=
  (congrFun (stretch6_atrg (W6 m c)) (ix2 h f)).trans ((dropHead_apply _ h f).trans
    (congrFun (W6_launch m c main_arg4 (by decide) (by decide) (by decide) (by decide) (by decide) (by decide)) (ix3 0 h f)))

theorem W8_out (c : Dev nD) :
    (W8 m c (Proc.devRef .tc main_v14) : S106496x64.Idx → EReal) = (dat0 (F := Ideal) (atRef (W7 m)) c).arrAt 3 cfg0.N := by
  unfold W8; exact Pipeline.withArrays_arr spec0 winFacts0.arr_inj c (W7 m c) _ 3
set_option maxHeartbeats 400000 in
theorem W8_hp (c : Dev nD) :
    (fun j q => (W8 m c (Proc.devRef .tc main_v14) : S106496x64.Idx → EReal) (ix2 j q)) = Kernel.hp (argsOfK m c) :=
  funext fun n => funext fun q => (congrFun (W8_out m c) (ix2 n q)).trans ((final0_3 (atRef (W7 m)) c n q).trans
    (congrFun (congrFun (lin_congr (W7_feat m c) (W7_w m c) (W7_b m c)) n) q))

theorem W8_src (c : Dev nD) : W8 m c (Proc.devRef .tc main_v9) = W2 m c (Proc.devRef .tc main_v9) :=
  (W8_keep m c main_v9 (by decide)).trans <| (W7_keep m c main_v9 (by decide)).trans <| (W6_keep m c main_v9 (by decide)).trans <|
    (W5_keep m c main_v9 (by decide)).trans <| (W4_keep m c main_v9 (by decide)).trans (W3_keep m c main_v9 (by decide))
theorem W8_trg (c : Dev nD) : W8 m c (Proc.devRef .tc main_v10) = W4 m c (Proc.devRef .tc main_v10) :=
  (W8_keep m c main_v10 (by decide)).trans <| (W7_keep m c main_v10 (by decide)).trans <| (W6_keep m c main_v10 (by decide)).trans (W5_keep m c main_v10 (by decide))

theorem W9_srcCol (c : Dev nD) :
    (fun e => (W9 m c (Proc.devRef .tc main_v15) : S1703936x1.Idx → BitVec 32) (ix2 e 0)) = eidx (argsOfK m c) 0 :=
  funext fun e => (congrFun (stretch7_srcCol (W8 m c)) (ix2 e 0)).trans ((asCol_apply _ e 0).trans
    ((congrFun (W8_src m c) (ix1 e)).trans (W2_src m c e)))
theorem W9_trgCol (c : Dev nD) :
    (fun e => (W9 m c (Proc.devRef .tc main_v16) : S1703936x1.Idx → BitVec 32) (ix2 e 0)) = eidx (argsOfK m c) 1 :=
  funext fun e => (congrFun (stretch7_trgCol (W8 m c)) (ix2 e 0)).trans ((asCol_apply _ e 0).trans
    ((congrFun (W8_trg m c) (ix1 e)).trans (W4_trg m c e)))
theorem W9_trgRow (c : Dev nD) :
    (fun e => (W9 m c (Proc.devRef .tc main_v17) : S1x1703936.Idx → BitVec 32) (ix2 0 e)) = eidx (argsOfK m c) 1 :=
  funext fun e => (congrFun (stretch7_trgRow (W8 m c)) (ix2 0 e)).trans ((asRow_apply _ 0 e).trans
    ((congrFun (W8_trg m c) (ix1 e)).trans (W4_trg m c e)))
theorem W9_hp (c : Dev nD) :
    (fun j q => (W9 m c (Proc.devRef .tc main_v14) : S106496x64.Idx → EReal) (ix2 j q)) = Kernel.hp (argsOfK m c) :=
  funext fun j => funext fun q => (congrFun (W9_keep m c main_v14 (by decide)) (ix2 j q)).trans (congrFun (congrFun (W8_hp m c) j) q)
theorem W9_asrc (c : Dev nD) :
    (fun h f => (W9 m c (Proc.devRef .tc main_v12) : S4x16.Idx → EReal) (ix2 h f)) = (argsOfK m c).asrc :=
  funext fun h => funext fun f =>
    (congrFun ((W9_keep m c main_v12 (by decide)).trans (W8_keep m c main_v12 (by decide))) (ix2 h f)).trans (W7_asrc m c h f)
theorem W9_atrg (c : Dev nD) :
    (fun h f => (W9 m c (Proc.devRef .tc main_v13) : S4x16.Idx → EReal) (ix2 h f)) = (argsOfK m c).atrg :=
  funext fun h => funext fun f =>
    (congrFun ((W9_keep m c main_v13 (by decide)).trans (W8_keep m c main_v13 (by decide))) (ix2 h f)).trans (W7_atrg m c h f)

theorem W10_out4 (c : Dev nD) :
    (W10 m c (Proc.devRef .tc main_v18_0) : S1703936x64.Idx → EReal) = (dat1 (F := Ideal) (atRef (W9 m)) c).arrAt 4 cfg1.N := by
  unfold W10; exact Pipeline.withArrays_arr spec1 winFacts1.arr_inj c (W9 m c) _ 4
theorem W10_out5 (c : Dev nD) :
    (W10 m c (Proc.devRef .tc main_v18_1) : S1703936x4.Idx → EReal) = (dat1 (F := Ideal) (atRef (W9 m)) c).arrAt 5 cfg1.N := by
  unfold W10; exact Pipeline.withArrays_arr spec1 winFacts1.arr_inj c (W9 m c) _ 5
set_option maxHeartbeats 400000 in
theorem W10_sf (c : Dev nD) :
    (fun e q => (W10 m c (Proc.devRef .tc main_v18_0) : S1703936x64.Idx → EReal) (ix2 e q)) = Kernel.sf (argsOfK m c) :=
  funext fun e => funext fun q => (congrFun (W10_out4 m c) (ix2 e q)).trans ((final1_4 (atRef (W9 m)) c e q).trans
    (congrFun (congrFun (gath_congr (W9_srcCol m c) (W9_hp m c)) e) q))

set_option maxHeartbeats 400000 in
theorem W10_sc (c : Dev nD) :
    (fun e h => (W10 m c (Proc.devRef .tc main_v18_1) : S1703936x4.Idx → EReal) (ix2 e h)) = Kernel.sc (argsOfK m c) :=
  funext fun e => funext fun h => (congrFun (W10_out5 m c) (ix2 e h)).trans ((final1_5 (atRef (W9 m)) c e h).trans
    (congrFun (congrFun (score_congr (gath_congr (W9_srcCol m c) (W9_hp m c)) (W9_asrc m c) (W9_atrg m c)) e) h))

theorem W11_sc (c : Dev nD) :
    (fun e h => (W11 m c (Proc.devRef .tc main_v18_1) : S1703936x4.Idx → EReal) (ix2 e h)) = Kernel.sc (argsOfK m c) :=
  funext fun e => funext fun h => (congrFun (W11_keep m c main_v18_1 (by decide)) (ix2 e h)).trans (congrFun (congrFun (W10_sc m c) e) h)

theorem W11_g (c : Dev nD) :
    (W11 m c (Proc.devRef .tc main_v21) : S1x1.Idx → EReal) (ix2 0 0) = Kernel.g (argsOfK m c) :=
  (congrFun (stretch8_max (W10 m c)) (ix2 0 0)).trans ((asCell_apply _ _).trans ((gmax_eq _).trans
    (congrArg Cert.Spec.gmax (funext fun i => by
      obtain ⟨a, b, rfl⟩ : ∃ a b, i = ix2 a b := ⟨_, _, eq_ix2 i⟩
      exact (realRows_apply _ a b).trans (congrFun (congrFun (W10_sc m c) (real a)) b)))))

theorem W11_trgRow (c : Dev nD) :
    (fun e => (W11 m c (Proc.devRef .tc main_v17) : S1x1703936.Idx → BitVec 32) (ix2 0 e)) = eidx (argsOfK m c) 1 :=
  funext fun e => (congrFun ((W11_keep m c main_v17 (by decide)).trans (W10_keep m c main_v17 (by decide))) (ix2 0 e)).trans
    (congrFun (W9_trgRow m c) e)

theorem W12_out (c : Dev nD) :
    (W12 m c (Proc.devRef .tc main_v22) : S106496x4.Idx → EReal) = (dat2 (F := Ideal) (atRef (W11 m)) c).arrAt 3 cfg2.N := by
  unfold W12; exact Pipeline.withArrays_arr spec2 winFacts2.arr_inj c (W11 m c) _ 3
set_option maxHeartbeats 400000 in
theorem W12_tn (c : Dev nD) :
    (fun n h => (W12 m c (Proc.devRef .tc main_v22) : S106496x4.Idx → EReal) (ix2 n h)) = Kernel.tn (argsOfK m c) :=
  funext fun n => funext fun h => (congrFun (W12_out m c) (ix2 n h)).trans ((final2_3 (atRef (W11 m)) c n h).trans
    (congrFun (congrFun (scat_congr (W11_trgRow m c) (expo_congr (W11_sc m c) (W11_g m c))) n) h))

theorem W12_trgCol (c : Dev nD) :
    (fun e => (W12 m c (Proc.devRef .tc main_v16) : S1703936x1.Idx → BitVec 32) (ix2 e 0)) = eidx (argsOfK m c) 1 :=
  funext fun e => (congrFun ((W12_keep m c main_v16 (by decide)).trans <| (W11_keep m c main_v16 (by decide)).trans (W10_keep m c main_v16 (by decide))) (ix2 e 0)).trans
    (congrFun (W9_trgCol m c) e)
theorem W12_sf (c : Dev nD) :
    (fun e q => (W12 m c (Proc.devRef .tc main_v18_0) : S1703936x64.Idx → EReal) (ix2 e q)) = Kernel.sf (argsOfK m c) :=
  funext fun e => funext fun q => (congrFun ((W12_keep m c main_v18_0 (by decide)).trans (W11_keep m c main_v18_0 (by decide))) (ix2 e q)).trans
    (congrFun (congrFun (W10_sf m c) e) q)
theorem W12_sc (c : Dev nD) :
    (fun e h => (W12 m c (Proc.devRef .tc main_v18_1) : S1703936x4.Idx → EReal) (ix2 e h)) = Kernel.sc (argsOfK m c) :=
  funext fun e => funext fun h => (congrFun (W12_input m c 1 rfl) (ix2 e h)).trans (congrFun (congrFun (W11_sc m c) e) h)
theorem W12_g (c : Dev nD) :
    (W12 m c (Proc.devRef .tc main_v21) : S1x1.Idx → EReal) (ix2 0 0) = Kernel.g (argsOfK m c) :=
  (congrFun (W12_input m c 2 rfl) (ix2 0 0)).trans (W11_g m c)

theorem W13_out (c : Dev nD) :
    (W13 m c (Proc.devRef .tc main_v23) : S1703936x64.Idx → EReal) = (dat3 (F := Ideal) (atRef (W12 m)) c).arrAt 5 cfg3.N := by
  unfold W13; exact Pipeline.withArrays_arr spec3 winFacts3.arr_inj c (W12 m c) _ 5
set_option maxHeartbeats 400000 in
theorem W13_wfeat (c : Dev nD) (e : Fin 1703936) (h : Fin 4) (f : Fin 16) :
    (W13 m c (Proc.devRef .tc main_v23) : S1703936x64.Idx → EReal) (ix2 e (col h f))
      = wfeat (Kernel.sf (argsOfK m c)) (Kernel.al (argsOfK m c)) e h f :=
  (congrFun (W13_out m c) (ix2 e (col h f))).trans ((final3_5 (atRef (W12 m)) c e h f).trans
    (congrFun (congrFun (congrFun (wfeat_congr (W12_sf m c)
      (alpha_congr (W12_sc m c) (W12_g m c) (gath_congr (W12_trgCol m c) (W12_tn m c)))) e) h) f))

theorem W13_trgRow (c : Dev nD) :
    (fun e => (W13 m c (Proc.devRef .tc main_v17) : S1x1703936.Idx → BitVec 32) (ix2 0 e)) = eidx (argsOfK m c) 1 :=
  funext fun e => (congrFun ((W13_keep m c main_v17 (by decide)).trans (W12_input m c 0 rfl)) (ix2 0 e)).trans (congrFun (W11_trgRow m c) e)
theorem W13_rows (c : Dev nD) :
    (fun e q => (W13 m c (Proc.devRef .tc main_v23) : S1703936x64.Idx → EReal) (ix2 e q))
      = fun e q => wfeat (Kernel.sf (argsOfK m c)) (Kernel.al (argsOfK m c)) e
          ⟨q.val / 16, by have := q.isLt; omega⟩ ⟨q.val % 16, Nat.mod_lt _ (by decide)⟩ :=
  funext fun e => funext fun q =>
    (congrArg (fun q' => (W13 m c (Proc.devRef .tc main_v23) : S1703936x64.Idx → EReal) (ix2 e q')) (col_split q)).trans
      (W13_wfeat m c e _ _)

theorem W14_out (c : Dev nD) :
    (W14 m c (Proc.devRef .tc main_v24) : S106496x64.Idx → EReal) = (dat4 (F := Ideal) (atRef (W13 m)) c).arrAt 2 cfg4.N := by
  unfold W14; exact Pipeline.withArrays_arr spec4 winFacts4.arr_inj c (W13 m c) _ 2
set_option maxHeartbeats 400000 in
theorem W14_op (c : Dev nD) (n : Fin 106496) (q : Fin 64) :
    (W14 m c (Proc.devRef .tc main_v24) : S106496x64.Idx → EReal) (ix2 n q) = Kernel.op (argsOfK m c) n q :=
  (congrFun (W14_out m c) (ix2 n q)).trans ((final4_2 (atRef (W13 m)) c n q).trans
    (congrFun (congrFun (scat_congr (W13_trgRow m c) (W13_rows m c)) n) q))

end Values

end Chain

section Result
open Chain Cert.Spec
variable (m : (ℓ : Loc nD τ sig) → Buf (Elt Ideal) ℓ)

theorem W15_v27_apply (c : Dev nD) (h : Fin 4) (n : Fin 100000) (f : Fin 16) :
    (W15 m c (Proc.devRef .tc main_v27) : S4x100000x16.Idx → EReal) (ix3 h n f) = Cert.Spec.Kernel.out (argsOfK m c) h n f :=
  (congrFun (stretch9_out (W14 m c)) (ix3 h n f)).trans ((headsFirst_apply _ h n f).trans ((splitHeads_apply _ n h f).trans
    ((realNodes_apply _ n (col h f)).trans (W14_op m c (rnode n) (col h f)))))

end Result

end Cert.KernelIdeal.Hand

end
-- ==== Proof.RefStages.lean ====
import proofs.«417626_j75007308858099_3_alg».proof.ReferenceIdeal
import proofs.«417626_j75007308858099_3_alg».proof.Proof.Gen.ReferenceIdeal

noncomputable section

namespace Cert.ReferenceIdeal.HandRun

open Cert.ReferenceIdeal Cert.ReferenceIdeal.Gen Idealize.ShloMosaic

variable {F : FTy → Type} [FloatOps F]
variable (a0 : FVec F S100000x64 .f32) (a1 : FVec F S64x64 .f32) (a2 : FVec F S64 .f32)
  (a3 a4 : FVec F S1x4x16 .f32) (a5 : IVec S2x1600000 32)

def st_v0 : IVec S100000 32 := iotaInDim S100000 32 0
def st_v1 : IVec S1x100000 32 := broadcastInDim S1x100000 ![1] bcast_S100000_S1x100000_1 st_v0
def st_v2 : IVec S1x100000 32 := broadcastInDim S1x100000 ![1] bcast_S100000_S1x100000_1 st_v0
def st_v3 : IVec S2x100000 32 :=
  concatenate S2x100000 0 [⟨S1x100000, st_v1⟩, ⟨S1x100000, st_v2⟩] concatenates_S1x100000_S1x100000_S2x100000_d0
def st_v4 : IVec S2x1700000 32 :=
  concatenate S2x1700000 1 [⟨S2x1600000, a5⟩, ⟨S2x100000, st_v3⟩] concatenates_S2x1600000_S2x100000_S2x1700000_d1
def st_v5 : IVec S1x1700000 32 := extractStridedSlice S1x1700000 ![0, 0] (st_v4 a5) slices_S2x1700000_S1x1700000_0_0
def st_v6 : IVec S1700000 32 := shapeCast S1700000 (st_v5 a5) shapeCasts_S1x1700000_S1700000
def st_v7 : IVec S1x1700000 32 := extractStridedSlice S1x1700000 ![1, 0] (st_v4 a5) slices_S2x1700000_S1x1700000_1_0
def st_v8 : IVec S1700000 32 := shapeCast S1700000 (st_v7 a5) shapeCasts_S1x1700000_S1700000

def st_v9 : FVec F S100000x64 .f32 := Host.dotGeneral dot_S100000x64_S64x64_S100000x64_1_0_0_1_n_n none a0 a1
def st_v10 : FVec F S1x64 .f32 := broadcastInDim S1x64 ![1] bcast_S64_S1x64_1 a2
def st_v11 : FVec F S100000x64 .f32 := broadcastInDim S100000x64 ![0, 1] bcast_S1x64_S100000x64_0_1 (st_v10 a2)
def st_v12 : FVec F S100000x64 .f32 := addf (st_v9 a0 a1) (st_v11 a2)
def st_v13 : FVec F S100000x4x16 .f32 := shapeCast S100000x4x16 (st_v12 a0 a1 a2) shapeCasts_S100000x64_S100000x4x16

def st_c : IVec S_ 32 := constantI S_ 32 0#32
def st_v14 : IVec S1700000 32 := broadcastInDim S1700000 ![] bcast_S_S1700000 st_c
def st_v15 : IVec S1700000 1 := cmpi .slt (st_v6 a5) st_v14
def st_c_0 : IVec S_ 32 := constantI S_ 32 100000#32
def st_v16 : IVec S1700000 32 := broadcastInDim S1700000 ![] bcast_S_S1700000 st_c_0
def st_v17 : IVec S1700000 32 := addi (st_v6 a5) st_v16
def st_v18 : IVec S1700000 32 := select (st_v15 a5) (st_v17 a5) (st_v6 a5)
def st_v19 : IVec S1700000x1 32 := broadcastInDim S1700000x1 ![0] bcast_S1700000_S1700000x1_0 (st_v18 a5)

def st_v20 : FVec F S1700000x4x16 .f32 :=
  Host.gather gather_S100000x4x16_S1700000x1_S1700000x4x16_12_0_n_n_0_1_1416 (st_v13 a0 a1 a2) (st_v19 a5)
def st_v21 : FVec F S1700000x4x16 .f32 := broadcastInDim S1700000x4x16 ![0, 1, 2] bcast_S1x4x16_S1700000x4x16_0_1_2 a3
def st_v22 : FVec F S1700000x4x16 .f32 := mulf (st_v20 a0 a1 a2 a5) (st_v21 a3)
def st_cst : FVec F S_ .f32 := constant S_ .f32 0x00000000#32
def st_v23 : FVec F S1700000x4 .f32 :=
  Host.reduceAdd (st_v22 a0 a1 a2 a3 a5) (st_cst (F := F)) reducesTo_S1700000x4x16_S1700000x4_d2 h_S_
def st_v24 : FVec F S1700000x4x16 .f32 := broadcastInDim S1700000x4x16 ![0, 1, 2] bcast_S1x4x16_S1700000x4x16_0_1_2 a4
def st_v25 : FVec F S1700000x4x16 .f32 := mulf (st_v20 a0 a1 a2 a5) (st_v24 a4)
def st_v26 : FVec F S1700000x4 .f32 :=
  Host.reduceAdd (st_v25 a0 a1 a2 a4 a5) (st_cst (F := F)) reducesTo_S1700000x4x16_S1700000x4_d2 h_S_
def st_v27 : FVec F S1700000x4 .f32 := addf (st_v23 a0 a1 a2 a3 a5) (st_v26 a0 a1 a2 a4 a5)

def st_cst_2 : FVec F S_ .f32 := constant S_ .f32 0x3E4CCCCD#32
def st_l0 : FVec F S1700000x4 .f32 := broadcastInDim S1700000x4 ![] bcast_S_S1700000x4 (st_cst (F := F))
def st_l1 : IVec S1700000x4 1 := cmpf .oge (st_v27 a0 a1 a2 a3 a4 a5) (st_l0 (F := F))
def st_l2 : FVec F S_ .f32 := id (st_cst_2 (F := F))
def st_l3 : FVec F S1700000x4 .f32 := broadcastInDim S1700000x4 ![] bcast_S_S1700000x4 (st_l2 (F := F))
def st_l4 : FVec F S1700000x4 .f32 := mulf (st_l3 (F := F)) (st_v27 a0 a1 a2 a3 a4 a5)
def st_v28 : FVec F S1700000x4 .f32 :=
  select (st_l1 a0 a1 a2 a3 a4 a5) (st_v27 a0 a1 a2 a3 a4 a5) (st_l4 a0 a1 a2 a3 a4 a5)

def st_cst_3 : FVec F S_ .f32 := constant S_ .f32 0xFF800000#32
def st_v29 : FVec F S_ .f32 :=
  Host.reduce FloatOps.maximumf (st_v28 a0 a1 a2 a3 a4 a5) (st_cst_3 (F := F)) reducesTo_S1700000x4_S_d0_1 h_S_
def st_v30 : FVec F S1700000x4 .f32 := broadcastInDim S1700000x4 ![] bcast_S_S1700000x4 (st_v29 a0 a1 a2 a3 a4 a5)
def st_v31 : FVec F S1700000x4 .f32 := subf (st_v28 a0 a1 a2 a3 a4 a5) (st_v30 a0 a1 a2 a3 a4 a5)
def st_v32 : FVec F S1700000x4 .f32 := Host.exp (st_v31 a0 a1 a2 a3 a4 a5)

def st_v33 : FVec F S100000x4 .f32 := broadcastInDim S100000x4 ![] bcast_S_S100000x4 (st_cst (F := F))
def st_v34 : IVec S1700000x1 32 := broadcastInDim S1700000x1 ![0] bcast_S1700000_S1700000x1_0 (st_v8 a5)
def st_v35 : FVec F S100000x4 .f32 :=
  Host.scatterAdd scatter_S100000x4_S1700000x1_S1700000x4_1_0_0_1 (st_v33 (F := F)) (st_v34 a5) (st_v32 a0 a1 a2 a3 a4 a5)
def st_v37 : IVec S1700000 1 := cmpi .slt (st_v8 a5) st_v14
def st_v39 : IVec S1700000 32 := addi (st_v8 a5) st_v16
def st_v40 : IVec S1700000 32 := select (st_v37 a5) (st_v39 a5) (st_v8 a5)
def st_v41 : IVec S1700000x1 32 := broadcastInDim S1700000x1 ![0] bcast_S1700000_S1700000x1_0 (st_v40 a5)
def st_v42 : FVec F S1700000x4 .f32 :=
  Host.gather gather_S100000x4_S1700000x1_S1700000x4_1_0_n_n_0_1_14 (st_v35 a0 a1 a2 a3 a4 a5) (st_v41 a5)

def st_cst_7 : FVec F S_ .f32 := constant S_ .f32 0x2EDBE6FF#32
def st_v43 : FVec F S1700000x4 .f32 := broadcastInDim S1700000x4 ![] bcast_S_S1700000x4 (st_cst_7 (F := F))
def st_v44 : FVec F S1700000x4 .f32 := addf (st_v42 a0 a1 a2 a3 a4 a5) (st_v43 (F := F))
def st_v45 : FVec F S1700000x4 .f32 := Host.divf (st_v32 a0 a1 a2 a3 a4 a5) (st_v44 a0 a1 a2 a3 a4 a5)
def st_v46 : FVec F S1700000x4x1 .f32 := broadcastInDim S1700000x4x1 ![0, 1] bcast_S1700000x4_S1700000x4x1_0_1 (st_v45 a0 a1 a2 a3 a4 a5)
def st_v47 : FVec F S1700000x4x16 .f32 :=
  broadcastInDim S1700000x4x16 ![0, 1, 2] bcast_S1700000x4x1_S1700000x4x16_0_1_2 (st_v46 a0 a1 a2 a3 a4 a5)
def st_v48 : FVec F S1700000x4x16 .f32 := mulf (st_v20 a0 a1 a2 a5) (st_v47 a0 a1 a2 a3 a4 a5)
def st_v49 : FVec F S100000x4x16 .f32 := broadcastInDim S100000x4x16 ![] bcast_S_S100000x4x16 (st_cst (F := F))
def st_v51 : FVec F S100000x4x16 .f32 :=
  Host.scatterAdd scatter_S100000x4x16_S1700000x1_S1700000x4x16_12_0_0_1 (st_v49 (F := F)) (st_v34 a5) (st_v48 a0 a1 a2 a3 a4 a5)
def st_v52 : FVec F S4x100000x16 .f32 :=
  transpose S4x100000x16 [1, 0, 2] (st_v51 a0 a1 a2 a3 a4 a5) transposes_S100000x4x16_S4x100000x16_1_0_2

end Cert.ReferenceIdeal.HandRun

end
-- ==== Proof.RefRun.lean ====
import proofs.«417626_j75007308858099_3_alg».proof.ReferenceIdeal
import proofs.«417626_j75007308858099_3_alg».proof.Proof.Gen.ReferenceIdeal
import proofs.«417626_j75007308858099_3_alg».proof.Proof.RefStages
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev opsEdges : List (HloOp τ sig (Elt F)) :=
  [ nullary main_v0 (iotaInDim S100000 32 0),
    unary main_v0 main_v1 (broadcastInDim S1x100000 ![1] bcast_S100000_S1x100000_1 : (⟨S100000, .i32⟩ : BufTy).Contents (Elt F) → (⟨S1x100000, .i32⟩ : BufTy).Contents (Elt F)),
    unary main_v0 main_v2 (broadcastInDim S1x100000 ![1] bcast_S100000_S1x100000_1 : (⟨S100000, .i32⟩ : BufTy).Contents (Elt F) → (⟨S1x100000, .i32⟩ : BufTy).Contents (Elt F)),
    binary main_v1 main_v2 main_v3 ((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)),
    binary main_arg5 main_v3 main_v4 ((fun a b => concatenate S2x1700000 1 [⟨S2x1600000, a⟩, ⟨S2x100000, b⟩] concatenates_S2x1600000_S2x100000_S2x1700000_d1) : (⟨S2x1600000, .i32⟩ : BufTy).Contents (Elt F) → (⟨S2x100000, .i32⟩ : BufTy).Contents (Elt F) → (⟨S2x1700000, .i32⟩ : BufTy).Contents (Elt F)),
    unary main_v4 main_v5 ((extractStridedSlice S1x1700000 ![0, 0] · slices_S2x1700000_S1x1700000_0_0) : (⟨S2x1700000, .i32⟩ : BufTy).Contents (Elt F) → (⟨S1x1700000, .i32⟩ : BufTy).Contents (Elt F)),
    reshape main_v5 main_v6 rfl shapeCasts_S1x1700000_S1700000,
    unary main_v4 main_v7 ((extractStridedSlice S1x1700000 ![1, 0] · slices_S2x1700000_S1x1700000_1_0) : (⟨S2x1700000, .i32⟩ : BufTy).Contents (Elt F) → (⟨S1x1700000, .i32⟩ : BufTy).Contents (Elt F)),
    reshape main_v7 main_v8 rfl shapeCasts_S1x1700000_S1700000 ]

theorem opsEdges_sub : (opsEdges : List (HloOp τ sig (Elt F))).Forall fun op => op.bufs ⊆ tcRefs τ sig :=
  ⟨nullary_bufs_sub .., unary_bufs_sub .., unary_bufs_sub .., binary_bufs_sub .., binary_bufs_sub .., unary_bufs_sub .., reshape_bufs_sub .., unary_bufs_sub .., reshape_bufs_sub ..⟩

abbrev opsLinear : List (HloOp τ sig (Elt F)) :=
  [ binary main_arg0 main_arg1 main_v9 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg2 main_v10 (broadcastInDim S1x64 ![1] bcast_S64_S1x64_1 : (⟨S64, .f32⟩ : BufTy).Contents (Elt F) → (⟨S1x64, .f32⟩ : BufTy).Contents (Elt F)),
    unary main_v10 main_v11 (broadcastInDim S100000x64 ![0, 1] bcast_S1x64_S100000x64_0_1 : (⟨S1x64, .f32⟩ : BufTy).Contents (Elt F) → (⟨S100000x64, .f32⟩ : BufTy).Contents (Elt F)),
    binary main_v9 main_v11 main_v12 (addf : (⟨S100000x64, .f32⟩ : BufTy).Contents (Elt F) → (⟨S100000x64, .f32⟩ : BufTy).Contents (Elt F) → (⟨S100000x64, .f32⟩ : BufTy).Contents (Elt F)),
    reshape main_v12 main_v13 rfl shapeCasts_S100000x64_S100000x4x16 ]

theorem opsLinear_sub : (opsLinear : List (HloOp τ sig (Elt F))).Forall fun op => op.bufs ⊆ tcRefs τ sig :=
  ⟨binary_bufs_sub .., unary_bufs_sub .., unary_bufs_sub .., binary_bufs_sub .., reshape_bufs_sub ..⟩

abbrev opsWrapSrc : List (HloOp τ sig (Elt F)) :=
  [ nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v6 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_0 (constantI S_ 32 100000#32),
    unary main_c_0 main_v16 (broadcastInDim S1700000 ![] bcast_S_S1700000 : (⟨S_, .i32⟩ : BufTy).Contents (Elt F) → (⟨S1700000, .i32⟩ : BufTy).Contents (Elt F)),
    binary main_v6 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v6 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)) ]

theorem opsWrapSrc_sub : (opsWrapSrc : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩

abbrev opsLogits : List (HloOp τ sig (Elt F)) :=
  [ binary main_v13 main_v19 main_v20 ((fun x i => Host.gather gather_S100000x4x16_S1700000x1_S1700000x4x16_12_0_n_n_0_1_1416 x i) : (⟨S100000x4x16, .f32⟩ : BufTy).Contents (Elt F) → (⟨S1700000x1, .i32⟩ : BufTy).Contents (Elt F) → (⟨S1700000x4x16, .f32⟩ : BufTy).Contents (Elt F)),
    unary main_arg3 main_v21 (broadcastInDim S1700000x4x16 ![0, 1, 2] bcast_S1x4x16_S1700000x4x16_0_1_2 : (⟨S1x4x16, .f32⟩ : BufTy).Contents (Elt F) → (⟨S1700000x4x16, .f32⟩ : BufTy).Contents (Elt F)),
    binary main_v20 main_v21 main_v22 (mulf : (⟨S1700000x4x16, .f32⟩ : BufTy).Contents (Elt F) → (⟨S1700000x4x16, .f32⟩ : BufTy).Contents (Elt F) → (⟨S1700000x4x16, .f32⟩ : BufTy).Contents (Elt F)),
    nullary main_cst (constant S_ .f32 0x00000000#32),
    binary main_v22 main_cst main_v23 ((fun x v => Host.reduceAdd x v reducesTo_S1700000x4x16_S1700000x4_d2 h_S_) : (⟨S1700000x4x16, .f32⟩ : BufTy).Contents (Elt F) → (⟨S_, .f32⟩ : BufTy).Contents (Elt F) → (⟨S1700000x4, .f32⟩ : BufTy).Contents (Elt F)),
    unary main_arg4 main_v24 (broadcastInDim S1700000x4x16 ![0, 1, 2] bcast_S1x4x16_S1700000x4x16_0_1_2 : (⟨S1x4x16, .f32⟩ : BufTy).Contents (Elt F) → (⟨S1700000x4x16, .f32⟩ : BufTy).Contents (Elt F)),
    binary main_v20 main_v24 main_v25 (mulf : (⟨S1700000x4x16, .f32⟩ : BufTy).Contents (Elt F) → (⟨S1700000x4x16, .f32⟩ : BufTy).Contents (Elt F) → (⟨S1700000x4x16, .f32⟩ : BufTy).Contents (Elt F)),
    nullary main_cst_1 (constant S_ .f32 0x00000000#32),
    binary main_v25 main_cst_1 main_v26 ((fun x v => Host.reduceAdd x v reducesTo_S1700000x4x16_S1700000x4_d2 h_S_) : (⟨S1700000x4x16, .f32⟩ : BufTy).Contents (Elt F) → (⟨S_, .f32⟩ : BufTy).Contents (Elt F) → (⟨S1700000x4, .f32⟩ : BufTy).Contents (Elt F)),
    binary main_v23 main_v26 main_v27 (addf : (⟨S1700000x4, .f32⟩ : BufTy).Contents (Elt F) → (⟨S1700000x4, .f32⟩ : BufTy).Contents (Elt F) → (⟨S1700000x4, .f32⟩ : BufTy).Contents (Elt F)) ]

theorem opsLogits_sub : (opsLogits : List (HloOp τ sig (Elt F))).Forall fun op => op.bufs ⊆ tcRefs τ sig :=
  ⟨binary_bufs_sub .., unary_bufs_sub .., binary_bufs_sub .., nullary_bufs_sub .., binary_bufs_sub .., unary_bufs_sub .., binary_bufs_sub .., nullary_bufs_sub .., binary_bufs_sub .., binary_bufs_sub ..⟩

abbrev opsLeaky : List (HloOp τ sig (Elt F)) :=
  [ nullary main_cst_2 (constant S_ .f32 0x3E4CCCCD#32),
    TRef.nullary main_call0.cst (constant S_ .f32 0x00000000#32),
    TRef.unary main_call0.cst main_call0.v0 (broadcastInDim S1700000x4 ![] bcast_S_S1700000x4),
    TRef.binary (.of main_v27 : TRef sig ⟨S1700000x4, .f32⟩) main_call0.v0 main_call0.v1 (cmpf .oge),
    TRef.unary (.of main_cst_2 : TRef sig ⟨S_, .f32⟩) main_call0.v2 id,
    TRef.unary main_call0.v2 main_call0.v3 (broadcastInDim S1700000x4 ![] bcast_S_S1700000x4),
    TRef.binary main_call0.v3 (.of main_v27 : TRef sig ⟨S1700000x4, .f32⟩) main_call0.v4 mulf,
    TRef.ternary main_call0.v1 (.of main_v27 : TRef sig ⟨S1700000x4, .f32⟩) main_call0.v4 main_call0.call0.v0 select ]

theorem opsLeaky_sub : (opsLeaky : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩

abbrev opsExpSum : List (HloOp τ sig (Elt F)) :=
  [ nullary main_cst_3 (constant S_ .f32 0xFF800000#32),
    binary main_v28 main_cst_3 main_v29 ((fun x v => Host.reduce FloatOps.maximumf x v reducesTo_S1700000x4_S_d0_1 h_S_) : (⟨S1700000x4, .f32⟩ : BufTy).Contents (Elt F) → (⟨S_, .f32⟩ : BufTy).Contents (Elt F) → (⟨S_, .f32⟩ : BufTy).Contents (Elt F)),
    unary main_v29 main_v30 (broadcastInDim S1700000x4 ![] bcast_S_S1700000x4 : (⟨S_, .f32⟩ : BufTy).Contents (Elt F) → (⟨S1700000x4, .f32⟩ : BufTy).Contents (Elt F)),
    binary main_v28 main_v30 main_v31 (subf : (⟨S1700000x4, .f32⟩ : BufTy).Contents (Elt F) → (⟨S1700000x4, .f32⟩ : BufTy).Contents (Elt F) → (⟨S1700000x4, .f32⟩ : BufTy).Contents (Elt F)),
    unary main_v31 main_v32 (Host.exp : (⟨S1700000x4, .f32⟩ : BufTy).Contents (Elt F) → (⟨S1700000x4, .f32⟩ : BufTy).Contents (Elt F)),
    nullary main_cst_4 (constant S_ .f32 0x00000000#32),
    unary main_cst_4 main_v33 (broadcastInDim S100000x4 ![] bcast_S_S100000x4 : (⟨S_, .f32⟩ : BufTy).Contents (Elt F) → (⟨S100000x4, .f32⟩ : BufTy).Contents (Elt F)),
    unary main_v8 main_v34 (broadcastInDim S1700000x1 ![0] bcast_S1700000_S1700000x1_0 : (⟨S1700000, .i32⟩ : BufTy).Contents (Elt F) → (⟨S1700000x1, .i32⟩ : BufTy).Contents (Elt F)),
    ternary main_v33 main_v34 main_v32 main_v35 ((fun x i u => Host.scatterAdd scatter_S100000x4_S1700000x1_S1700000x4_1_0_0_1 x i u) : (⟨S100000x4, .f32⟩ : BufTy).Contents (Elt F) → (⟨S1700000x1, .i32⟩ : BufTy).Contents (Elt F) → (⟨S1700000x4, .f32⟩ : BufTy).Contents (Elt F) → (⟨S100000x4, .f32⟩ : BufTy).Contents (Elt F)) ]

theorem opsExpSum_sub : (opsExpSum : List (HloOp τ sig (Elt F))).Forall fun op => op.bufs ⊆ tcRefs τ sig :=
  ⟨nullary_bufs_sub .., binary_bufs_sub .., unary_bufs_sub .., binary_bufs_sub .., unary_bufs_sub .., nullary_bufs_sub .., unary_bufs_sub .., unary_bufs_sub .., ternary_bufs_sub ..⟩

abbrev opsWrapTrg : List (HloOp τ sig (Elt F)) :=
  [ nullary main_c_5 (constantI S_ 32 0#32),
    unary main_c_5 main_v36 (broadcastInDim S1700000 ![] bcast_S_S1700000 : (⟨S_, .i32⟩ : BufTy).Contents (Elt F) → (⟨S1700000, .i32⟩ : BufTy).Contents (Elt F)),
    binary main_v8 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v38 (broadcastInDim S1700000 ![] bcast_S_S1700000 : (⟨S_, .i32⟩ : BufTy).Contents (Elt F) → (⟨S1700000, .i32⟩ : BufTy).Contents (Elt F)),
    binary main_v8 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v8 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)) ]

theorem opsWrapTrg_sub : (opsWrapTrg : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩

abbrev opsWeights : List (HloOp τ sig (Elt F)) :=
  [ binary main_v35 main_v41 main_v42 ((fun x i => Host.gather gather_S100000x4_S1700000x1_S1700000x4_1_0_n_n_0_1_14 x i) : (⟨S100000x4, .f32⟩ : BufTy).Contents (Elt F) → (⟨S1700000x1, .i32⟩ : BufTy).Contents (Elt F) → (⟨S1700000x4, .f32⟩ : BufTy).Contents (Elt F)),
    nullary main_cst_7 (constant S_ .f32 0x2EDBE6FF#32),
    unary main_cst_7 main_v43 (broadcastInDim S1700000x4 ![] bcast_S_S1700000x4 : (⟨S_, .f32⟩ : BufTy).Contents (Elt F) → (⟨S1700000x4, .f32⟩ : BufTy).Contents (Elt F)),
    binary main_v42 main_v43 main_v44 (addf : (⟨S1700000x4, .f32⟩ : BufTy).Contents (Elt F) → (⟨S1700000x4, .f32⟩ : BufTy).Contents (Elt F) → (⟨S1700000x4, .f32⟩ : BufTy).Contents (Elt F)),
    binary main_v32 main_v44 main_v45 (Host.divf : (⟨S1700000x4, .f32⟩ : BufTy).Contents (Elt F) → (⟨S1700000x4, .f32⟩ : BufTy).Contents (Elt F) → (⟨S1700000x4, .f32⟩ : BufTy).Contents (Elt F)),
    unary main_v45 main_v46 (broadcastInDim S1700000x4x1 ![0, 1] bcast_S1700000x4_S1700000x4x1_0_1 : (⟨S1700000x4, .f32⟩ : BufTy).Contents (Elt F) → (⟨S1700000x4x1, .f32⟩ : BufTy).Contents (Elt F)),
    unary main_v46 main_v47 (broadcastInDim S1700000x4x16 ![0, 1, 2] bcast_S1700000x4x1_S1700000x4x16_0_1_2 : (⟨S1700000x4x1, .f32⟩ : BufTy).Contents (Elt F) → (⟨S1700000x4x16, .f32⟩ : BufTy).Contents (Elt F)),
    binary main_v20 main_v47 main_v48 (mulf : (⟨S1700000x4x16, .f32⟩ : BufTy).Contents (Elt F) → (⟨S1700000x4x16, .f32⟩ : BufTy).Contents (Elt F) → (⟨S1700000x4x16, .f32⟩ : BufTy).Contents (Elt F)) ]

theorem opsWeights_sub : (opsWeights : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub ..⟩

abbrev opsOut : List (HloOp τ sig (Elt F)) :=
  [ nullary main_cst_8 (constant S_ .f32 0x00000000#32),
    unary main_cst_8 main_v49 (broadcastInDim S100000x4x16 ![] bcast_S_S100000x4x16 : (⟨S_, .f32⟩ : BufTy).Contents (Elt F) → (⟨S100000x4x16, .f32⟩ : BufTy).Contents (Elt F)),
    unary main_v8 main_v50 (broadcastInDim S1700000x1 ![0] bcast_S1700000_S1700000x1_0 : (⟨S1700000, .i32⟩ : BufTy).Contents (Elt F) → (⟨S1700000x1, .i32⟩ : BufTy).Contents (Elt F)),
    ternary main_v49 main_v50 main_v48 main_v51 ((fun x i u => Host.scatterAdd scatter_S100000x4x16_S1700000x1_S1700000x4x16_12_0_0_1 x i u) : (⟨S100000x4x16, .f32⟩ : BufTy).Contents (Elt F) → (⟨S1700000x1, .i32⟩ : BufTy).Contents (Elt F) → (⟨S1700000x4x16, .f32⟩ : BufTy).Contents (Elt F) → (⟨S100000x4x16, .f32⟩ : BufTy).Contents (Elt F)),
    unary main_v51 main_v52 ((transpose S4x100000x16 [1, 0, 2] · transposes_S100000x4x16_S4x100000x16_1_0_2) : (⟨S100000x4x16, .f32⟩ : BufTy).Contents (Elt F) → (⟨S4x100000x16, .f32⟩ : BufTy).Contents (Elt F)) ]

theorem opsOut_sub : (opsOut : List (HloOp τ sig (Elt F))).Forall fun op => op.bufs ⊆ tcRefs τ sig :=
  ⟨nullary_bufs_sub .., unary_bufs_sub .., unary_bufs_sub .., ternary_bufs_sub .., unary_bufs_sub ..⟩

abbrev ops : List (HloOp τ sig (Elt F)) :=
  opsEdges ++ opsLinear ++ opsWrapSrc ++ opsLogits ++ opsLeaky ++ opsExpSum ++ opsWrapTrg ++ opsWeights ++ opsOut

theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append (forall_append (forall_append (forall_append (forall_append (forall_append (forall_append
    opsEdges_sub opsLinear_sub) opsWrapSrc_sub) opsLogits_sub) opsLeaky_sub) opsExpSum_sub) opsWrapTrg_sub) opsWeights_sub) opsOut_sub

section Stretches

variable (A0 : FVec F S100000x64 .f32) (A1 : FVec F S64x64 .f32) (A2 : FVec F S64 .f32)
  (A3 A4 : FVec F S1x4x16 .f32) (A5 : IVec S2x1600000 32)

structure AtStart (W : Valuation τ sig (Elt F)) : Prop where
  a0 : W (main_arg0 : DevRef τ sig) = A0
  a1 : W (main_arg1 : DevRef τ sig) = A1
  a2 : W (main_arg2 : DevRef τ sig) = A2
  a3 : W (main_arg3 : DevRef τ sig) = A3
  a4 : W (main_arg4 : DevRef τ sig) = A4
  a5 : W (main_arg5 : DevRef τ sig) = A5

structure AtEdges (W : Valuation τ sig (Elt F)) : Prop where
  v6 : W (main_v6 : DevRef τ sig) = st_v6 A5
  v8 : W (main_v8 : DevRef τ sig) = st_v8 A5
  a0 : W (main_arg0 : DevRef τ sig) = A0
  a1 : W (main_arg1 : DevRef τ sig) = A1
  a2 : W (main_arg2 : DevRef τ sig) = A2
  a3 : W (main_arg3 : DevRef τ sig) = A3
  a4 : W (main_arg4 : DevRef τ sig) = A4

structure AtLinear (W : Valuation τ sig (Elt F)) : Prop where
  v6 : W (main_v6 : DevRef τ sig) = st_v6 A5
  v8 : W (main_v8 : DevRef τ sig) = st_v8 A5
  v13 : W (main_v13 : DevRef τ sig) = st_v13 A0 A1 A2
  a3 : W (main_arg3 : DevRef τ sig) = A3
  a4 : W (main_arg4 : DevRef τ sig) = A4

structure AtWrapSrc (W : Valuation τ sig (Elt F)) : Prop where
  v8 : W (main_v8 : DevRef τ sig) = st_v8 A5
  v13 : W (main_v13 : DevRef τ sig) = st_v13 A0 A1 A2
  v19 : W (main_v19 : DevRef τ sig) = st_v19 A5
  a3 : W (main_arg3 : DevRef τ sig) = A3
  a4 : W (main_arg4 : DevRef τ sig) = A4

structure AtLogits (W : Valuation τ sig (Elt F)) : Prop where
  v8 : W (main_v8 : DevRef τ sig) = st_v8 A5
  v20 : W (main_v20 : DevRef τ sig) = st_v20 A0 A1 A2 A5
  v27 : W (main_v27 : DevRef τ sig) = st_v27 A0 A1 A2 A3 A4 A5

structure AtLeaky (W : Valuation τ sig (Elt F)) : Prop where
  v8 : W (main_v8 : DevRef τ sig) = st_v8 A5
  v20 : W (main_v20 : DevRef τ sig) = st_v20 A0 A1 A2 A5
  v28 : W (main_v28 : DevRef τ sig) = st_v28 A0 A1 A2 A3 A4 A5

structure AtExpSum (W : Valuation τ sig (Elt F)) : Prop where
  v8 : W (main_v8 : DevRef τ sig) = st_v8 A5
  v20 : W (main_v20 : DevRef τ sig) = st_v20 A0 A1 A2 A5
  v32 : W (main_v32 : DevRef τ sig) = st_v32 A0 A1 A2 A3 A4 A5
  v35 : W (main_v35 : DevRef τ sig) = st_v35 A0 A1 A2 A3 A4 A5

structure AtWrapTrg (W : Valuation τ sig (Elt F)) : Prop where
  v8 : W (main_v8 : DevRef τ sig) = st_v8 A5
  v20 : W (main_v20 : DevRef τ sig) = st_v20 A0 A1 A2 A5
  v32 : W (main_v32 : DevRef τ sig) = st_v32 A0 A1 A2 A3 A4 A5
  v35 : W (main_v35 : DevRef τ sig) = st_v35 A0 A1 A2 A3 A4 A5
  v41 : W (main_v41 : DevRef τ sig) = st_v41 A5

structure AtWeights (W : Valuation τ sig (Elt F)) : Prop where
  v8 : W (main_v8 : DevRef τ sig) = st_v8 A5
  v48 : W (main_v48 : DevRef τ sig) = st_v48 A0 A1 A2 A3 A4 A5

variable {A0 A1 A2 A3 A4 A5} {W : Valuation τ sig (Elt F)}

theorem stepEdges (h : AtStart A0 A1 A2 A3 A4 A5 W) : AtEdges A0 A1 A2 A3 A4 A5 (after opsEdges W) where
  v6 := by after_results; rw [h.a5]; rfl
  v8 := by after_results; rw [h.a5]; rfl
  a0 := by after_results; exact h.a0
  a1 := by after_results; exact h.a1
  a2 := by after_results; exact h.a2
  a3 := by after_results; exact h.a3
  a4 := by after_results; exact h.a4

theorem stepLinear (h : AtEdges A0 A1 A2 A3 A4 A5 W) : AtLinear A0 A1 A2 A3 A4 A5 (after opsLinear W) where
  v6 := by after_results; exact h.v6
  v8 := by after_results; exact h.v8
  v13 := by after_results; rw [h.a0, h.a1, h.a2]; rfl
  a3 := by after_results; exact h.a3
  a4 := by after_results; exact h.a4

theorem stepWrapSrc (h : AtLinear A0 A1 A2 A3 A4 A5 W) : AtWrapSrc A0 A1 A2 A3 A4 A5 (after opsWrapSrc W) where
  v8 := by after_results; exact h.v8
  v13 := by after_results; exact h.v13
  v19 := by after_results; rw [h.v6]; rfl
  a3 := by after_results; exact h.a3
  a4 := by after_results; exact h.a4

theorem stepLogits (h : AtWrapSrc A0 A1 A2 A3 A4 A5 W) : AtLogits A0 A1 A2 A3 A4 A5 (after opsLogits W) where
  v8 := by after_results; exact h.v8
  v20 := by after_results; rw [h.v13, h.v19]; rfl
  v27 := by after_results; rw [h.v13, h.v19, h.a3, h.a4]; rfl

theorem stepLeaky (h : AtLogits A0 A1 A2 A3 A4 A5 W) : AtLeaky A0 A1 A2 A3 A4 A5 (after opsLeaky W) where
  v8 := by after_results; exact h.v8
  v20 := by after_results; exact h.v20
  v28 := by
    after_results
    simp only [TRef.ofBuf, TRef.toBuf, cast_eq]
    rw [h.v27]; rfl

theorem stepExpSum (h : AtLeaky A0 A1 A2 A3 A4 A5 W) : AtExpSum A0 A1 A2 A3 A4 A5 (after opsExpSum W) where
  v8 := by after_results; exact h.v8
  v20 := by after_results; exact h.v20
  v32 := by after_results; rw [h.v28]; rfl
  v35 := by after_results; rw [h.v28, h.v8]; rfl

theorem stepWrapTrg (h : AtExpSum A0 A1 A2 A3 A4 A5 W) : AtWrapTrg A0 A1 A2 A3 A4 A5 (after opsWrapTrg W) where
  v8 := by after_results; exact h.v8
  v20 := by after_results; exact h.v20
  v32 := by after_results; exact h.v32
  v35 := by after_results; exact h.v35
  v41 := by after_results; rw [h.v8]; rfl

theorem stepWeights (h : AtWrapTrg A0 A1 A2 A3 A4 A5 W) : AtWeights A0 A1 A2 A3 A4 A5 (after opsWeights W) where
  v8 := by after_results; exact h.v8
  v48 := by after_results; rw [h.v35, h.v41, h.v32, h.v20]; rfl

theorem stepOut (h : AtWeights A0 A1 A2 A3 A4 A5 W) :
    after opsOut W (main_v52 : DevRef τ sig) = st_v52 A0 A1 A2 A3 A4 A5 := by
  after_results; rw [h.v8, h.v48]; rfl

end Stretches

theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

theorem out_eq (V : Valuation τ sig (Elt F)) :
    after ops V (main_v52 : DevRef τ sig)
      = st_v52 (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [ops, after_concat]
  exact stepOut (stepWeights (stepWrapTrg (stepExpSum (stepLeaky (stepLogits (stepWrapSrc (stepLinear (stepEdges
    ⟨rfl, rfl, rfl, rfl, rfl, rfl⟩))))))))

theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) := by
  simp only [ops, after_concat]
  refine ⟨?_, ?_, ?_, ?_, ?_, ?_⟩ <;> after_results_simp

theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v52)
        = st_v52 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v52).trans (out_eq (launchContents m c)),
        (h c main_arg0).trans (args_eq (launchContents m c)).1,
        (h c main_arg1).trans (args_eq (launchContents m c)).2.1,
        (h c main_arg2).trans (args_eq (launchContents m c)).2.2.1,
        (h c main_arg3).trans (args_eq (launchContents m c)).2.2.2.1,
        (h c main_arg4).trans (args_eq (launchContents m c)).2.2.2.2.1,
        (h c main_arg5).trans (args_eq (launchContents m c)).2.2.2.2.2⟩)
    (run_seq scopedRefs_eq scopedSems_eq defs main (fun _ => ops) main_eq (fun _ => ops_sub) m ρ)

end Cert.ReferenceIdeal.HandRun

end
-- ==== Proof.LibGatherScatter.lean ====
import Idealize.ShloMosaic.PureOps
import Idealize.ShloMosaic.PureOps.Ideal
import Idealize.ShloMosaic.Lib.ValueIdx
import Mathlib.Algebra.BigOperators.Group.Finset.Basic

noncomputable section

open scoped BigOperators

namespace Cert.LibGatherScatter

open Idealize.ShloMosaic Idealize.ShloMosaic.ValueIdx

def clampRow (N : Nat) (hN : 0 < N) {w : Nat} (v : BitVec w) : Fin N :=
  ⟨min v.toInt.toNat (N - 1), by omega⟩

section Gather3
variable {α : Type} {N A B R w : Nat}

theorem gather3_apply (hN : 0 < N)
    (d : GatherDims ⟨3, ![N, A, B]⟩ ⟨2, ![R, 1]⟩ ⟨3, ![R, A, B]⟩)
    (hod : d.offsetDims = [1, 2]) (hcd : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![R, 1]⟩ w) (r : Fin R) (a : Fin A) (b : Fin B) :
    Host.gather d x idx (ix3 r a b) = x (ix3 (clampRow N hN (idx (ix2 r 0))) a b) := by
  obtain ⟨od, cd, ob, sb, sm, iv, ss, wf⟩ := d
  dsimp only at hod hcd hob hsb hsm hiv hss
  subst hod hcd hob hsb hsm hiv hss
  unfold Host.gather
  congr 1
  funext c
  refine Fin.ext ?_
  match c with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨3, ![N, A, B]⟩)
        { offsetDims := [1, 2], collapsedSliceDims := [0], operandBatchingDims := [], startIndicesBatchingDims := [],
          startIndexMap := [0], indexVectorDim := 1, sliceSizes := ![1, A, B], wf := wf } (ix3 r a b)
        ⟨List.idxOf (0 : Fin 3) [0], List.idxOf_lt_length_iff.2 (List.mem_singleton.mpr rfl)⟩ = ix2 r 0 := by
      funext e; refine Fin.ext ?_
      match e with
      | ⟨0, _⟩ => rfl
      | ⟨1, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start GatherDims.offCoord
    rw [dif_neg (show (1 : Fin 3) ∉ [0] by decide),
      dif_pos ((GatherDims.mem_sKept _ _).mpr ⟨(show (1 : Fin 3) ∉ [0] by decide), List.not_mem_nil⟩)]
    simp only [Nat.add_zero, Nat.zero_add]
    rfl
  | ⟨2, _⟩ =>
    show GatherDims.start _ _ idx 2 + GatherDims.batchCoord _ _ 2 + GatherDims.offCoord _ _ 2 = _
    rw [GatherDims.batchCoord_eq_zero _ _ _ List.not_mem_nil]
    unfold GatherDims.start GatherDims.offCoord
    rw [dif_neg (show (2 : Fin 3) ∉ [0] by decide),
      dif_pos ((GatherDims.mem_sKept _ _).mpr ⟨(show (2 : Fin 3) ∉ [0] by decide), List.not_mem_nil⟩)]
    simp only [Nat.add_zero, Nat.zero_add]
    rfl

end Gather3

section Gather2
variable {α : Type} {N A R w : Nat}

theorem gather2_apply (hN : 0 < N)
    (d : GatherDims ⟨2, ![N, A]⟩ ⟨2, ![R, 1]⟩ ⟨2, ![R, A]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, A])
    (x : (⟨2, ![N, A]⟩ : Shape).Idx → α) (idx : IVec ⟨2, ![R, 1]⟩ w) (r : Fin R) (a : Fin A) :
    Host.gather d x idx (ix2 r a) = x (ix2 (clampRow N hN (idx (ix2 r 0))) a) := by
  obtain ⟨od, cd, ob, sb, sm, iv, ss, wf⟩ := d
  dsimp only at hod hcd hob hsb hsm hiv hss
  subst hod hcd hob hsb hsm hiv hss
  unfold Host.gather
  congr 1
  funext c
  refine Fin.ext ?_
  match c with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, A]⟩)
        { offsetDims := [1], collapsedSliceDims := [0], operandBatchingDims := [], startIndicesBatchingDims := [],
          startIndexMap := [0], indexVectorDim := 1, sliceSizes := ![1, A], wf := wf } (ix2 r a)
        ⟨List.idxOf (0 : Fin 2) [0], List.idxOf_lt_length_iff.2 (List.mem_singleton.mpr rfl)⟩ = ix2 r 0 := by
      funext e; refine Fin.ext ?_
      match e with
      | ⟨0, _⟩ => rfl
      | ⟨1, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨(show (1 : Fin 2) ∉ [0] by decide), List.not_mem_nil⟩)]
    simp only [Nat.add_zero, Nat.zero_add]
    rfl

end Gather2

section Landing
variable {s si u : Shape} {w : Nat}

theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hb
      have ha := congrArg Fin.val (congrFun (Option.some.inj h) a)
      simp only at ha
      have := hb a
      omega
    · exact absurd h (by simp)
  · intro h
    have hb : ∀ a, 0 ≤ d.start j idx a + (d.window j a : ℤ) ∧ d.start j idx a + (d.window j a : ℤ) < s.size a := by
      intro a
      have := h a
      have := (i a).isLt
      omega
    rw [dif_pos hb]
    congr 1
    funext a
    refine Fin.ext ?_
    have := h a
    simp only
    omega

theorem mem_kept_iff (s : Shape) (axes : List (Fin s.rank)) (a : Fin s.rank) : a ∈ s.kept axes ↔ a ∉ axes := by
  simp [Shape.kept, List.mem_filter, List.mem_finRange]

end Landing

section Scatter2
variable {N A R w : Nat}

theorem scatter2_lands (d : ScatterDims ⟨2, ![N, A]⟩ ⟨2, ![R, 1]⟩ ⟨2, ![R, A]⟩)
    (huw : d.updateWindowDims = [1]) (hiw : d.insertedWindowDims = [0]) (hsd : d.scatterDimsToOperandDims = [0])
    (hiv : d.indexVectorDim = 1)
    (idx : IVec ⟨2, ![R, 1]⟩ w) (r : Fin R) (a' : Fin A) (n : Fin N) (a : Fin A) :
    d.resultIdx? (ix2 r a') idx = some (ix2 n a) ↔ (idx (ix2 r 0)).toInt = (n.val : ℤ) ∧ a' = a := by
  rw [resultIdx?_eq_some_iff]
  obtain ⟨uw, iw, sd, iv, wf⟩ := d
  dsimp only at huw hiw hsd hiv
  subst huw hiw hsd hiv
  have hsi : ScatterDims.siIdx (s := ⟨2, ![N, A]⟩)
      { updateWindowDims := [1], insertedWindowDims := [0], scatterDimsToOperandDims := [0], indexVectorDim := 1,
        wf := wf } (ix2 r a')
      ⟨List.idxOf (0 : Fin 2) [0], List.idxOf_lt_length_iff.2 (List.mem_singleton.mpr rfl)⟩ = ix2 r 0 := by
    funext e; refine Fin.ext ?_
    match e with
    | ⟨0, _⟩ => rfl
    | ⟨1, _⟩ => rfl
  have hs0 : ScatterDims.start (s := ⟨2, ![N, A]⟩)
      { updateWindowDims := [1], insertedWindowDims := [0], scatterDimsToOperandDims := [0], indexVectorDim := 1,
        wf := wf } (ix2 r a') idx 0 = (idx (ix2 r 0)).toInt := by
    unfold ScatterDims.start
    rw [dif_pos (List.mem_singleton.mpr rfl), hsi]
  have hs1 : ScatterDims.start (s := ⟨2, ![N, A]⟩)
      { updateWindowDims := [1], insertedWindowDims := [0], scatterDimsToOperandDims := [0], indexVectorDim := 1,
        wf := wf } (ix2 r a') idx 1 = 0 := by
    unfold ScatterDims.start
    rw [dif_neg (show (1 : Fin 2) ∉ [0] by decide)]
  have hw0 : ScatterDims.window (s := ⟨2, ![N, A]⟩) (si := ⟨2, ![R, 1]⟩)
      { updateWindowDims := [1], insertedWindowDims := [0], scatterDimsToOperandDims := [0], indexVectorDim := 1,
        wf := wf } (ix2 r a') 0 = 0 := by
    unfold ScatterDims.window
    rw [dif_neg (fun h => (mem_kept_iff _ _ _).mp h (List.mem_singleton.mpr rfl))]
  have hw1 : ScatterDims.window (s := ⟨2, ![N, A]⟩) (si := ⟨2, ![R, 1]⟩)
      { updateWindowDims := [1], insertedWindowDims := [0], scatterDimsToOperandDims := [0], indexVectorDim := 1,
        wf := wf } (ix2 r a') 1 = a'.val := by
    unfold ScatterDims.window
    rw [dif_pos ((mem_kept_iff _ _ _).mpr (show (1 : Fin 2) ∉ [0] by decide))]
    rfl
  constructor
  · intro h
    have h0 : ScatterDims.start _ _ idx 0 + ((ScatterDims.window _ _ 0 : ℕ) : ℤ) = ((n.val : ℕ) : ℤ) := h 0
    have h1 : ScatterDims.start _ _ idx 1 + ((ScatterDims.window _ _ 1 : ℕ) : ℤ) = ((a.val : ℕ) : ℤ) := h 1
    rw [hs0, hw0] at h0
    rw [hs1, hw1] at h1
    refine ⟨by simpa using h0, Fin.ext ?_⟩
    have : ((a'.val : ℕ) : ℤ) = (a.val : ℤ) := by simpa using h1
    exact_mod_cast this
  · rintro ⟨h0, rfl⟩ c
    match c with
    | ⟨0, _⟩ =>
      show ScatterDims.start _ _ idx 0 + ((ScatterDims.window _ _ 0 : ℕ) : ℤ) = _
      rw [hs0, hw0, h0]; simp
    | ⟨1, _⟩ =>
      show ScatterDims.start _ _ idx 1 + ((ScatterDims.window _ _ 1 : ℕ) : ℤ) = _
      rw [hs1, hw1]; simp

theorem scatterAdd2_apply {φ : FTy} (d : ScatterDims ⟨2, ![N, A]⟩ ⟨2, ![R, 1]⟩ ⟨2, ![R, A]⟩)
    (huw : d.updateWindowDims = [1]) (hiw : d.insertedWindowDims = [0]) (hsd : d.scatterDimsToOperandDims = [0])
    (hiv : d.indexVectorDim = 1)
    (x : FVec Ideal ⟨2, ![N, A]⟩ φ) (idx : IVec ⟨2, ![R, 1]⟩ w) (upd : FVec Ideal ⟨2, ![R, A]⟩ φ)
    (n : Fin N) (a : Fin A) :
    Host.scatterAdd (F := Ideal) d x idx upd (ix2 n a)
      = x (ix2 n a) + ∑ r ∈ Finset.univ.filter (fun r : Fin R => (idx (ix2 r 0)).toInt = (n.val : ℤ)), upd (ix2 r a) := by
  have hl := scatter2_lands d huw hiw hsd hiv idx
  unfold Host.scatterAdd
  rw [Ideal.hostScatterAdd_def]
  unfold Ideal.hostScatterAdd
  congr 1
  refine Finset.sum_nbij' (fun j => (j 0 : Fin R)) (fun r => ix2 r a) ?_ ?_ ?_ ?_ ?_
  · intro j hj
    obtain ⟨r, a', rfl⟩ : ∃ (r : Fin R) (a' : Fin A), j = ix2 r a' := ⟨j 0, j 1, eq_ix2 j⟩
    exact Finset.mem_filter.mpr ⟨Finset.mem_univ _, ((hl r a' n a).mp (Finset.mem_filter.mp hj).2).1⟩
  · intro r hr
    exact Finset.mem_filter.mpr ⟨Finset.mem_univ _, (hl r a n a).mpr ⟨(Finset.mem_filter.mp hr).2, rfl⟩⟩
  · intro j hj
    obtain ⟨r, a', rfl⟩ : ∃ (r : Fin R) (a' : Fin A), j = ix2 r a' := ⟨j 0, j 1, eq_ix2 j⟩
    obtain rfl := ((hl r a' n a).mp (Finset.mem_filter.mp hj).2).2
    rfl
  · intro r _
    rfl
  · intro j hj
    obtain ⟨r, a', rfl⟩ : ∃ (r : Fin R) (a' : Fin A), j = ix2 r a' := ⟨j 0, j 1, eq_ix2 j⟩
    obtain rfl := ((hl r a' n a).mp (Finset.mem_filter.mp hj).2).2
    rfl

end Scatter2

section Scatter3
variable {N A B R w : Nat}

theorem scatter3_lands (d : ScatterDims ⟨3, ![N, A, B]⟩ ⟨2, ![R, 1]⟩ ⟨3, ![R, A, B]⟩)
    (huw : d.updateWindowDims = [1, 2]) (hiw : d.insertedWindowDims = [0]) (hsd : d.scatterDimsToOperandDims = [0])
    (hiv : d.indexVectorDim = 1)
    (idx : IVec ⟨2, ![R, 1]⟩ w) (r : Fin R) (a' : Fin A) (b' : Fin B) (n : Fin N) (a : Fin A) (b : Fin B) :
    d.resultIdx? (ix3 r a' b') idx = some (ix3 n a b)
      ↔ (idx (ix2 r 0)).toInt = (n.val : ℤ) ∧ a' = a ∧ b' = b := by
  rw [resultIdx?_eq_some_iff]
  obtain ⟨uw, iw, sd, iv, wf⟩ := d
  dsimp only at huw hiw hsd hiv
  subst huw hiw hsd hiv
  have hsi : ScatterDims.siIdx (s := ⟨3, ![N, A, B]⟩)
      { updateWindowDims := [1, 2], insertedWindowDims := [0], scatterDimsToOperandDims := [0], indexVectorDim := 1,
        wf := wf } (ix3 r a' b')
      ⟨List.idxOf (0 : Fin 3) [0], List.idxOf_lt_length_iff.2 (List.mem_singleton.mpr rfl)⟩ = ix2 r 0 := by
    funext e; refine Fin.ext ?_
    match e with
    | ⟨0, _⟩ => rfl
    | ⟨1, _⟩ => rfl
  have hs0 : ScatterDims.start (s := ⟨3, ![N, A, B]⟩)
      { updateWindowDims := [1, 2], insertedWindowDims := [0], scatterDimsToOperandDims := [0], indexVectorDim := 1,
        wf := wf } (ix3 r a' b') idx 0 = (idx (ix2 r 0)).toInt := by
    unfold ScatterDims.start
    rw [dif_pos (List.mem_singleton.mpr rfl), hsi]
  have hs1 : ScatterDims.start (s := ⟨3, ![N, A, B]⟩)
      { updateWindowDims := [1, 2], insertedWindowDims := [0], scatterDimsToOperandDims := [0], indexVectorDim := 1,
        wf := wf } (ix3 r a' b') idx 1 = 0 := by
    unfold ScatterDims.start
    rw [dif_neg (show (1 : Fin 3) ∉ [0] by decide)]
  have hs2 : ScatterDims.start (s := ⟨3, ![N, A, B]⟩)
      { updateWindowDims := [1, 2], insertedWindowDims := [0], scatterDimsToOperandDims := [0], indexVectorDim := 1,
        wf := wf } (ix3 r a' b') idx 2 = 0 := by
    unfold ScatterDims.start
    rw [dif_neg (show (2 : Fin 3) ∉ [0] by decide)]
  have hw0 : ScatterDims.window (s := ⟨3, ![N, A, B]⟩) (si := ⟨2, ![R, 1]⟩)
      { updateWindowDims := [1, 2], insertedWindowDims := [0], scatterDimsToOperandDims := [0], indexVectorDim := 1,
        wf := wf } (ix3 r a' b') 0 = 0 := by
    unfold ScatterDims.window
    rw [dif_neg (fun h => (mem_kept_iff _ _ _).mp h (List.mem_singleton.mpr rfl))]
  have hw1 : ScatterDims.window (s := ⟨3, ![N, A, B]⟩) (si := ⟨2, ![R, 1]⟩)
      { updateWindowDims := [1, 2], insertedWindowDims := [0], scatterDimsToOperandDims := [0], indexVectorDim := 1,
        wf := wf } (ix3 r a' b') 1 = a'.val := by
    unfold ScatterDims.window
    rw [dif_pos ((mem_kept_iff _ _ _).mpr (show (1 : Fin 3) ∉ [0] by decide))]
    rfl
  have hw2 : ScatterDims.window (s := ⟨3, ![N, A, B]⟩) (si := ⟨2, ![R, 1]⟩)
      { updateWindowDims := [1, 2], insertedWindowDims := [0], scatterDimsToOperandDims := [0], indexVectorDim := 1,
        wf := wf } (ix3 r a' b') 2 = b'.val := by
    unfold ScatterDims.window
    rw [dif_pos ((mem_kept_iff _ _ _).mpr (show (2 : Fin 3) ∉ [0] by decide))]
    rfl
  constructor
  · intro h
    have h0 : ScatterDims.start _ _ idx 0 + ((ScatterDims.window _ _ 0 : ℕ) : ℤ) = ((n.val : ℕ) : ℤ) := h 0
    have h1 : ScatterDims.start _ _ idx 1 + ((ScatterDims.window _ _ 1 : ℕ) : ℤ) = ((a.val : ℕ) : ℤ) := h 1
    have h2 : ScatterDims.start _ _ idx 2 + ((ScatterDims.window _ _ 2 : ℕ) : ℤ) = ((b.val : ℕ) : ℤ) := h 2
    rw [hs0, hw0] at h0
    rw [hs1, hw1] at h1
    rw [hs2, hw2] at h2
    refine ⟨by simpa using h0, Fin.ext ?_, Fin.ext ?_⟩
    · have : ((a'.val : ℕ) : ℤ) = (a.val : ℤ) := by simpa using h1
      exact_mod_cast this
    · have : ((b'.val : ℕ) : ℤ) = (b.val : ℤ) := by simpa using h2
      exact_mod_cast this
  · rintro ⟨h0, rfl, rfl⟩ c
    match c with
    | ⟨0, _⟩ =>
      show ScatterDims.start _ _ idx 0 + ((ScatterDims.window _ _ 0 : ℕ) : ℤ) = _
      rw [hs0, hw0, h0]; simp
    | ⟨1, _⟩ =>
      show ScatterDims.start _ _ idx 1 + ((ScatterDims.window _ _ 1 : ℕ) : ℤ) = _
      rw [hs1, hw1]; simp
    | ⟨2, _⟩ =>
      show ScatterDims.start _ _ idx 2 + ((ScatterDims.window _ _ 2 : ℕ) : ℤ) = _
      rw [hs2, hw2]; simp

theorem scatterAdd3_apply {φ : FTy} (d : ScatterDims ⟨3, ![N, A, B]⟩ ⟨2, ![R, 1]⟩ ⟨3, ![R, A, B]⟩)
    (huw : d.updateWindowDims = [1, 2]) (hiw : d.insertedWindowDims = [0]) (hsd : d.scatterDimsToOperandDims = [0])
    (hiv : d.indexVectorDim = 1)
    (x : FVec Ideal ⟨3, ![N, A, B]⟩ φ) (idx : IVec ⟨2, ![R, 1]⟩ w) (upd : FVec Ideal ⟨3, ![R, A, B]⟩ φ)
    (n : Fin N) (a : Fin A) (b : Fin B) :
    Host.scatterAdd (F := Ideal) d x idx upd (ix3 n a b)
      = x (ix3 n a b)
        + ∑ r ∈ Finset.univ.filter (fun r : Fin R => (idx (ix2 r 0)).toInt = (n.val : ℤ)), upd (ix3 r a b) := by
  have hl := scatter3_lands d huw hiw hsd hiv idx
  unfold Host.scatterAdd
  rw [Ideal.hostScatterAdd_def]
  unfold Ideal.hostScatterAdd
  congr 1
  refine Finset.sum_nbij' (fun j => (j 0 : Fin R)) (fun r => ix3 r a b) ?_ ?_ ?_ ?_ ?_
  · intro j hj
    obtain ⟨r, a', b', rfl⟩ : ∃ (r : Fin R) (a' : Fin A) (b' : Fin B), j = ix3 r a' b' := ⟨j 0, j 1, j 2, eq_ix3 j⟩
    exact Finset.mem_filter.mpr ⟨Finset.mem_univ _, ((hl r a' b' n a b).mp (Finset.mem_filter.mp hj).2).1⟩
  · intro r hr
    exact Finset.mem_filter.mpr ⟨Finset.mem_univ _, (hl r a b n a b).mpr ⟨(Finset.mem_filter.mp hr).2, rfl, rfl⟩⟩
  · intro j hj
    obtain ⟨r, a', b', rfl⟩ : ∃ (r : Fin R) (a' : Fin A) (b' : Fin B), j = ix3 r a' b' := ⟨j 0, j 1, j 2, eq_ix3 j⟩
    obtain ⟨-, rfl, rfl⟩ := (hl r a' b' n a b).mp (Finset.mem_filter.mp hj).2
    rfl
  · intro r _
    rfl
  · intro j hj
    obtain ⟨r, a', b', rfl⟩ : ∃ (r : Fin R) (a' : Fin A) (b' : Fin B), j = ix3 r a' b' := ⟨j 0, j 1, j 2, eq_ix3 j⟩
    obtain ⟨-, rfl, rfl⟩ := (hl r a' b' n a b).mp (Finset.mem_filter.mp hj).2
    rfl

end Scatter3

end Cert.LibGatherScatter

end
-- ==== Proof.RefValue.lean ====
import proofs.«417626_j75007308858099_3_alg».proof.Proof.RefStages
import proofs.«417626_j75007308858099_3_alg».proof.Proof.Spec
import proofs.«417626_j75007308858099_3_alg».proof.Proof.ArgsOf
import proofs.«417626_j75007308858099_3_alg».proof.Proof.LibGatherScatter
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.ReferenceIdeal.HandRun

open Cert.ReferenceIdeal Cert.ReferenceIdeal.Gen Idealize.ShloMosaic Idealize.ShloMosaic.ValueIdx
open Cert.LibGatherScatter

theorem st_v3_apply (r : Fin 2) (n : Fin 100000) : st_v3 (ix2 r n) = BitVec.ofNat 32 n.val := by
  have h1 : ∀ u : Fin 1, st_v1 (ix2 u n) = BitVec.ofNat 32 n.val := fun u =>
    (broadcastInDim_apply _ bcast_S100000_S1x100000_1 st_v0 (ix2 u n) (ix1 n) (fun a => by
      match a with
      | ⟨0, _⟩ => rfl)).trans rfl
  unfold st_v3
  match r with
  | ⟨0, _⟩ =>
    refine (concatenate_pair_apply_left (0 : Fin 2) st_v1 st_v2 _ (ix2 (⟨0, by omega⟩ : Fin 2) n) rfl
      (ix2 (0 : Fin 1) n) (fun b => by
        match b with
        | ⟨0, _⟩ => rfl
        | ⟨1, _⟩ => rfl)).trans (h1 0)
  | ⟨1, _⟩ =>
    refine (concatenate_pair_apply_right (0 : Fin 2) st_v1 st_v2 _ (ix2 (⟨1, by omega⟩ : Fin 2) n) rfl rfl
      (ix2 (0 : Fin 1) n) (fun b hb => by
        match b with
        | ⟨0, _⟩ => exact absurd rfl hb
        | ⟨1, _⟩ => rfl) rfl).trans (h1 0)

theorem st_v4_apply (a5 : IVec S2x1600000 32) (r : Fin 2) (e : Fin 1700000) :
    st_v4 a5 (ix2 r e)
      = if h1 : e.val < 1600000 then a5 (ix2 r ⟨e.val, h1⟩) else BitVec.ofNat 32 (e.val - 1600000) := by
  unfold st_v4
  by_cases h1 : e.val < 1600000
  · rw [dif_pos h1]
    exact concatenate_pair_apply_left (1 : Fin 2) a5 st_v3 _ (ix2 r e) rfl (ix2 r ⟨e.val, h1⟩) (fun b => by
      match b with
      | ⟨0, _⟩ => rfl
      | ⟨1, _⟩ => rfl)
  · rw [dif_neg h1]
    have he := e.isLt
    refine (concatenate_pair_apply_right (1 : Fin 2) a5 st_v3 _ (ix2 r e) rfl rfl
      (ix2 r (⟨e.val - 1600000, by omega⟩ : Fin 100000)) (fun b hb => by
        match b with
        | ⟨0, _⟩ => rfl
        | ⟨1, _⟩ => exact absurd rfl hb) (by
          show (e.val - 1600000) + 1600000 = e.val
          omega)).trans (st_v3_apply r _)

theorem st_v6_apply (a5 : IVec S2x1600000 32) (e : Fin 1700000) : st_v6 a5 (ix1 e) = st_v4 a5 (ix2 0 e) := by
  unfold st_v6 st_v5
  refine (shapeCast_1a_a_apply _ _ e).trans ?_
  exact slice2_axis0_apply 0 _ _ (0 : Fin 1) e (0 : Fin 2) rfl

theorem st_v8_apply (a5 : IVec S2x1600000 32) (e : Fin 1700000) : st_v8 a5 (ix1 e) = st_v4 a5 (ix2 1 e) := by
  unfold st_v8 st_v7
  refine (shapeCast_1a_a_apply _ _ e).trans ?_
  exact slice2_axis0_apply 1 _ _ (0 : Fin 1) e (1 : Fin 2) rfl

def wrapWord (x : BitVec 32) : BitVec 32 := if x.toInt < 0 then x + 100000#32 else x

theorem select_slt_zero (x : BitVec 32) :
    Scalar.select (IntOp.cmpi .slt x 0#32) (IntOp.addi x 100000#32) x = wrapWord x := by
  unfold wrapWord Scalar.select IntOp.cmpi IntOp.addi
  by_cases h : x.toInt < 0
  · have hs : x.slt 0#32 = true := by rw [BitVec.slt_iff_toInt_lt]; simpa using h
    rw [if_pos h, hs]; rfl
  · have hs : x.slt 0#32 = false := by
      rw [Bool.eq_false_iff]; intro hc; rw [BitVec.slt_iff_toInt_lt] at hc; exact h (by simpa using hc)
    rw [if_neg h, hs]; rfl

theorem st_v18_apply (a5 : IVec S2x1600000 32) (e : Fin 1700000) :
    st_v18 a5 (ix1 e) = wrapWord (st_v6 a5 (ix1 e)) := by
  refine Eq.trans ?_ (select_slt_zero _)
  rfl

theorem st_v40_apply (a5 : IVec S2x1600000 32) (e : Fin 1700000) :
    st_v40 a5 (ix1 e) = wrapWord (st_v8 a5 (ix1 e)) := by
  refine Eq.trans ?_ (select_slt_zero _)
  rfl

theorem col_apply {w : Nat} (v : IVec S1700000 w) (e : Fin 1700000) (u : Fin 1) :
    broadcastInDim S1700000x1 ![0] bcast_S1700000_S1700000x1_0 v (ix2 e u) = v (ix1 e) :=
  broadcastInDim_apply _ _ v (ix2 e u) (ix1 e) (fun a => by
    match a with
    | ⟨0, _⟩ => rfl)

theorem lhs_lin_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lhs_lin_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_lin_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_lin_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

theorem st_v9_apply (a0 : FVec Ideal S100000x64 .f32) (a1 : FVec Ideal S64x64 .f32) (n : Fin 100000) (c : Fin 64) :
    st_v9 a0 a1 (ix2 n c) = ∑ k : Fin 64, a0 (ix2 n k) * a1 (ix2 k c) := by
  unfold st_v9
  simp only [Host.dotGeneral]
  rw [Ideal.dotGeneral_apply,
    ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n c)
      ((contrEquiv1 dot_S100000x64_S64x64_S100000x64_1_0_0_1_n_n 64 rfl rfl).symm k) = ix2 n k :=
    funext fun a => Fin.ext (by
      match a with
      | ⟨0, _⟩ => exact lhs_lin_0 _ _
      | ⟨1, _⟩ => exact (lhs_lin_1 _ _).trans hk)
  have er : dot_S100000x64_S64x64_S100000x64_1_0_0_1_n_n.rhsIdx (ix2 n c)
      ((contrEquiv1 dot_S100000x64_S64x64_S100000x64_1_0_0_1_n_n 64 rfl rfl).symm k) = ix2 k c :=
    funext fun a => Fin.ext (by
      match a with
      | ⟨0, _⟩ => exact (rhs_lin_0 _ _).trans hk
      | ⟨1, _⟩ => exact rhs_lin_1 _ _)
  rw [el, er]

theorem st_v11_apply (a2 : FVec Ideal S64 .f32) (n : Fin 100000) (c : Fin 64) : st_v11 a2 (ix2 n c) = a2 (ix1 c) := by
  unfold st_v11 st_v10
  refine (broadcastInDim_apply _ _ _ (ix2 n c) (ix2 (0 : Fin 1) c) (fun a => by
    match a with
    | ⟨0, _⟩ => rfl
    | ⟨1, _⟩ => rfl)).trans ?_
  exact broadcastInDim_apply _ _ a2 (ix2 (0 : Fin 1) c) (ix1 c) (fun a => by
    match a with
    | ⟨0, _⟩ => rfl)

theorem st_v13_apply (a0 : FVec Ideal S100000x64 .f32) (a1 : FVec Ideal S64x64 .f32) (a2 : FVec Ideal S64 .f32)
    (n : Fin 100000) (h : Fin 4) (f : Fin 16) :
    st_v13 a0 a1 a2 (ix3 n h f)
      = (∑ k : Fin 64, a0 (ix2 n k) * a1 (ix2 k (Cert.Spec.col h f))) + a2 (ix1 (Cert.Spec.col h f)) := by
  unfold st_v13
  refine (shapeCast_apply _ _ (ix3 n h f) (ix2 n (Cert.Spec.col h f)) (by
    rw [Shape.rowMajor_val_two, Shape.rowMajor_val_three]
    show n.val * 64 + (h.val * 16 + f.val) = (n.val * 4 + h.val) * 16 + f.val
    omega)).trans ?_
  show st_v9 a0 a1 (ix2 n (Cert.Spec.col h f)) + st_v11 a2 (ix2 n (Cert.Spec.col h f)) = _
  rw [st_v9_apply, st_v11_apply]

theorem att_apply (a : FVec Ideal S1x4x16 .f32) (e : Fin 1700000) (h : Fin 4) (f : Fin 16) :
    broadcastInDim S1700000x4x16 ![0, 1, 2] bcast_S1x4x16_S1700000x4x16_0_1_2 a (ix3 e h f) = a (ix3 (0 : Fin 1) h f) :=
  broadcastInDim_apply _ _ a (ix3 e h f) (ix3 (0 : Fin 1) h f) (fun b => by
    match b with
    | ⟨0, _⟩ => rfl
    | ⟨1, _⟩ => rfl
    | ⟨2, _⟩ => rfl)

theorem colsum_apply (y : FVec Ideal S1700000x4x16 .f32) (e : Fin 1700000) (h : Fin 4) :
    Host.reduceAdd (F := Ideal) y (st_cst (F := Ideal)) reducesTo_S1700000x4x16_S1700000x4_d2 h_S_ (ix2 e h)
      = ∑ f : Fin 16, y (ix3 e h f) := by
  simp only [Host.reduceAdd, Ideal.hostReduceAdd_def]
  rw [Ideal.hostReduceAdd_single reducesTo_S1700000x4x16_S1700000x4_d2 (by decide)]
  have h0 : st_cst (F := Ideal) (Shape.Idx.first h_S_) = 0 := Ideal.ofBits_zero_f32
  rw [h0, zero_add]
  refine Finset.sum_congr rfl fun k _ => ?_
  exact congrArg y (funext fun a => Fin.ext (by
    match a with
    | ⟨0, _⟩ => rfl
    | ⟨1, _⟩ => rfl
    | ⟨2, _⟩ => rfl))

theorem logit_apply (g : FVec Ideal S1700000x4x16 .f32) (a3 a4 : FVec Ideal S1x4x16 .f32) (e : Fin 1700000) (h : Fin 4) :
    addf
        (Host.reduceAdd (F := Ideal) (mulf g (st_v21 a3)) (st_cst (F := Ideal)) reducesTo_S1700000x4x16_S1700000x4_d2 h_S_)
        (Host.reduceAdd (F := Ideal) (mulf g (st_v24 a4)) (st_cst (F := Ideal)) reducesTo_S1700000x4x16_S1700000x4_d2 h_S_)
        (ix2 e h)
      = (∑ f : Fin 16, g (ix3 e h f) * a3 (ix3 (0 : Fin 1) h f)) + (∑ f : Fin 16, g (ix3 e h f) * a4 (ix3 (0 : Fin 1) h f)) := by
  refine (addf_apply _ _ (ix2 e h)).trans ?_
  rw [colsum_apply, colsum_apply]
  refine congrArg₂ (· + ·) (Finset.sum_congr rfl fun f _ => ?_) (Finset.sum_congr rfl fun f _ => ?_)
  · exact (mulf_apply g (st_v21 a3) (ix3 e h f)).trans (congrArg (g (ix3 e h f) * ·) (att_apply a3 e h f))
  · exact (mulf_apply g (st_v24 a4) (ix3 e h f)).trans (congrArg (g (ix3 e h f) * ·) (att_apply a4 e h f))

theorem leaky_apply (x : FVec Ideal S1700000x4 .f32) (i : S1700000x4.Idx) :
    select (cmpf .oge x (st_l0 (F := Ideal))) x (mulf (st_l3 (F := Ideal)) x) i = Cert.Spec.leaky (x i) := rfl

theorem gmax_apply (x : FVec Ideal S1700000x4 .f32) :
    Host.reduce (FloatOps.maximumf (F := Ideal) (φ := .f32)) x (st_cst_3 (F := Ideal)) reducesTo_S1700000x4_S_d0_1 h_S_ ix0
      = Cert.Spec.gmax x := rfl

theorem splat_apply (v : FVec Ideal S_ .f32) (i : S1700000x4.Idx) :
    broadcastInDim S1700000x4 ![] bcast_S_S1700000x4 v i = v ix0 :=
  broadcastInDim_apply _ _ v i ix0 (fun a => a.elim0)

theorem expo_apply (s : FVec Ideal S1700000x4 .f32) (m : FVec Ideal S_ .f32) (i : S1700000x4.Idx) :
    Host.exp (F := Ideal) (subf s (broadcastInDim S1700000x4 ![] bcast_S_S1700000x4 m)) i = Ideal.exp (s i - m ix0) := by
  show Ideal.exp (s i - broadcastInDim S1700000x4 ![] bcast_S_S1700000x4 m i) = _
  rw [splat_apply]

theorem st_v4_eq_eidx (a0 : FVec Ideal S100000x64 .f32) (a1 : FVec Ideal S64x64 .f32) (a2 : FVec Ideal S64 .f32)
    (a3 a4 : FVec Ideal S1x4x16 .f32) (a5 : IVec S2x1600000 32) (r : Fin 2) (e : Fin 1700000) :
    st_v4 a5 (ix2 r e) = Cert.Spec.Ref.eidx (Cert.Spec.argsOf a0 a1 a2 a3 a4 a5) r e := by
  rw [st_v4_apply]
  rfl

theorem eidx_range (a : Cert.Spec.Args) (hr : Cert.Spec.InRange a) (r : Fin 2) (e : Fin 1700000) :
    0 ≤ (Cert.Spec.Ref.eidx a r e).toInt ∧ (Cert.Spec.Ref.eidx a r e).toInt < 100000 := by
  unfold Cert.Spec.Ref.eidx
  by_cases h1 : e.val < 1600000
  · rw [dif_pos h1]
    exact hr r ⟨e.val, h1⟩
  · rw [dif_neg h1]
    have he := e.isLt
    rw [StableHlo.Predicate.toInt_ofNat_small _ (by omega)]
    constructor <;> omega

theorem wrapWord_of_nonneg (x : BitVec 32) (h : 0 ≤ x.toInt) : wrapWord x = x := if_neg (not_lt.mpr h)

theorem nodeOf_eq_clampRow (x : BitVec 32) :
    Cert.Spec.Ref.nodeOf x = clampRow 100000 (by omega) (wrapWord x) := by
  refine Fin.ext ?_
  show (max 0 (min (wrapWord x).toInt 99999)).toNat = min (wrapWord x).toInt.toNat (100000 - 1)
  omega

theorem st_v19_apply (a5 : IVec S2x1600000 32) (e : Fin 1700000) (u : Fin 1) :
    st_v19 a5 (ix2 e u) = wrapWord (st_v4 a5 (ix2 0 e)) := by
  unfold st_v19
  rw [col_apply, st_v18_apply, st_v6_apply]

theorem st_v41_apply (a5 : IVec S2x1600000 32) (e : Fin 1700000) (u : Fin 1) :
    st_v41 a5 (ix2 e u) = wrapWord (st_v4 a5 (ix2 1 e)) := by
  unfold st_v41
  rw [col_apply, st_v40_apply, st_v8_apply]

theorem st_v34_apply (a5 : IVec S2x1600000 32) (e : Fin 1700000) (u : Fin 1) :
    st_v34 a5 (ix2 e u) = st_v4 a5 (ix2 1 e) := by
  unfold st_v34
  rw [col_apply, st_v8_apply]

theorem st_v20_apply (a0 : FVec Ideal S100000x64 .f32) (a1 : FVec Ideal S64x64 .f32) (a2 : FVec Ideal S64 .f32)
    (a3 a4 : FVec Ideal S1x4x16 .f32) (a5 : IVec S2x1600000 32) (e : Fin 1700000) (h : Fin 4) (f : Fin 16) :
    st_v20 a0 a1 a2 a5 (ix3 e h f) = Cert.Spec.Ref.sf (Cert.Spec.argsOf a0 a1 a2 a3 a4 a5) e (Cert.Spec.col h f) := by
  unfold st_v20
  refine (gather3_apply (N := 100000) (by omega) gather_S100000x4x16_S1700000x1_S1700000x4x16_12_0_n_n_0_1_1416
    rfl rfl rfl rfl rfl rfl rfl (st_v13 a0 a1 a2) (st_v19 a5) e h f).trans ?_
  rw [st_v19_apply, ← nodeOf_eq_clampRow, st_v13_apply, st_v4_eq_eidx a0 a1 a2 a3 a4 a5]
  rfl

theorem st_v27_apply (a0 : FVec Ideal S100000x64 .f32) (a1 : FVec Ideal S64x64 .f32) (a2 : FVec Ideal S64 .f32)
    (a3 a4 : FVec Ideal S1x4x16 .f32) (a5 : IVec S2x1600000 32) (e : Fin 1700000) (h : Fin 4) :
    st_v27 a0 a1 a2 a3 a4 a5 (ix2 e h)
      = (∑ f : Fin 16, Cert.Spec.Ref.sf (Cert.Spec.argsOf a0 a1 a2 a3 a4 a5) e (Cert.Spec.col h f) * (Cert.Spec.argsOf a0 a1 a2 a3 a4 a5).asrc h f)
        + (∑ f : Fin 16, Cert.Spec.Ref.sf (Cert.Spec.argsOf a0 a1 a2 a3 a4 a5) e (Cert.Spec.col h f) * (Cert.Spec.argsOf a0 a1 a2 a3 a4 a5).atrg h f) := by
  unfold st_v27 st_v23 st_v26 st_v22 st_v25
  refine (logit_apply (st_v20 a0 a1 a2 a5) a3 a4 e h).trans ?_
  refine congrArg₂ (· + ·) (Finset.sum_congr rfl fun f _ => ?_) (Finset.sum_congr rfl fun f _ => ?_)
  · exact congrArg (· * a3 (ix3 (0 : Fin 1) h f)) (st_v20_apply a0 a1 a2 a3 a4 a5 e h f)
  · exact congrArg (· * a4 (ix3 (0 : Fin 1) h f)) (st_v20_apply a0 a1 a2 a3 a4 a5 e h f)

theorem st_v28_apply (a0 : FVec Ideal S100000x64 .f32) (a1 : FVec Ideal S64x64 .f32) (a2 : FVec Ideal S64 .f32)
    (a3 a4 : FVec Ideal S1x4x16 .f32) (a5 : IVec S2x1600000 32) (e : Fin 1700000) (h : Fin 4) :
    st_v28 a0 a1 a2 a3 a4 a5 (ix2 e h) = Cert.Spec.Ref.sc (Cert.Spec.argsOf a0 a1 a2 a3 a4 a5) e h := by
  unfold st_v28 st_l1 st_l4
  refine (leaky_apply _ _).trans ?_
  rw [st_v27_apply]
  rfl

theorem st_v28_fun (a0 : FVec Ideal S100000x64 .f32) (a1 : FVec Ideal S64x64 .f32) (a2 : FVec Ideal S64 .f32)
    (a3 a4 : FVec Ideal S1x4x16 .f32) (a5 : IVec S2x1600000 32) :
    st_v28 a0 a1 a2 a3 a4 a5 = fun i => Cert.Spec.Ref.sc (Cert.Spec.argsOf a0 a1 a2 a3 a4 a5) ⟨(i 0).val, (i 0).isLt⟩ ⟨(i 1).val, (i 1).isLt⟩ := by
  funext i
  obtain ⟨e, h, rfl⟩ : ∃ (e : Fin 1700000) (h : Fin 4), i = ix2 e h := ⟨i 0, i 1, eq_ix2 i⟩
  exact st_v28_apply a0 a1 a2 a3 a4 a5 e h

theorem st_v29_apply (a0 : FVec Ideal S100000x64 .f32) (a1 : FVec Ideal S64x64 .f32) (a2 : FVec Ideal S64 .f32)
    (a3 a4 : FVec Ideal S1x4x16 .f32) (a5 : IVec S2x1600000 32) : st_v29 a0 a1 a2 a3 a4 a5 ix0 = Cert.Spec.Ref.g (Cert.Spec.argsOf a0 a1 a2 a3 a4 a5) := by
  unfold st_v29
  refine (gmax_apply _).trans ?_
  unfold Cert.Spec.Ref.g
  exact congrArg Cert.Spec.gmax (st_v28_fun a0 a1 a2 a3 a4 a5)

theorem st_v32_apply (a0 : FVec Ideal S100000x64 .f32) (a1 : FVec Ideal S64x64 .f32) (a2 : FVec Ideal S64 .f32)
    (a3 a4 : FVec Ideal S1x4x16 .f32) (a5 : IVec S2x1600000 32) (e : Fin 1700000) (h : Fin 4) :
    st_v32 a0 a1 a2 a3 a4 a5 (ix2 e h) = Cert.Spec.Ref.ex (Cert.Spec.argsOf a0 a1 a2 a3 a4 a5) e h := by
  unfold st_v32 st_v31 st_v30
  refine (expo_apply _ _ _).trans ?_
  rw [st_v28_apply, st_v29_apply]
  rfl

theorem into_eq (a0 : FVec Ideal S100000x64 .f32) (a1 : FVec Ideal S64x64 .f32) (a2 : FVec Ideal S64 .f32)
    (a3 a4 : FVec Ideal S1x4x16 .f32) (a5 : IVec S2x1600000 32) (hr : Cert.Spec.InRange (Cert.Spec.argsOf a0 a1 a2 a3 a4 a5)) (n : Fin 100000) :
    Finset.univ.filter (fun e : Fin 1700000 => (st_v4 a5 (ix2 1 e)).toInt = (n.val : ℤ))
      = Cert.Spec.Ref.into (Cert.Spec.argsOf a0 a1 a2 a3 a4 a5) n := by
  unfold Cert.Spec.Ref.into
  refine Finset.filter_congr fun e _ => ?_
  rw [st_v4_eq_eidx a0 a1 a2 a3 a4 a5]
  show _ ↔ (wrapWord (Cert.Spec.Ref.eidx (Cert.Spec.argsOf a0 a1 a2 a3 a4 a5) 1 e)).toInt = (n.val : ℤ)
  rw [wrapWord_of_nonneg _ (eidx_range _ hr 1 e).1]

theorem targets_eq (a0 : FVec Ideal S100000x64 .f32) (a1 : FVec Ideal S64x64 .f32) (a2 : FVec Ideal S64 .f32)
    (a3 a4 : FVec Ideal S1x4x16 .f32) (a5 : IVec S2x1600000 32) (hr : Cert.Spec.InRange (Cert.Spec.argsOf a0 a1 a2 a3 a4 a5)) (n : Fin 100000) :
    Finset.univ.filter (fun e : Fin 1700000 => (st_v34 a5 (ix2 e 0)).toInt = (n.val : ℤ))
      = Cert.Spec.Ref.into (Cert.Spec.argsOf a0 a1 a2 a3 a4 a5) n := by
  rw [← into_eq a0 a1 a2 a3 a4 a5 hr n]
  refine Finset.filter_congr fun e _ => ?_
  rw [st_v34_apply]

theorem st_v35_apply (a0 : FVec Ideal S100000x64 .f32) (a1 : FVec Ideal S64x64 .f32) (a2 : FVec Ideal S64 .f32)
    (a3 a4 : FVec Ideal S1x4x16 .f32) (a5 : IVec S2x1600000 32) (hr : Cert.Spec.InRange (Cert.Spec.argsOf a0 a1 a2 a3 a4 a5)) (n : Fin 100000) (h : Fin 4) :
    st_v35 a0 a1 a2 a3 a4 a5 (ix2 n h) = Cert.Spec.Ref.tn (Cert.Spec.argsOf a0 a1 a2 a3 a4 a5) n h := by
  unfold st_v35
  refine (scatterAdd2_apply scatter_S100000x4_S1700000x1_S1700000x4_1_0_0_1 rfl rfl rfl rfl _ _ _ n h).trans ?_
  have hz : st_v33 (F := Ideal) (ix2 n h) = 0 := Ideal.ofBits_zero_f32
  rw [hz, zero_add]
  unfold Cert.Spec.Ref.tn
  exact Finset.sum_congr (targets_eq a0 a1 a2 a3 a4 a5 hr n) (fun e _ => st_v32_apply a0 a1 a2 a3 a4 a5 e h)

theorem st_v42_apply (a0 : FVec Ideal S100000x64 .f32) (a1 : FVec Ideal S64x64 .f32) (a2 : FVec Ideal S64 .f32)
    (a3 a4 : FVec Ideal S1x4x16 .f32) (a5 : IVec S2x1600000 32) (hr : Cert.Spec.InRange (Cert.Spec.argsOf a0 a1 a2 a3 a4 a5)) (e : Fin 1700000) (h : Fin 4) :
    st_v42 a0 a1 a2 a3 a4 a5 (ix2 e h)
      = Cert.Spec.Ref.tn (Cert.Spec.argsOf a0 a1 a2 a3 a4 a5) (Cert.Spec.Ref.nodeOf (Cert.Spec.Ref.eidx (Cert.Spec.argsOf a0 a1 a2 a3 a4 a5) 1 e)) h := by
  unfold st_v42
  refine (gather2_apply (N := 100000) (by omega) gather_S100000x4_S1700000x1_S1700000x4_1_0_n_n_0_1_14
    rfl rfl rfl rfl rfl rfl rfl (st_v35 a0 a1 a2 a3 a4 a5) (st_v41 a5) e h).trans ?_
  rw [st_v41_apply, ← nodeOf_eq_clampRow, st_v35_apply a0 a1 a2 a3 a4 a5 hr, st_v4_eq_eidx a0 a1 a2 a3 a4 a5]

theorem weight_apply (ex dn : FVec Ideal S1700000x4 .f32) (i : S1700000x4.Idx) :
    Host.divf (F := Ideal) ex (addf dn (st_v43 (F := Ideal))) i
      = Ideal.div (ex i) (dn i + Ideal.ofBits .f32 0x2EDBE6FF#32) := rfl

theorem st_v45_apply (a0 : FVec Ideal S100000x64 .f32) (a1 : FVec Ideal S64x64 .f32) (a2 : FVec Ideal S64 .f32)
    (a3 a4 : FVec Ideal S1x4x16 .f32) (a5 : IVec S2x1600000 32) (hr : Cert.Spec.InRange (Cert.Spec.argsOf a0 a1 a2 a3 a4 a5)) (e : Fin 1700000) (h : Fin 4) :
    st_v45 a0 a1 a2 a3 a4 a5 (ix2 e h) = Cert.Spec.Ref.al (Cert.Spec.argsOf a0 a1 a2 a3 a4 a5) e h := by
  unfold st_v45 st_v44
  refine (weight_apply _ _ _).trans ?_
  rw [st_v32_apply, st_v42_apply a0 a1 a2 a3 a4 a5 hr]
  rfl

theorem headcols_apply (al : FVec Ideal S1700000x4 .f32) (e : Fin 1700000) (h : Fin 4) (f : Fin 16) :
    broadcastInDim S1700000x4x16 ![0, 1, 2] bcast_S1700000x4x1_S1700000x4x16_0_1_2
        (broadcastInDim S1700000x4x1 ![0, 1] bcast_S1700000x4_S1700000x4x1_0_1 al) (ix3 e h f)
      = al (ix2 e h) := by
  refine (broadcastInDim_apply _ _ _ (ix3 e h f) (ix3 e h (0 : Fin 1)) (fun b => by
    match b with
    | ⟨0, _⟩ => rfl
    | ⟨1, _⟩ => rfl
    | ⟨2, _⟩ => rfl)).trans ?_
  exact broadcastInDim_apply _ _ al (ix3 e h (0 : Fin 1)) (ix2 e h) (fun b => by
    match b with
    | ⟨0, _⟩ => rfl
    | ⟨1, _⟩ => rfl)

theorem st_v51_apply (a0 : FVec Ideal S100000x64 .f32) (a1 : FVec Ideal S64x64 .f32) (a2 : FVec Ideal S64 .f32)
    (a3 a4 : FVec Ideal S1x4x16 .f32) (a5 : IVec S2x1600000 32) (hr : Cert.Spec.InRange (Cert.Spec.argsOf a0 a1 a2 a3 a4 a5)) (n : Fin 100000) (h : Fin 4) (f : Fin 16) :
    st_v51 a0 a1 a2 a3 a4 a5 (ix3 n h f) = Cert.Spec.Ref.out (Cert.Spec.argsOf a0 a1 a2 a3 a4 a5) h n f := by
  unfold st_v51
  refine (scatterAdd3_apply scatter_S100000x4x16_S1700000x1_S1700000x4x16_12_0_0_1 rfl rfl rfl rfl _ _ _ n h f).trans ?_
  have hz : st_v49 (F := Ideal) (ix3 n h f) = 0 := Ideal.ofBits_zero_f32
  rw [hz, zero_add]
  unfold Cert.Spec.Ref.out
  refine Finset.sum_congr (targets_eq a0 a1 a2 a3 a4 a5 hr n) (fun e _ => ?_)
  refine (mulf_apply (st_v20 a0 a1 a2 a5) (st_v47 a0 a1 a2 a3 a4 a5) (ix3 e h f)).trans ?_
  rw [st_v20_apply, show st_v47 a0 a1 a2 a3 a4 a5 (ix3 e h f) = st_v45 a0 a1 a2 a3 a4 a5 (ix2 e h) from headcols_apply _ e h f,
    st_v45_apply a0 a1 a2 a3 a4 a5 hr]

theorem st_v52_apply (a0 : FVec Ideal S100000x64 .f32) (a1 : FVec Ideal S64x64 .f32) (a2 : FVec Ideal S64 .f32)
    (a3 a4 : FVec Ideal S1x4x16 .f32) (a5 : IVec S2x1600000 32) (hr : Cert.Spec.InRange (Cert.Spec.argsOf a0 a1 a2 a3 a4 a5)) (h : Fin 4) (n : Fin 100000) (f : Fin 16) :
    st_v52 a0 a1 a2 a3 a4 a5 (ix3 h n f) = Cert.Spec.Ref.out (Cert.Spec.argsOf a0 a1 a2 a3 a4 a5) h n f := by
  unfold st_v52
  refine (transpose_apply _ _ _ (ix3 h n f) (ix3 n h f) (fun b => by
    match b with
    | ⟨0, _⟩ => rfl
    | ⟨1, _⟩ => rfl
    | ⟨2, _⟩ => rfl)).trans ?_
  exact st_v51_apply a0 a1 a2 a3 a4 a5 hr n h f

end Cert.ReferenceIdeal.HandRun

end
-- ==== Proof.Bridge.lean ====
import proofs.«417626_j75007308858099_3_alg».proof.Proof.Spec
import Idealize.ShloMosaic.PureOps.Ideal
import Idealize.ShloMosaic.Lib.ValueIdx
import Mathlib.Algebra.BigOperators.Group.Finset.Basic
import Mathlib.Data.Fintype.BigOperators

noncomputable section

open scoped BigOperators

namespace Cert.Spec

open Idealize.ShloMosaic

def WordOk (x : BitVec 32) : Prop := 0 ≤ x.toInt ∧ x.toInt < 100000

theorem word_eq_ofNat_iff (x : BitVec 32) (j : ℕ) (hj : j < 2 ^ 32) :
    x = BitVec.ofNat 32 j ↔ x.toNat = j := by
  constructor
  · intro h
    subst h
    rw [BitVec.toNat_ofNat]
    exact Nat.mod_eq_of_lt hj
  · intro h
    subst h
    simp

theorem WordOk.toNat_lt {x : BitVec 32} (hx : WordOk x) : x.toNat < 100000 := by
  have h2 := x.isLt
  obtain ⟨h0, h1⟩ := hx
  rw [BitVec.toInt_eq_toNat_cond] at h0 h1
  split at h0 <;> omega

theorem WordOk.toInt_eq {x : BitVec 32} (hx : WordOk x) : x.toInt = (x.toNat : ℤ) := by
  have h2 := x.isLt
  obtain ⟨h0, h1⟩ := hx
  rw [BitVec.toInt_eq_toNat_cond] at h0 h1 ⊢
  split at h0 <;> omega

theorem wordOk_ofNat (j : ℕ) (hj : j < 100000) : WordOk (BitVec.ofNat 32 j) := by
  unfold WordOk
  rw [BitVec.toInt_eq_toNat_cond, BitVec.toNat_ofNat, Nat.mod_eq_of_lt (by omega)]
  split <;> omega

theorem nodeOf_val {x : BitVec 32} (hx : WordOk x) : (Ref.nodeOf x).val = x.toNat := by
  have hneg : ¬ x.toInt < 0 := by have := hx.1; omega
  have hlt := hx.toNat_lt
  have he := hx.toInt_eq
  simp only [Ref.nodeOf, if_neg hneg]
  omega

theorem oh_self (x : BitVec 32) : oh x x.toNat = 1 := by
  unfold oh
  rw [if_pos ((word_eq_ofNat_iff x x.toNat x.isLt).mpr rfl)]

theorem oh_ne (x : BitVec 32) (j : ℕ) (hj : j < 2 ^ 32) (h : x.toNat ≠ j) : oh x j = 0 := by
  unfold oh
  rw [if_neg (fun heq => h ((word_eq_ofNat_iff x j hj).mp heq))]

theorem eidx_real (a : Args) (r : Fin 2) (e : Fin 1700000) : eidx a r (real e) = Ref.eidx a r e := by
  have he := e.isLt
  unfold eidx Ref.eidx
  have hv : (real e).val = e.val := rfl
  by_cases h1 : e.val < 1600000
  · rw [dif_pos (show (real e).val < 1600000 from h1), dif_pos h1]
    rfl
  · rw [dif_neg (show ¬ (real e).val < 1600000 from h1), dif_neg h1,
      if_pos (show (real e).val < 1700000 from he)]
    rfl

theorem ref_eidx_ok (a : Args) (hr : InRange a) (r : Fin 2) (e : Fin 1700000) :
    WordOk (Ref.eidx a r e) := by
  have he := e.isLt
  unfold Ref.eidx
  by_cases h1 : e.val < 1600000
  · rw [dif_pos h1]
    exact hr r _
  · rw [dif_neg h1]
    exact wordOk_ofNat _ (by omega)

theorem eidx_pad (a : Args) (r : Fin 2) (e : Fin 1703936) (he : 1700000 ≤ e.val) :
    eidx a r e = 100000#32 := by
  unfold eidx
  rw [dif_neg (by omega), if_neg (by omega)]

def nodeEquiv : Fin 208 × Fin 512 ≃ Fin 106496 where
  toFun p := node p.1 p.2
  invFun j := (⟨j.val / 512, by have := j.isLt; omega⟩, ⟨j.val % 512, Nat.mod_lt _ (by decide)⟩)
  left_inv := by
    rintro ⟨t, jj⟩
    have := t.isLt
    have := jj.isLt
    apply Prod.ext <;> apply Fin.ext <;> simp only [node] <;> omega
  right_inv := by
    intro j
    apply Fin.ext
    simp only [node]
    omega

def edgeEquiv : Fin 208 × Fin 8192 ≃ Fin 1703936 where
  toFun p := edge p.1 p.2
  invFun j := (⟨j.val / 8192, by have := j.isLt; omega⟩, ⟨j.val % 8192, Nat.mod_lt _ (by decide)⟩)
  left_inv := by
    rintro ⟨t, ee⟩
    have := t.isLt
    have := ee.isLt
    apply Prod.ext <;> apply Fin.ext <;> simp only [edge] <;> omega
  right_inv := by
    intro j
    apply Fin.ext
    simp only [edge]
    omega

theorem sum_node (F : Fin 106496 → EReal) :
    ∑ t : Fin 208, ∑ jj : Fin 512, F (node t jj) = ∑ j, F j := by
  rw [← Fintype.sum_prod_type' (fun t jj => F (node t jj))]
  exact Fintype.sum_equiv nodeEquiv _ _ (fun _ => rfl)

theorem sum_edge (F : Fin 1703936 → EReal) :
    ∑ t : Fin 208, ∑ ee : Fin 8192, F (edge t ee) = ∑ e, F e := by
  rw [← Fintype.sum_prod_type' (fun t ee => F (edge t ee))]
  exact Fintype.sum_equiv edgeEquiv _ _ (fun _ => rfl)

theorem sum_real (G : Fin 1703936 → EReal) (hG : ∀ e : Fin 1703936, 1700000 ≤ e.val → G e = 0) :
    ∑ e, G e = ∑ e : Fin 1700000, G (real e) := by
  have hinj : Function.Injective real := fun x y h =>
    Fin.ext (show x.val = y.val from congrArg (fun z : Fin 1703936 => z.val) h)
  have hmap : ∑ x ∈ Finset.univ.map ⟨real, hinj⟩, G x = ∑ e : Fin 1700000, G (real e) :=
    Finset.sum_map Finset.univ ⟨real, hinj⟩ G
  rw [← hmap]
  symm
  apply Finset.sum_subset (Finset.subset_univ _)
  intro x _ hx
  apply hG
  by_contra hlt
  apply hx
  rw [Finset.mem_map]
  exact ⟨⟨x.val, by omega⟩, Finset.mem_univ _, Fin.ext rfl⟩

theorem gath_collapse {C : ℕ} (idx : Fin 1703936 → BitVec 32) (tbl : Fin 106496 → Fin C → EReal)
    (e : Fin 1703936) (c : Fin C) (h : (idx e).toNat < 106496) :
    gath idx tbl e c = tbl ⟨(idx e).toNat, h⟩ c := by
  unfold gath
  refine (sum_node (fun j => oh (idx e) j.val * tbl j c)).trans ?_
  rw [Finset.sum_eq_single (⟨(idx e).toNat, h⟩ : Fin 106496)]
  · rw [oh_self, one_mul]
  · intro j _ hj
    have hjlt := j.isLt
    rw [oh_ne _ _ (by omega) (fun heq => hj (Fin.ext heq.symm)), zero_mul]
  · intro hmem
    exact absurd (Finset.mem_univ _) hmem

theorem gath_real {C : ℕ} (a : Args) (hr : InRange a) (r : Fin 2)
    (tbl : Fin 106496 → Fin C → EReal) (tblR : Fin 100000 → Fin C → EReal)
    (h : ∀ n c, tbl (rnode n) c = tblR n c) (e : Fin 1700000) (c : Fin C) :
    gath (eidx a r) tbl (real e) c = tblR (Ref.nodeOf (Ref.eidx a r e)) c := by
  have hx := ref_eidx_ok a hr r e
  have hx' := hx.toNat_lt
  have hlt : (eidx a r (real e)).toNat < 106496 := by rw [eidx_real]; omega
  have hrow : (⟨(eidx a r (real e)).toNat, hlt⟩ : Fin 106496) = rnode (Ref.nodeOf (Ref.eidx a r e)) := by
    apply Fin.ext
    show (eidx a r (real e)).toNat = (Ref.nodeOf (Ref.eidx a r e)).val
    rw [nodeOf_val hx, eidx_real]
  rw [gath_collapse _ _ _ _ hlt, hrow, h]

theorem scat_flat {C : ℕ} (idx : Fin 1703936 → BitVec 32) (upd : Fin 1703936 → Fin C → EReal)
    (n : Fin 106496) (c : Fin C) :
    scat idx upd n c = ∑ e : Fin 1703936, oh (idx e) n.val * upd e c := by
  unfold scat
  exact sum_edge (fun e => oh (idx e) n.val * upd e c)

theorem scat_real {C : ℕ} (a : Args) (upd : Fin 1703936 → Fin C → EReal) (n : Fin 100000) (c : Fin C) :
    scat (eidx a 1) upd (rnode n) c
      = ∑ e : Fin 1700000, oh (Ref.eidx a 1 e) n.val * upd (real e) c := by
  have hn := n.isLt
  rw [scat_flat, sum_real]
  · refine Finset.sum_congr rfl fun e _ => ?_
    rw [eidx_real]
    rfl
  · intro e he
    rw [eidx_pad a 1 e he]
    have h100 : (100000#32 : BitVec 32).toNat = 100000 := by decide
    rw [oh_ne _ _ (by show n.val < 2 ^ 32; omega) (by rw [h100]; show 100000 ≠ n.val; omega), zero_mul]

theorem mem_into_iff (a : Args) (hr : InRange a) (n : Fin 100000) (e : Fin 1700000) :
    e ∈ Ref.into a n ↔ Ref.eidx a 1 e = BitVec.ofNat 32 n.val := by
  have hx := ref_eidx_ok a hr 1 e
  have hn := n.isLt
  have hneg : ¬ (Ref.eidx a 1 e).toInt < 0 := by have := hx.1; omega
  unfold Ref.into
  rw [Finset.mem_filter]
  simp only [Finset.mem_univ, true_and]
  rw [if_neg hneg, hx.toInt_eq, word_eq_ofNat_iff _ _ (by omega)]
  exact Nat.cast_inj

theorem sum_into (a : Args) (hr : InRange a) (n : Fin 100000) (F : Fin 1700000 → EReal) :
    ∑ e : Fin 1700000, oh (Ref.eidx a 1 e) n.val * F e = ∑ e ∈ Ref.into a n, F e := by
  have h1 : ∑ e ∈ Ref.into a n, oh (Ref.eidx a 1 e) n.val * F e
      = ∑ e, oh (Ref.eidx a 1 e) n.val * F e :=
    Finset.sum_subset (Finset.subset_univ _) (fun e _ he => by
      have hne : ¬ Ref.eidx a 1 e = BitVec.ofNat 32 n.val :=
        fun h => he ((mem_into_iff a hr n e).mpr h)
      unfold oh
      rw [if_neg hne, zero_mul])
  rw [← h1]
  refine Finset.sum_congr rfl fun e he => ?_
  unfold oh
  rw [if_pos ((mem_into_iff a hr n e).mp he), one_mul]

theorem scat_eq_sum_into {C : ℕ} (a : Args) (hr : InRange a)
    (upd : Fin 1703936 → Fin C → EReal) (updR : Fin 1700000 → Fin C → EReal)
    (h : ∀ e c, upd (real e) c = updR e c) (n : Fin 100000) (c : Fin C) :
    scat (eidx a 1) upd (rnode n) c = ∑ e ∈ Ref.into a n, updR e c := by
  rw [scat_real, ← sum_into a hr n]
  exact Finset.sum_congr rfl fun e _ => by rw [h]

theorem hp_rnode (a : Args) (n : Fin 100000) (c : Fin 64) : Kernel.hp a (rnode n) c = Ref.hp a n c := by
  have hn : (rnode n).val < 100000 := n.isLt
  unfold Kernel.hp lin Ref.hp
  have hrow : ∀ k, hpad a (rnode n) k = a.h n k := fun k => by
    unfold hpad
    rw [dif_pos hn]
    rfl
  simp only [hrow]

theorem sf_real (a : Args) (hr : InRange a) (e : Fin 1700000) (c : Fin 64) :
    Kernel.sf a (real e) c = Ref.sf a e c := by
  unfold Kernel.sf Ref.sf
  exact gath_real a hr 0 (Kernel.hp a) (Ref.hp a) (hp_rnode a) e c

theorem sc_real (a : Args) (hr : InRange a) (e : Fin 1700000) (h : Fin 4) :
    Kernel.sc a (real e) h = Ref.sc a e h := by
  unfold Kernel.sc Ref.sc score logit
  simp only [sf_real a hr]

theorem g_eq (a : Args) (hr : InRange a) : Kernel.g a = Ref.g a := by
  unfold Kernel.g Ref.g
  exact congrArg gmax (funext fun i => sc_real a hr _ _)

theorem expo_real (a : Args) (hr : InRange a) (e : Fin 1700000) (h : Fin 4) :
    expo (Kernel.sc a) (Kernel.g a) (real e) h = Ref.ex a e h := by
  unfold expo Ref.ex
  rw [sc_real a hr, g_eq a hr]

theorem tn_rnode (a : Args) (hr : InRange a) (n : Fin 100000) (h : Fin 4) :
    Kernel.tn a (rnode n) h = Ref.tn a n h := by
  unfold Kernel.tn Ref.tn
  exact scat_eq_sum_into a hr _ (Ref.ex a) (expo_real a hr) n h

theorem den_real (a : Args) (hr : InRange a) (e : Fin 1700000) (h : Fin 4) :
    gath (eidx a 1) (Kernel.tn a) (real e) h = Ref.tn a (Ref.nodeOf (Ref.eidx a 1 e)) h :=
  gath_real a hr 1 (Kernel.tn a) (Ref.tn a) (tn_rnode a hr) e h

theorem al_real (a : Args) (hr : InRange a) (e : Fin 1700000) (h : Fin 4) :
    Kernel.al a (real e) h = Ref.al a e h := by
  unfold Kernel.al alpha Ref.al
  rw [expo_real a hr, den_real a hr]

theorem col_split (h : Fin 4) (f : Fin 16) (p : (col h f).val / 16 < 4) (q : (col h f).val % 16 < 16) :
    (⟨(col h f).val / 16, p⟩ : Fin 4) = h ∧ (⟨(col h f).val % 16, q⟩ : Fin 16) = f := by
  have hf := f.isLt
  constructor
  · exact Fin.ext (by show (h.val * 16 + f.val) / 16 = h.val; omega)
  · exact Fin.ext (by show (h.val * 16 + f.val) % 16 = f.val; omega)

theorem op_rnode (a : Args) (hr : InRange a) (n : Fin 100000) (c : Fin 64) :
    Kernel.op a (rnode n) c
      = ∑ e ∈ Ref.into a n,
          Ref.sf a e (col ⟨c.val / 16, by have := c.isLt; omega⟩ ⟨c.val % 16, Nat.mod_lt _ (by decide)⟩)
            * Ref.al a e ⟨c.val / 16, by have := c.isLt; omega⟩ := by
  unfold Kernel.op
  exact scat_eq_sum_into a hr
    (fun e c => wfeat (Kernel.sf a) (Kernel.al a) e ⟨c.val / 16, by have := c.isLt; omega⟩
      ⟨c.val % 16, Nat.mod_lt _ (by decide)⟩)
    (fun e c => Ref.sf a e (col ⟨c.val / 16, by have := c.isLt; omega⟩ ⟨c.val % 16, Nat.mod_lt _ (by decide)⟩)
      * Ref.al a e ⟨c.val / 16, by have := c.isLt; omega⟩)
    (fun e c => by unfold wfeat; rw [sf_real a hr, al_real a hr]) n c

theorem bridge (a : Args) (hr : InRange a) (h : Fin 4) (n : Fin 100000) (f : Fin 16) :
    Kernel.out a h n f = Ref.out a h n f := by
  unfold Kernel.out Ref.out
  rw [op_rnode a hr]
  refine Finset.sum_congr rfl fun e _ => ?_
  have p : (col h f).val / 16 < 4 := by have := (col h f).isLt; omega
  have q : (col h f).val % 16 < 16 := Nat.mod_lt _ (by decide)
  rw [(col_split h f p q).1, (col_split h f p q).2]

end Cert.Spec

end
-- ==== Proof.PreDecode.lean ====
import proofs.«417626_j75007308858099_3_alg».proof.Pre_finite_inputs
import proofs.«417626_j75007308858099_3_alg».proof.Proof.Gen.Pre_finite_inputs
import Idealize.ShloMosaic.Lib.ReduceAll
import Idealize.ShloMosaic.Lib.StableHlo.Predicate
import Idealize.ShloMosaic.PureOps.Ideal

noncomputable section

namespace Cert.PreDecode

open Idealize.ShloMosaic Cert.Pre_finite_inputs

instance subsingleton_scalarIdx : Subsingleton S_.Idx := ⟨fun a b => funext fun d => d.elim0⟩

theorem sge_zero_iff (x : BitVec 32) : IntOp.cmpi .sge x 0#32 = 1#1 ↔ 0 ≤ x.toInt := by
  unfold IntOp.cmpi
  simp only [StableHlo.Predicate.ofBool_eq_one_iff, BitVec.sle, decide_eq_true_eq]
  rw [show (0#32 : BitVec 32).toInt = 0 from by decide]

theorem slt_nodes_iff (x : BitVec 32) : IntOp.cmpi .slt x 100000#32 = 1#1 ↔ x.toInt < 100000 := by
  unfold IntOp.cmpi
  simp only [StableHlo.Predicate.ofBool_eq_one_iff, BitVec.slt, decide_eq_true_eq]
  rw [show (100000#32 : BitVec 32).toInt = 100000 from by decide]

theorem andi_at (p q : IVec S_ 1) (j : S_.Idx) : andi p q j = IntOp.andi (p j) (q j) := rfl

theorem inRange_of_pre {F : FTy → Type} [FloatOps F]
    (a0 : FVec F S100000x64 .f32) (a1 : FVec F S64x64 .f32) (a2 : FVec F S64 .f32) (a3 a4 : FVec F S1x4x16 .f32)
    (a5 : IVec S2x1600000 32)
    (h : Cert.Pre_finite_inputs.fn (F := F) a0 a1 a2 a3 a4 a5 = fun _ => 1#1) :
    ∀ i : Cert.Pre_finite_inputs.S2x1600000.Idx, 0 ≤ (a5 i).toInt ∧ (a5 i).toInt < 100000 := by
  intro i
  have e := congrFun h (fun d => d.elim0)
  dsimp only [Cert.Pre_finite_inputs.fn, Cert.Pre_finite_inputs.fn_part1] at e
  rw [andi_at] at e
  obtain ⟨e, hlt⟩ := IntOp.andi_eq_one.1 e
  rw [andi_at] at e
  obtain ⟨-, hge⟩ := IntOp.andi_eq_one.1 e
  have hge_i : IntOp.cmpi .sge (a5 i) 0#32 = 1#1 := Host.reduce_andi_all _ _ _ _ _ hge i
  have hlt_i : IntOp.cmpi .slt (a5 i) 100000#32 = 1#1 := Host.reduce_andi_all _ _ _ _ _ hlt i
  exact ⟨(sge_zero_iff _).1 hge_i, (slt_nodes_iff _).1 hlt_i⟩

end Cert.PreDecode

end
-- ==== Proof.Final.lean ====
import proofs.«417626_j75007308858099_3_alg».proof.Defs
import proofs.«417626_j75007308858099_3_alg».proof.Proof.Gen.Kernel
import proofs.«417626_j75007308858099_3_alg».proof.Proof.Gen.KernelIdeal
import proofs.«417626_j75007308858099_3_alg».proof.Proof.Gen.ReferenceIdeal
import proofs.«417626_j75007308858099_3_alg».proof.Proof.Gen.Pre_finite_inputs
import proofs.«417626_j75007308858099_3_alg».proof.Proof.KI.Run
import proofs.«417626_j75007308858099_3_alg».proof.Proof.KI.Chain
import proofs.«417626_j75007308858099_3_alg».proof.Proof.RefRun
import proofs.«417626_j75007308858099_3_alg».proof.Proof.RefValue
import proofs.«417626_j75007308858099_3_alg».proof.Proof.Bridge
import proofs.«417626_j75007308858099_3_alg».proof.Proof.PreDecode

noncomputable section

namespace Cert.Proof.Final

open Idealize.ShloMosaic Idealize.ShloMosaic.TcCoe Idealize.SL.Sem Idealize.ShloMosaic.ValueIdx

theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

variable {F : FTy → Type} [FloatOps F]

-- The two printed programs are one text: their body tables agree label by label,
set_option maxHeartbeats 2000000 in
theorem defs_eq : Cert.Kernel.defs (F := F) = Cert.KernelIdeal.defs (F := F) := by
  have h : Cert.Kernel.defs₀ (F := F) = Cert.KernelIdeal.defs₀ (F := F) := by
    unfold Cert.Kernel.defs₀ Cert.KernelIdeal.defs₀
    refine congrArg Defs.onTc (funext fun l => funext fun a => ?_)
    match l, a with
    | 0, _ => rfl
    | 1, _ => rfl
    | 2, _ => rfl
    | 3, _ => rfl
    | 4, _ => rfl
  exact congrArg (Pipeline.defs _) h

-- and so do their entry functions, operation by operation.
set_option maxHeartbeats 2000000 in
theorem main_eq : Cert.Kernel.main (F := F) = Cert.KernelIdeal.main (F := F) := rfl

-- The run is proved once for any float family, so the word-level program's frame is the idealized text's frame read at words.
set_option maxHeartbeats 2000000 in
theorem frame_k : Cert.frame_Kernel := fun m ρ _ => by
  rw [defs_eq, main_eq]; exact Cert.KernelIdeal.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

theorem algebraic : Cert.algebraic_KernelIdeal_ReferenceIdeal := by
  intro m g m' g' hpre hagree
  refine ⟨fun c => Cert.KernelIdeal.Hand.W15 m c (Proc.devRef .tc Cert.KernelIdeal.main_v27), ?_, ?_⟩
  · exact (θ_run Cert.KernelIdeal.defs _ _).mono (fun r h c =>
      ⟨h c _ (mem_uc Cert.KernelIdeal.main_v27 (by decide)),
       (h c _ (mem_uc Cert.KernelIdeal.main_arg0 (by decide))).trans (Cert.KernelIdeal.Hand.W15_main_arg0 m c),
       (h c _ (mem_uc Cert.KernelIdeal.main_arg1 (by decide))).trans (Cert.KernelIdeal.Hand.W15_main_arg1 m c),
       (h c _ (mem_uc Cert.KernelIdeal.main_arg2 (by decide))).trans (Cert.KernelIdeal.Hand.W15_main_arg2 m c),
       (h c _ (mem_uc Cert.KernelIdeal.main_arg3 (by decide))).trans (Cert.KernelIdeal.Hand.W15_main_arg3 m c),
       (h c _ (mem_uc Cert.KernelIdeal.main_arg4 (by decide))).trans (Cert.KernelIdeal.Hand.W15_main_arg4 m c),
       (h c _ (mem_uc Cert.KernelIdeal.main_arg5 (by decide))).trans (Cert.KernelIdeal.Hand.W15_main_arg5 m c)⟩)
      (Cert.KernelIdeal.Hand.run_all (F := Ideal) m g)
  · refine (θ_run Cert.ReferenceIdeal.defs _ _).mono (fun r h c => ⟨(h c).1.trans ?_, (h c).2⟩)
      (Cert.ReferenceIdeal.HandRun.run (F := Ideal) m' g')
    have hin := Cert.PreDecode.inRange_of_pre (F := Ideal) _ _ _ _ _ _ (hpre c)
    obtain ⟨e0, e1, e2, e3, e4, e5⟩ := hagree c
    rw [e0, e1, e2, e3, e4, e5]
    funext i
    obtain ⟨h, n, f, rfl⟩ : ∃ (h : Fin 4) (n : Fin 100000) (f : Fin 16), i = ix3 h n f := ⟨i 0, i 1, i 2, eq_ix3 i⟩
    have hr : Cert.Spec.InRange (Cert.Spec.argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :=
      fun r e => hin (ix2 r e)
    refine (Cert.ReferenceIdeal.HandRun.st_v52_apply _ _ _ _ _ _ hr h n f).trans ?_
    refine ((Cert.Spec.bridge _ hr h n f).symm).trans ?_
    exact (Cert.KernelIdeal.Hand.W15_v27_apply m c h n f).symm

end Cert.Proof.Final

end
-- ==== Proof.lean ====
import proofs.«417626_j75007308858099_3_alg».proof.Proof.Final
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Final.frame_k, Cert.Proof.Final.frame_ki, Cert.Proof.Final.frame_ri, Cert.Proof.Final.preserves,
    Cert.Proof.Final.algebraic⟩

end Cert.Proof

end
